-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v261)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v261) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S131072x3 : Shape := ⟨2, ![131072, 3]⟩
abbrev S131072x4 : Shape := ⟨2, ![131072, 4]⟩
abbrev S32768x1 : Shape := ⟨2, ![32768, 1]⟩
abbrev S32768x3 : Shape := ⟨2, ![32768, 3]⟩
abbrev S32768x4 : Shape := ⟨2, ![32768, 4]⟩
abbrev S2048x3 : Shape := ⟨2, ![2048, 3]⟩
abbrev S8 : Shape := ⟨1, ![8]⟩
abbrev S2097152 : Shape := ⟨1, ![2097152]⟩
abbrev S32768 : Shape := ⟨1, ![32768]⟩
abbrev S262144 : Shape := ⟨1, ![262144]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S131072x3 : S_.BroadcastsInDim S131072x3 (![] : Fin 0 → Fin S131072x3.rank)
  reducesTo_S131072x3_S_d0_1 : S131072x3.ReducesTo [0, 1] S_
  bcast_S_S131072x4 : S_.BroadcastsInDim S131072x4 (![] : Fin 0 → Fin S131072x4.rank)
  reducesTo_S131072x4_S_d0_1 : S131072x4.ReducesTo [0, 1] S_
  bcast_S_S32768x1 : S_.BroadcastsInDim S32768x1 (![] : Fin 0 → Fin S32768x1.rank)
  reducesTo_S32768x1_S_d0_1 : S32768x1.ReducesTo [0, 1] S_
  bcast_S_S32768x3 : S_.BroadcastsInDim S32768x3 (![] : Fin 0 → Fin S32768x3.rank)
  reducesTo_S32768x3_S_d0_1 : S32768x3.ReducesTo [0, 1] S_
  bcast_S_S32768x4 : S_.BroadcastsInDim S32768x4 (![] : Fin 0 → Fin S32768x4.rank)
  reducesTo_S32768x4_S_d0_1 : S32768x4.ReducesTo [0, 1] S_
  bcast_S_S2048x3 : S_.BroadcastsInDim S2048x3 (![] : Fin 0 → Fin S2048x3.rank)
  reducesTo_S2048x3_S_d0_1 : S2048x3.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg7 : FVec F S32768x3 .f32) (main_arg8 : FVec F S32768x4 .f32) (main_arg9 : FVec F S2048x3 .f32) (main_arg10 : FVec F S8 .f32) (main_v33 : IVec S_ 1) : IVec S_ 1 :=
  let main_v34 : FVec F S32768x3 .f32 := Host.absf main_arg7
  let main_cst_12 : FVec F S_ .f32 := constant S_ .f32 0x7F800000#32
  let main_v35 : FVec F S32768x3 .f32 := broadcastInDim S32768x3 ![] bcast_S_S32768x3 main_cst_12
  let main_v36 : IVec S32768x3 1 := cmpf .olt main_v34 main_v35
  let main_c_13 : IVec S_ 1 := constantI S_ 1 1#1
  let main_v37 : IVec S_ 1 := (fun x v => Host.reduce IntOp.andi x v reducesTo_S32768x3_S_d0_1 h_S_) main_v36 main_c_13
  let main_v38 : IVec S_ 1 := andi main_v33 main_v37
  let main_v39 : FVec F S32768x4 .f32 := Host.absf main_arg8
  let main_cst_14 : FVec F S_ .f32 := constant S_ .f32 0x7F800000#32
  let main_v40 : FVec F S32768x4 .f32 := broadcastInDim S32768x4 ![] bcast_S_S32768x4 main_cst_14
  let main_v41 : IVec S32768x4 1 := cmpf .olt main_v39 main_v40
  let main_c_15 : IVec S_ 1 := constantI S_ 1 1#1
  let main_v42 : IVec S_ 1 := (fun x v => Host.reduce IntOp.andi x v reducesTo_S32768x4_S_d0_1 h_S_) main_v41 main_c_15
  let main_v43 : IVec S_ 1 := andi main_v38 main_v42
  let main_v44 : FVec F S2048x3 .f32 := Host.absf main_arg9
  let main_cst_16 : FVec F S_ .f32 := constant S_ .f32 0x7F800000#32
  let main_v45 : FVec F S2048x3 .f32 := broadcastInDim S2048x3 ![] bcast_S_S2048x3 main_cst_16
  let main_v46 : IVec S2048x3 1 := cmpf .olt main_v44 main_v45
  let main_c_17 : IVec S_ 1 := constantI S_ 1 1#1
  let main_v47 : IVec S_ 1 := (fun x v => Host.reduce IntOp.andi x v reducesTo_S2048x3_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg4 : FVec F S32768x3 .f32) (main_arg5 : FVec F S32768x4 .f32) (main_arg6 : FVec F S32768x1 .f32) (main_arg7 : FVec F S32768x3 .f32) (main_arg8 : FVec F S32768x4 .f32) (main_arg9 : FVec F S2048x3 .f32) (main_arg10 : FVec F S8 .f32) (main_v13 : IVec S_ 1) (main_v16 : IVec S32768x1 1) : IVec S_ 1 :=
  let main_c_5 : IVec S_ 1 := constantI S_ 1 1#1
  let main_v17 : IVec S_ 1 := (fun x v => Host.reduce IntOp.andi x v reducesTo_S32768x1_S_d0_1 h_S_) main_v16 main_c_5
  let main_v18 : IVec S_ 1 := andi main_v13 main_v17
  let main_v19 : FVec F S32768x3 .f32 := Host.absf main_arg4
  let main_cst_6 : FVec F S_ .f32 := constant S_ .f32 0x7F800000#32
  let main_v20 : FVec F S32768x3 .f32 := broadcastInDim S32768x3 ![] bcast_S_S32768x3 main_cst_6
  let main_v21 : IVec S32768x3 1 := cmpf .olt main_v19 main_v20
  let main_c_7 : IVec S_ 1 := constantI S_ 1 1#1
  let main_v22 : IVec S_ 1 := (fun x v => Host.reduce IntOp.andi x v reducesTo_S32768x3_S_d0_1 h_S_) main_v21 main_c_7
  let main_v23 : IVec S_ 1 := andi main_v18 main_v22
  let main_v24 : FVec F S32768x4 .f32 := Host.absf main_arg5
  let main_cst_8 : FVec F S_ .f32 := constant S_ .f32 0x7F800000#32
  let main_v25 : FVec F S32768x4 .f32 := broadcastInDim S32768x4 ![] bcast_S_S32768x4 main_cst_8
  let main_v26 : IVec S32768x4 1 := cmpf .olt main_v24 main_v25
  let main_c_9 : IVec S_ 1 := constantI S_ 1 1#1
  let main_v27 : IVec S_ 1 := (fun x v => Host.reduce IntOp.andi x v reducesTo_S32768x4_S_d0_1 h_S_) main_v26 main_c_9
  let main_v28 : IVec S_ 1 := andi main_v23 main_v27
  let main_v29 : FVec F S32768x1 .f32 := Host.absf main_arg6
  let main_cst_10 : FVec F S_ .f32 := constant S_ .f32 0x7F800000#32
  let main_v30 : FVec F S32768x1 .f32 := broadcastInDim S32768x1 ![] bcast_S_S32768x1 main_cst_10
  let main_v31 : IVec S32768x1 1 := cmpf .olt main_v29 main_v30
  let main_c_11 : IVec S_ 1 := constantI S_ 1 1#1
  let main_v32 : IVec S_ 1 := (fun x v => Host.reduce IntOp.andi x v reducesTo_S32768x1_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x1 .f32) (main_arg1 : FVec F S131072x3 .f32) (main_arg2 : FVec F S131072x4 .f32) (main_arg3 : FVec F S32768x1 .f32) (main_arg4 : FVec F S32768x3 .f32) (main_arg5 : FVec F S32768x4 .f32) (main_arg6 : FVec F S32768x1 .f32) (main_arg7 : FVec F S32768x3 .f32) (main_arg8 : FVec F S32768x4 .f32) (main_arg9 : FVec F S2048x3 .f32) (main_arg10 : FVec F S8 .f32) (main_arg11 : IVec S2097152 32) (main_arg12 : IVec S2097152 32) (main_arg13 : IVec S32768 32) (main_arg14 : IVec S32768 32) (main_arg15 : IVec S32768 32) (main_arg16 : IVec S262144 32) (main_arg17 : IVec S262144 32) (main_arg18 : IVec S32768 32) (main_arg19 : IVec S32768 32) (main_arg20 : IVec S32768 32) (main_arg21 : IVec S262144 32) (main_arg22 : IVec S262144 32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S131072x3 .f32 := Host.absf main_arg1
  let main_cst_0 : FVec F S_ .f32 := constant S_ .f32 0x7F800000#32
  let main_v5 : FVec F S131072x3 .f32 := broadcastInDim S131072x3 ![] bcast_S_S131072x3 main_cst_0
  let main_v6 : IVec S131072x3 1 := cmpf .olt main_v4 main_v5
  let main_c_1 : IVec S_ 1 := constantI S_ 1 1#1
  let main_v7 : IVec S_ 1 := (fun x v => Host.reduce IntOp.andi x v reducesTo_S131072x3_S_d0_1 h_S_) main_v6 main_c_1
  let main_v8 : IVec S_ 1 := andi main_v3 main_v7
  let main_v9 : FVec F S131072x4 .f32 := Host.absf main_arg2
  let main_cst_2 : FVec F S_ .f32 := constant S_ .f32 0x7F800000#32
  let main_v10 : FVec F S131072x4 .f32 := broadcastInDim S131072x4 ![] bcast_S_S131072x4 main_cst_2
  let main_v11 : IVec S131072x4 1 := cmpf .olt main_v9 main_v10
  let main_c_3 : IVec S_ 1 := constantI S_ 1 1#1
  let main_v12 : IVec S_ 1 := (fun x v => Host.reduce IntOp.andi x v reducesTo_S131072x4_S_d0_1 h_S_) main_v11 main_c_3
  let main_v13 : IVec S_ 1 := andi main_v8 main_v12
  let main_v14 : FVec F S32768x1 .f32 := Host.absf main_arg3
  let main_cst_4 : FVec F S_ .f32 := constant S_ .f32 0x7F800000#32
  let main_v15 : FVec F S32768x1 .f32 := broadcastInDim S32768x1 ![] bcast_S_S32768x1 main_cst_4
  let main_v16 : IVec S32768x1 1 := cmpf .olt main_v14 main_v15
  fn_part1 (F := F) main_arg4 main_arg5 main_arg6 main_arg7 main_arg8 main_arg9 main_arg10 main_v13 main_v16
-- ==== Kernel.lean ====
abbrev S131072x1 : Shape := ⟨2, ![131072, 1]⟩
abbrev S131072x3 : Shape := ⟨2, ![131072, 3]⟩
abbrev S131072x4 : Shape := ⟨2, ![131072, 4]⟩
abbrev S32768x1 : Shape := ⟨2, ![32768, 1]⟩
abbrev S32768x3 : Shape := ⟨2, ![32768, 3]⟩
abbrev S32768x4 : Shape := ⟨2, ![32768, 4]⟩
abbrev S2048x3 : Shape := ⟨2, ![2048, 3]⟩
abbrev S8 : Shape := ⟨1, ![8]⟩
abbrev S2097152 : Shape := ⟨1, ![2097152]⟩
abbrev S32768 : Shape := ⟨1, ![32768]⟩
abbrev S262144 : Shape := ⟨1, ![262144]⟩
abbrev S_ : Shape := ⟨0, ![]⟩
abbrev S2097152x1 : Shape := ⟨2, ![2097152, 1]⟩
abbrev S2097152x3 : Shape := ⟨2, ![2097152, 3]⟩
abbrev S2097152x5 : Shape := ⟨2, ![2097152, 5]⟩
abbrev S131072x5 : Shape := ⟨2, ![131072, 5]⟩
abbrev S1x3 : Shape := ⟨2, ![1, 3]⟩
abbrev S2048x1 : Shape := ⟨2, ![2048, 1]⟩
abbrev S2048 : Shape := ⟨1, ![2048]⟩
abbrev S1 : Shape := ⟨1, ![1]⟩
abbrev S1x1 : Shape := ⟨2, ![1, 1]⟩
abbrev S3 : Shape := ⟨1, ![3]⟩
abbrev S32768x2 : Shape := ⟨2, ![32768, 2]⟩
abbrev S512x3 : Shape := ⟨2, ![512, 3]⟩
abbrev S512x1 : Shape := ⟨2, ![512, 1]⟩
abbrev S3x2048 : Shape := ⟨2, ![3, 2048]⟩
abbrev S512x2048 : Shape := ⟨2, ![512, 2048]⟩
abbrev S1x2048 : Shape := ⟨2, ![1, 2048]⟩
abbrev S512 : Shape := ⟨1, ![512]⟩
abbrev S262144x1 : Shape := ⟨2, ![262144, 1]⟩
abbrev S262144x3 : Shape := ⟨2, ![262144, 3]⟩
abbrev S262144x2 : Shape := ⟨2, ![262144, 2]⟩

abbrev nBuf : Space → Nat
  | .hbm => 372
  | .vmem => 43
  | .smem => 0
  | _ => 0

abbrev hbmTy0_0 (i : Nat) : BufTy := match i % 128 with
  | 0 => ⟨S131072x1, .f32⟩
  | 1 => ⟨S131072x3, .f32⟩
  | 2 => ⟨S131072x4, .f32⟩
  | 3 => ⟨S32768x1, .f32⟩
  | 4 => ⟨S32768x3, .f32⟩
  | 5 => ⟨S32768x4, .f32⟩
  | 6 => ⟨S32768x1, .f32⟩
  | 7 => ⟨S32768x3, .f32⟩
  | 8 => ⟨S32768x4, .f32⟩
  | 9 => ⟨S2048x3, .f32⟩
  | 10 => ⟨S8, .f32⟩
  | 11 => ⟨S2097152, .i32⟩
  | 12 => ⟨S2097152, .i32⟩
  | 13 => ⟨S32768, .i32⟩
  | 14 => ⟨S32768, .i32⟩
  | 15 => ⟨S32768, .i32⟩
  | 16 => ⟨S262144, .i32⟩
  | 17 => ⟨S262144, .i32⟩
  | 18 => ⟨S32768, .i32⟩
  | 19 => ⟨S32768, .i32⟩
  | 20 => ⟨S32768, .i32⟩
  | 21 => ⟨S262144, .i32⟩
  | 22 => ⟨S262144, .i32⟩
  | 23 => ⟨S131072x1, .f32⟩
  | 24 => ⟨S_, .f32⟩
  | 25 => ⟨S2097152x1, .f32⟩
  | 26 => ⟨S_, .i32⟩
  | 27 => ⟨S2097152, .i32⟩
  | 28 => ⟨S2097152, .i1⟩
  | 29 => ⟨S_, .i32⟩
  | 30 => ⟨S2097152, .i32⟩
  | 31 => ⟨S2097152, .i32⟩
  | 32 => ⟨S2097152, .i32⟩
  | 33 => ⟨S2097152x1, .i32⟩
  | 34 => ⟨S2097152x3, .f32⟩
  | 35 => ⟨S_, .i32⟩
  | 36 => ⟨S2097152, .i32⟩
  | 37 => ⟨S2097152, .i1⟩
  | 38 => ⟨S_, .i32⟩
  | 39 => ⟨S2097152, .i32⟩
  | 40 => ⟨S2097152, .i32⟩
  | 41 => ⟨S2097152, .i32⟩
  | 42 => ⟨S2097152x1, .i32⟩
  | 43 => ⟨S2097152x1, .f32⟩
  | 44 => ⟨S2097152x5, .f32⟩
  | 45 => ⟨S_, .f32⟩
  | 46 => ⟨S131072x5, .f32⟩
  | 47 => ⟨S2097152x1, .i32⟩
  | 48 => ⟨S131072x5, .f32⟩
  | 49 => ⟨S131072x1, .f32⟩
  | 50 => ⟨S_, .f32⟩
  | 51 => ⟨S131072x1, .f32⟩
  | 52 => ⟨S131072x1, .f32⟩
  | 53 => ⟨S131072x3, .f32⟩
  | 54 => ⟨S131072x3, .f32⟩
  | 55 => ⟨S131072x3, .f32⟩
  | 56 => ⟨S131072x1, .f32⟩
  | 57 => ⟨S131072x1, .f32⟩
  | 58 => ⟨S1x3, .f32⟩
  | 59 => ⟨S3, .f32⟩
  | 60 => ⟨S1, .f32⟩
  | 61 => ⟨S_, .f32⟩
  | 62 => ⟨S_, .f32⟩
  | 63 => ⟨S_, .f32⟩
  | 64 => ⟨S1, .f32⟩
  | 65 => ⟨S_, .f32⟩
  | 66 => ⟨S_, .f32⟩
  | 67 => ⟨S_, .f32⟩
  | 68 => ⟨S1, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S32768, .f32⟩
  | 89 => ⟨S_, .f32⟩
  | 90 => ⟨S_, .f32⟩
  | 91 => ⟨S32768, .f32⟩
  | 92 => ⟨S32768, .f32⟩
  | 93 => ⟨S32768x1, .f32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S32768x3, .f32⟩
  | 103 => ⟨S_, .i32⟩
  | 104 => ⟨S32768, .i32⟩
  | 105 => ⟨S32768, .i1⟩
  | 106 => ⟨S_, .i32⟩
  | 107 => ⟨S32768, .i32⟩
  | 108 => ⟨S32768, .i32⟩
  | 109 => ⟨S32768, .i32⟩
  | 110 => ⟨S32768x1, .i32⟩
  | 111 => ⟨S32768x3, .f32⟩
  | 112 => ⟨S32768x3, .f32⟩
  | 113 => ⟨S32768x3, .f32⟩
  | 114 => ⟨S_, .f32⟩
  | 115 => ⟨S32768, .f32⟩
  | 116 => ⟨S32768x1, .f32⟩
  | 117 => ⟨S32768x1, .f32⟩
  | 118 => ⟨S_, .f32⟩
  | 119 => ⟨S32768x1, .f32⟩
  | 120 => ⟨S32768x1, .f32⟩
  | 121 => ⟨S32768x3, .f32⟩
  | 122 => ⟨S32768x3, .f32⟩
  | 123 => ⟨S_, .i32⟩
  | 124 => ⟨S32768, .i32⟩
  | 125 => ⟨S32768, .i1⟩
  | 126 => ⟨S_, .i32⟩
  | 127 => ⟨S32768, .i32⟩
  | _ => ⟨S131072x1, .f32⟩

abbrev hbmTy0_1 (i : Nat) : BufTy := match i % 128 with
  | 0 => ⟨S32768, .i32⟩
  | 1 => ⟨S32768, .i32⟩
  | 2 => ⟨S32768x1, .i32⟩
  | 3 => ⟨S_, .i32⟩
  | 4 => ⟨S32768x1, .i32⟩
  | 5 => ⟨S32768x2, .i32⟩
  | 6 => ⟨S32768x1, .f32⟩
  | 7 => ⟨S32768x1, .f32⟩
  | 8 => ⟨S_, .i32⟩
  | 9 => ⟨S32768, .i32⟩
  | 10 => ⟨S32768, .i1⟩
  | 11 => ⟨S_, .i32⟩
  | 12 => ⟨S32768, .i32⟩
  | 13 => ⟨S32768, .i32⟩
  | 14 => ⟨S32768, .i32⟩
  | 15 => ⟨S32768x1, .i32⟩
  | 16 => ⟨S32768x3, .f32⟩
  | 17 => ⟨S32768x3, .f32⟩
  | 18 => ⟨S32768x3, .f32⟩
  | 19 => ⟨S_, .i32⟩
  | 20 => ⟨S32768, .i32⟩
  | 21 => ⟨S32768, .i1⟩
  | 22 => ⟨S_, .i32⟩
  | 23 => ⟨S32768, .i32⟩
  | 24 => ⟨S32768, .i32⟩
  | 25 => ⟨S32768, .i32⟩
  | 26 => ⟨S32768x1, .i32⟩
  | 27 => ⟨S32768x1, .f32⟩
  | 28 => ⟨S32768x3, .f32⟩
  | 29 => ⟨S32768x3, .f32⟩
  | 30 => ⟨S32768x3, .f32⟩
  | 31 => ⟨S32768x1, .f32⟩
  | 32 => ⟨S_, .f32⟩
  | 33 => ⟨S32768x1, .f32⟩
  | 34 => ⟨S_, .i32⟩
  | 35 => ⟨S32768, .i32⟩
  | 36 => ⟨S32768, .i1⟩
  | 37 => ⟨S_, .i32⟩
  | 38 => ⟨S32768, .i32⟩
  | 39 => ⟨S32768, .i32⟩
  | 40 => ⟨S32768, .i32⟩
  | 41 => ⟨S32768x1, .i32⟩
  | 42 => ⟨S32768x1, .f32⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S262144x3, .f32⟩
  | 52 => ⟨S_, .i32⟩
  | 53 => ⟨S262144, .i32⟩
  | 54 => ⟨S262144, .i1⟩
  | 55 => ⟨S_, .i32⟩
  | 56 => ⟨S262144, .i32⟩
  | 57 => ⟨S262144, .i32⟩
  | 58 => ⟨S262144, .i32⟩
  | 59 => ⟨S262144x1, .i32⟩
  | 60 => ⟨S262144x3, .f32⟩
  | 61 => ⟨S262144x3, .f32⟩
  | 62 => ⟨S262144x3, .f32⟩
  | 63 => ⟨S_, .f32⟩
  | 64 => ⟨S262144, .f32⟩
  | 65 => ⟨S262144x1, .f32⟩
  | 66 => ⟨S_, .f32⟩
  | 67 => ⟨S262144x1, .f32⟩
  | 68 => ⟨S262144x2, .f32⟩
  | 69 => ⟨S_, .f32⟩
  | 70 => ⟨S32768x2, .f32⟩
  | 71 => ⟨S262144x1, .i32⟩
  | 72 => ⟨S32768x2, .f32⟩
  | 73 => ⟨S32768x1, .f32⟩
  | 74 => ⟨S32768x1, .f32⟩
  | 75 => ⟨S1x3, .f32⟩
  | 76 => ⟨S3, .f32⟩
  | 77 => ⟨S1, .f32⟩
  | 78 => ⟨S_, .f32⟩
  | 79 => ⟨S_, .f32⟩
  | 80 => ⟨S_, .f32⟩
  | 81 => ⟨S1, .f32⟩
  | 82 => ⟨S_, .f32⟩
  | 83 => ⟨S_, .f32⟩
  | 84 => ⟨S_, .f32⟩
  | 85 => ⟨S1, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .i32⟩
  | 99 => ⟨S32768, .i32⟩
  | 100 => ⟨S32768, .i1⟩
  | 101 => ⟨S_, .i32⟩
  | 102 => ⟨S32768, .i32⟩
  | 103 => ⟨S32768, .i32⟩
  | 104 => ⟨S32768, .i32⟩
  | 105 => ⟨S32768x1, .i32⟩
  | 106 => ⟨S32768, .f32⟩
  | 107 => ⟨S_, .f32⟩
  | 108 => ⟨S_, .f32⟩
  | 109 => ⟨S32768, .f32⟩
  | 110 => ⟨S32768, .f32⟩
  | 111 => ⟨S32768x1, .f32⟩
  | 112 => ⟨S_, .i32⟩
  | 113 => ⟨S32768, .i32⟩
  | 114 => ⟨S32768, .i1⟩
  | 115 => ⟨S_, .i32⟩
  | 116 => ⟨S32768, .i32⟩
  | 117 => ⟨S32768, .i32⟩
  | 118 => ⟨S32768, .i32⟩
  | 119 => ⟨S32768x1, .i32⟩
  | 120 => ⟨S32768x3, .f32⟩
  | 121 => ⟨S_, .i32⟩
  | 122 => ⟨S32768, .i32⟩
  | 123 => ⟨S32768, .i1⟩
  | 124 => ⟨S_, .i32⟩
  | 125 => ⟨S32768, .i32⟩
  | 126 => ⟨S32768, .i32⟩
  | 127 => ⟨S32768, .i32⟩
  | _ => ⟨S131072x1, .f32⟩

abbrev hbmTy0_2 (i : Nat) : BufTy := match i % 128 with
  | 0 => ⟨S32768x1, .i32⟩
  | 1 => ⟨S32768x3, .f32⟩
  | 2 => ⟨S32768x3, .f32⟩
  | 3 => ⟨S32768x3, .f32⟩
  | 4 => ⟨S_, .f32⟩
  | 5 => ⟨S32768, .f32⟩
  | 6 => ⟨S32768x1, .f32⟩
  | 7 => ⟨S32768x1, .f32⟩
  | 8 => ⟨S_, .f32⟩
  | 9 => ⟨S32768x1, .f32⟩
  | 10 => ⟨S32768x1, .f32⟩
  | 11 => ⟨S32768x3, .f32⟩
  | 12 => ⟨S32768x3, .f32⟩
  | 13 => ⟨S_, .i32⟩
  | 14 => ⟨S32768, .i32⟩
  | 15 => ⟨S32768, .i1⟩
  | 16 => ⟨S_, .i32⟩
  | 17 => ⟨S32768, .i32⟩
  | 18 => ⟨S32768, .i32⟩
  | 19 => ⟨S32768, .i32⟩
  | 20 => ⟨S32768x1, .i32⟩
  | 21 => ⟨S_, .i32⟩
  | 22 => ⟨S32768x1, .i32⟩
  | 23 => ⟨S32768x2, .i32⟩
  | 24 => ⟨S32768x1, .f32⟩
  | 25 => ⟨S32768x1, .f32⟩
  | 26 => ⟨S_, .i32⟩
  | 27 => ⟨S32768, .i32⟩
  | 28 => ⟨S32768, .i1⟩
  | 29 => ⟨S_, .i32⟩
  | 30 => ⟨S32768, .i32⟩
  | 31 => ⟨S32768, .i32⟩
  | 32 => ⟨S32768, .i32⟩
  | 33 => ⟨S32768x1, .i32⟩
  | 34 => ⟨S32768x3, .f32⟩
  | 35 => ⟨S32768x3, .f32⟩
  | 36 => ⟨S32768x3, .f32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S32768x1, .f32⟩
  | 46 => ⟨S32768x3, .f32⟩
  | 47 => ⟨S32768x3, .f32⟩
  | 48 => ⟨S32768x3, .f32⟩
  | 49 => ⟨S32768x1, .f32⟩
  | 50 => ⟨S_, .f32⟩
  | 51 => ⟨S32768x1, .f32⟩
  | 52 => ⟨S_, .i32⟩
  | 53 => ⟨S32768, .i32⟩
  | 54 => ⟨S32768, .i1⟩
  | 55 => ⟨S_, .i32⟩
  | 56 => ⟨S32768, .i32⟩
  | 57 => ⟨S32768, .i32⟩
  | 58 => ⟨S32768, .i32⟩
  | 59 => ⟨S32768x1, .i32⟩
  | 60 => ⟨S32768x1, .f32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144x3, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S262144x3, .f32⟩
  | 79 => ⟨S262144x3, .f32⟩
  | 80 => ⟨S262144x3, .f32⟩
  | 81 => ⟨S_, .f32⟩
  | 82 => ⟨S262144, .f32⟩
  | 83 => ⟨S262144x1, .f32⟩
  | 84 => ⟨S_, .f32⟩
  | 85 => ⟨S262144x1, .f32⟩
  | 86 => ⟨S262144x2, .f32⟩
  | 87 => ⟨S_, .f32⟩
  | 88 => ⟨S32768x2, .f32⟩
  | 89 => ⟨S262144x1, .i32⟩
  | 90 => ⟨S32768x2, .f32⟩
  | 91 => ⟨S32768x1, .f32⟩
  | 92 => ⟨S32768x1, .f32⟩
  | 93 => ⟨S1x3, .f32⟩
  | 94 => ⟨S3, .f32⟩
  | 95 => ⟨S1, .f32⟩
  | 96 => ⟨S_, .f32⟩
  | 97 => ⟨S_, .f32⟩
  | 98 => ⟨S_, .f32⟩
  | 99 => ⟨S1, .f32⟩
  | 100 => ⟨S_, .f32⟩
  | 101 => ⟨S_, .f32⟩
  | 102 => ⟨S_, .f32⟩
  | 103 => ⟨S1, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | _ => ⟨S131072x1, .f32⟩

abbrev hbmTy (i : Nat) : BufTy := match i / 128 with
  | 0 => hbmTy0_0 i
  | 1 => hbmTy0_1 i
  | 2 => hbmTy0_2 i
  | _ => ⟨S131072x1, .f32⟩

abbrev bufTy : (tb : Table) → Fin (tcTables nBuf tb) → BufTy
  | .hbm, ⟨i, _⟩ => hbmTy i
  | .local _ .vmem, ⟨0, _⟩ => ⟨S2048x1, .f32⟩
  | .local _ .vmem, ⟨1, _⟩ => ⟨S2048x1, .f32⟩
  | .local _ .vmem, ⟨2, _⟩ => ⟨S2048x3, .f32⟩
  | .local _ .vmem, ⟨3, _⟩ => ⟨S2048x3, .f32⟩
  | .local _ .vmem, ⟨4, _⟩ => ⟨S2048x3, .f32⟩
  | .local _ .vmem, ⟨5, _⟩ => ⟨S2048x3, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S1x3, .f32⟩
  | .local _ .vmem, ⟨11, _⟩ => ⟨S512x3, .f32⟩
  | .local _ .vmem, ⟨12, _⟩ => ⟨S512x3, .f32⟩
  | .local _ .vmem, ⟨13, _⟩ => ⟨S2048x3, .f32⟩
  | .local _ .vmem, ⟨14, _⟩ => ⟨S512x1, .f32⟩
  | .local _ .vmem, ⟨15, _⟩ => ⟨S512x1, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | .local _ .vmem, ⟨22, _⟩ => ⟨S2048x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S1x3, .f32⟩
  | .local _ .vmem, ⟨27, _⟩ => ⟨S512x3, .f32⟩
  | .local _ .vmem, ⟨28, _⟩ => ⟨S512x3, .f32⟩
  | .local _ .vmem, ⟨29, _⟩ => ⟨S2048x3, .f32⟩
  | .local _ .vmem, ⟨30, _⟩ => ⟨S512x1, .f32⟩
  | .local _ .vmem, ⟨31, _⟩ => ⟨S512x1, .f32⟩
  | .local _ .vmem, ⟨32, _⟩ => ⟨S2048x1, .f32⟩
  | .local _ .vmem, ⟨33, _⟩ => ⟨S2048x1, .f32⟩
  | .local _ .vmem, ⟨34, _⟩ => ⟨S2048x1, .f32⟩
  | .local _ .vmem, ⟨35, _⟩ => ⟨S2048x1, .f32⟩
  | .local _ .vmem, ⟨36, _⟩ => ⟨S2048x1, .f32⟩
  | .local _ .vmem, ⟨37, _⟩ => ⟨S2048x1, .f32⟩
  | .local _ .vmem, ⟨38, _⟩ => ⟨S2048x1, .f32⟩
  | .local _ .vmem, ⟨39, _⟩ => ⟨S2048x1, .f32⟩
  | .local _ .vmem, ⟨40, _⟩ => ⟨S2048x1, .f32⟩
  | .local _ .vmem, ⟨41, _⟩ => ⟨S2048x1, .f32⟩
  | .local _ .vmem, ⟨42, _⟩ => ⟨S1x3, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_1 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_c_11 : Ref sig .tc := ⟨.hbm, 80, rfl⟩
abbrev main_v44 : Ref sig .tc := ⟨.hbm, 81, rfl⟩
abbrev main_v45 : Ref sig .tc := ⟨.hbm, 82, rfl⟩
abbrev main_c_12 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_13 : Ref sig .tc := ⟨.hbm, 89, rfl⟩
abbrev main_call0_v0 : Ref sig .tc := ⟨.hbm, 90, rfl⟩
abbrev main_call0_v1 : Ref sig .tc := ⟨.hbm, 91, rfl⟩
abbrev main_v51 : Ref sig .tc := ⟨.hbm, 92, rfl⟩
abbrev main_v52 : Ref sig .tc := ⟨.hbm, 93, rfl⟩
abbrev main_c_14 : Ref sig .tc := ⟨.hbm, 94, rfl⟩
abbrev main_v53 : Ref sig .tc := ⟨.hbm, 95, rfl⟩
abbrev main_v54 : Ref sig .tc := ⟨.hbm, 96, rfl⟩
abbrev main_c_15 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_16 : Ref sig .tc := ⟨.hbm, 103, rfl⟩
abbrev main_v60 : Ref sig .tc := ⟨.hbm, 104, rfl⟩
abbrev main_v61 : Ref sig .tc := ⟨.hbm, 105, rfl⟩
abbrev main_c_17 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_call1_v0 : Ref sig .tc := ⟨.hbm, 113, rfl⟩
abbrev main_call1_cst : Ref sig .tc := ⟨.hbm, 114, rfl⟩
abbrev main_call1_v1 : Ref sig .tc := ⟨.hbm, 115, rfl⟩
abbrev main_call1_v2 : Ref sig .tc := ⟨.hbm, 116, rfl⟩
abbrev main_v68 : Ref sig .tc := ⟨.hbm, 117, rfl⟩
abbrev main_cst_18 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_19 : Ref sig .tc := ⟨.hbm, 123, rfl⟩
abbrev main_v73 : Ref sig .tc := ⟨.hbm, 124, rfl⟩
abbrev main_v74 : Ref sig .tc := ⟨.hbm, 125, rfl⟩
abbrev main_c_20 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_21 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_22 : Ref sig .tc := ⟨.hbm, 136, rfl⟩
abbrev main_v83 : Ref sig .tc := ⟨.hbm, 137, rfl⟩
abbrev main_v84 : Ref sig .tc := ⟨.hbm, 138, rfl⟩
abbrev main_c_23 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_24 : Ref sig .tc := ⟨.hbm, 147, rfl⟩
abbrev main_v92 : Ref sig .tc := ⟨.hbm, 148, rfl⟩
abbrev main_v93 : Ref sig .tc := ⟨.hbm, 149, rfl⟩
abbrev main_c_25 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_26 : Ref sig .tc := ⟨.hbm, 160, rfl⟩
abbrev main_v103 : Ref sig .tc := ⟨.hbm, 161, rfl⟩
abbrev main_c_27 : Ref sig .tc := ⟨.hbm, 162, rfl⟩
abbrev main_v104 : Ref sig .tc := ⟨.hbm, 163, rfl⟩
abbrev main_v105 : Ref sig .tc := ⟨.hbm, 164, rfl⟩
abbrev main_c_28 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_c_29 : Ref sig .tc := ⟨.hbm, 171, rfl⟩
abbrev main_v111 : Ref sig .tc := ⟨.hbm, 172, rfl⟩
abbrev main_v112 : Ref sig .tc := ⟨.hbm, 173, rfl⟩
abbrev main_c_30 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_31 : Ref sig .tc := ⟨.hbm, 180, rfl⟩
abbrev main_v118 : Ref sig .tc := ⟨.hbm, 181, rfl⟩
abbrev main_v119 : Ref sig .tc := ⟨.hbm, 182, rfl⟩
abbrev main_c_32 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_33 : Ref sig .tc := ⟨.hbm, 191, rfl⟩
abbrev main_v127 : Ref sig .tc := ⟨.hbm, 192, rfl⟩
abbrev main_v128 : Ref sig .tc := ⟨.hbm, 193, rfl⟩
abbrev main_cst_34 : Ref sig .tc := ⟨.hbm, 194, rfl⟩
abbrev main_v129 : Ref sig .tc := ⟨.hbm, 195, rfl⟩
abbrev main_v130 : Ref sig .tc := ⟨.hbm, 196, rfl⟩
abbrev main_cst_35 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_cst_36 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_37 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_38 : Ref sig .tc := ⟨.hbm, 215, rfl⟩
abbrev main_v146 : Ref sig .tc := ⟨.hbm, 216, rfl⟩
abbrev main_cst_39 : Ref sig .tc := ⟨.hbm, 217, rfl⟩
abbrev main_v147 : Ref sig .tc := ⟨.hbm, 218, rfl⟩
abbrev main_cst_40 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_cst_41 : Ref sig .tc := ⟨.hbm, 223, rfl⟩
abbrev main_v151 : Ref sig .tc := ⟨.hbm, 224, rfl⟩
abbrev main_v152 : Ref sig .tc := ⟨.hbm, 225, rfl⟩
abbrev main_c_42 : Ref sig .tc := ⟨.hbm, 226, rfl⟩
abbrev main_v153 : Ref sig .tc := ⟨.hbm, 227, rfl⟩
abbrev main_v154 : Ref sig .tc := ⟨.hbm, 228, rfl⟩
abbrev main_c_43 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_cst_44 : Ref sig .tc := ⟨.hbm, 235, rfl⟩
abbrev main_call2_v0 : Ref sig .tc := ⟨.hbm, 236, rfl⟩
abbrev main_call2_v1 : Ref sig .tc := ⟨.hbm, 237, rfl⟩
abbrev main_v160 : Ref sig .tc := ⟨.hbm, 238, rfl⟩
abbrev main_v161 : Ref sig .tc := ⟨.hbm, 239, rfl⟩
abbrev main_c_45 : Ref sig .tc := ⟨.hbm, 240, rfl⟩
abbrev main_v162 : Ref sig .tc := ⟨.hbm, 241, rfl⟩
abbrev main_v163 : Ref sig .tc := ⟨.hbm, 242, rfl⟩
abbrev main_c_46 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_c_47 : Ref sig .tc := ⟨.hbm, 249, rfl⟩
abbrev main_v169 : Ref sig .tc := ⟨.hbm, 250, rfl⟩
abbrev main_v170 : Ref sig .tc := ⟨.hbm, 251, rfl⟩
abbrev main_c_48 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_call3_v0 : Ref sig .tc := ⟨.hbm, 259, rfl⟩
abbrev main_call3_cst : Ref sig .tc := ⟨.hbm, 260, rfl⟩
abbrev main_call3_v1 : Ref sig .tc := ⟨.hbm, 261, rfl⟩
abbrev main_call3_v2 : Ref sig .tc := ⟨.hbm, 262, rfl⟩
abbrev main_v177 : Ref sig .tc := ⟨.hbm, 263, rfl⟩
abbrev main_cst_49 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_c_50 : Ref sig .tc := ⟨.hbm, 269, rfl⟩
abbrev main_v182 : Ref sig .tc := ⟨.hbm, 270, rfl⟩
abbrev main_v183 : Ref sig .tc := ⟨.hbm, 271, rfl⟩
abbrev main_c_51 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_c_52 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_c_53 : Ref sig .tc := ⟨.hbm, 282, rfl⟩
abbrev main_v192 : Ref sig .tc := ⟨.hbm, 283, rfl⟩
abbrev main_v193 : Ref sig .tc := ⟨.hbm, 284, rfl⟩
abbrev main_c_54 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_c_55 : Ref sig .tc := ⟨.hbm, 293, rfl⟩
abbrev main_v201 : Ref sig .tc := ⟨.hbm, 294, rfl⟩
abbrev main_v202 : Ref sig .tc := ⟨.hbm, 295, rfl⟩
abbrev main_c_56 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_cst_57 : Ref sig .tc := ⟨.hbm, 306, rfl⟩
abbrev main_v212 : Ref sig .tc := ⟨.hbm, 307, rfl⟩
abbrev main_c_58 : Ref sig .tc := ⟨.hbm, 308, rfl⟩
abbrev main_v213 : Ref sig .tc := ⟨.hbm, 309, rfl⟩
abbrev main_v214 : Ref sig .tc := ⟨.hbm, 310, rfl⟩
abbrev main_c_59 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_c_60 : Ref sig .tc := ⟨.hbm, 317, rfl⟩
abbrev main_v220 : Ref sig .tc := ⟨.hbm, 318, rfl⟩
abbrev main_v221 : Ref sig .tc := ⟨.hbm, 319, rfl⟩
abbrev main_c_61 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_c_62 : Ref sig .tc := ⟨.hbm, 326, rfl⟩
abbrev main_v227 : Ref sig .tc := ⟨.hbm, 327, rfl⟩
abbrev main_v228 : Ref sig .tc := ⟨.hbm, 328, rfl⟩
abbrev main_c_63 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩
abbrev main_v235 : Ref sig .tc := ⟨.hbm, 336, rfl⟩
abbrev main_cst_64 : Ref sig .tc := ⟨.hbm, 337, rfl⟩
abbrev main_v236 : Ref sig .tc := ⟨.hbm, 338, rfl⟩
abbrev main_v237 : Ref sig .tc := ⟨.hbm, 339, rfl⟩
abbrev main_cst_65 : Ref sig .tc := ⟨.hbm, 340, rfl⟩
abbrev main_v238 : Ref sig .tc := ⟨.hbm, 341, rfl⟩
abbrev main_v239 : Ref sig .tc := ⟨.hbm, 342, rfl⟩
abbrev main_cst_66 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_cst_67 : Ref sig .tc := ⟨.hbm, 353, rfl⟩
abbrev main_v249 : Ref sig .tc := ⟨.hbm, 354, rfl⟩
abbrev main_v250 : Ref sig .tc := ⟨.hbm, 355, rfl⟩
abbrev main_v251 : Ref sig .tc := ⟨.hbm, 356, rfl⟩
abbrev main_cst_68 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_cst_69 : Ref sig .tc := ⟨.hbm, 361, rfl⟩
abbrev main_v255 : Ref sig .tc := ⟨.hbm, 362, rfl⟩
abbrev main_cst_70 : Ref sig .tc := ⟨.hbm, 363, rfl⟩
abbrev main_v256 : Ref sig .tc := ⟨.hbm, 364, rfl⟩
abbrev main_cst_71 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_cst_72 : Ref sig .tc := ⟨.hbm, 369, rfl⟩
abbrev main_v260 : Ref sig .tc := ⟨.hbm, 370, rfl⟩
abbrev main_v261 : Ref sig .tc := ⟨.hbm, 371, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc4_sem5_0 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S131072x4_S131072x1_0_2 : S131072x4.Slices ![0, 2] S131072x1
  bcast_S_S2097152x1 : S_.BroadcastsInDim S2097152x1 (![] : Fin 0 → Fin S2097152x1.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x3_S2097152x1_S2097152x5_d1 : Shape.Concatenates [S2097152x1, S2097152x3, S2097152x1] S2097152x5 1
  bcast_S_S131072x5 : S_.BroadcastsInDim S131072x5 (![] : Fin 0 → Fin S131072x5.rank)
  slices_S131072x5_S131072x1_0_0 : S131072x5.Slices ![0, 0] S131072x1
  bcast_S_S131072x1 : S_.BroadcastsInDim S131072x1 (![] : Fin 0 → Fin S131072x1.rank)
  slices_S131072x5_S131072x3_0_1 : S131072x5.Slices ![0, 1] S131072x3
  bcast_S131072x1_S131072x3_0_1 : S131072x1.BroadcastsInDim S131072x3 (![0, 1] : Fin 2 → Fin S131072x3.rank)
  slices_S131072x5_S131072x1_0_4 : S131072x5.Slices ![0, 4] S131072x1
  inb_S1x3_S1x3_0_0 : ∀ a, (![0, 0] : Fin 2 → Nat) a + S1x3.size a ≤ S1x3.size a
  h_S1x3 : 0 < S1x3.numel
  iota_S2048x1_d0_w32 : S2048x1.Iotas .tc 32 [0]
  natLt_1_32 : 1 < 32
  inb_S2048x1_S2048x1_0_0 : ∀ a, (![0, 0] : Fin 2 → Nat) a + S2048x1.size a ≤ S2048x1.size a
  h_S2048x1 : 0 < S2048x1.numel
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  shapeCasts_S2048x1_S2048x1 : S2048x1.ShapeCasts S2048x1
  reduces_S2048x3_S2048 : S2048x3.Reduces [1] S2048
  shapeCasts_S2048_S2048x1 : S2048.ShapeCasts S2048x1
  reduces_S2048x1_S1 : S2048x1.Reduces [0] S1
  shapeCasts_S1_S1x1 : S1.ShapeCasts S1x1
  shapeCasts_S1x3_S1x3 : S1x3.ShapeCasts S1x3
  concatenates_S1x1_S1x1_S1x1_S1x3_d1 : Shape.Concatenates [S1x1, S1x1, S1x1] S1x3 1
  shapeCasts_S1x3_S3 : S1x3.ShapeCasts S3
  slices_S3_S1_0 : S3.Slices ![0] S1
  shapeCasts_S1_S_ : S1.ShapeCasts S_
  slices_S3_S1_1 : S3.Slices ![1] S1
  slices_S3_S1_2 : S3.Slices ![2] S1
  bcast_S_S32768 : S_.BroadcastsInDim S32768 (![] : Fin 0 → Fin S32768.rank)
  bcast_S32768_S32768x1_0 : S32768.BroadcastsInDim S32768x1 (![0] : Fin 1 → Fin S32768x1.rank)
  reducesTo_S32768x3_S32768_d1 : S32768x3.ReducesTo [1] S32768
  h_S_ : 0 < S_.numel
  bcast_S_S32768x1 : S_.BroadcastsInDim S32768x1 (![] : Fin 0 → Fin S32768x1.rank)
  bcast_S32768x1_S32768x3_0_1 : S32768x1.BroadcastsInDim S32768x3 (![0, 1] : Fin 2 → Fin S32768x3.rank)
  concatenates_S32768x1_S32768x1_S32768x2_d1 : Shape.Concatenates [S32768x1, S32768x1] S32768x2 1
  inb_S512x3_S512x3_0_0 : ∀ a, (![0, 0] : Fin 2 → Nat) a + S512x3.size a ≤ S512x3.size a
  h_S512x3 : 0 < S512x3.numel
  shapeCasts_S512x3_S512x3 : S512x3.ShapeCasts S512x3
  transposes_S2048x3_p1_0_S3x2048 : S2048x3.Transposes [1, 0] S3x2048
  slices_S512x3_o0_0_S512x1 : S512x3.Slices ![0, 0] S512x1
  slices_S3x2048_o0_0_S1x2048 : S3x2048.Slices ![0, 0] S1x2048
  broadcasts_S512x1_S512x2048 : S512x1.Broadcasts S512x2048
  broadcasts_S1x2048_S512x2048 : S1x2048.Broadcasts S512x2048
  slices_S512x3_o0_1_S512x1 : S512x3.Slices ![0, 1] S512x1
  slices_S3x2048_o1_0_S1x2048 : S3x2048.Slices ![1, 0] S1x2048
  slices_S512x3_o0_2_S512x1 : S512x3.Slices ![0, 2] S512x1
  slices_S3x2048_o2_0_S1x2048 : S3x2048.Slices ![2, 0] S1x2048
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  bcast_S_S262144x1 : S_.BroadcastsInDim S262144x1 (![] : Fin 0 → Fin S262144x1.rank)
  concatenates_S262144x1_S262144x1_S262144x2_d1 : Shape.Concatenates [S262144x1, S262144x1] S262144x2 1
  bcast_S_S32768x2 : S_.BroadcastsInDim S32768x2 (![] : Fin 0 → Fin S32768x2.rank)
  slices_S32768x2_S32768x1_0_0 : S32768x2.Slices ![0, 0] S32768x1
  slices_S32768x2_S32768x1_0_1 : S32768x2.Slices ![0, 1] S32768x1
  gather_S131072x3_S2097152x1_S2097152x3_1_0_n_n_0_1_13_wf : GatherDims.WF S131072x3 S2097152x1 S2097152x3 [1] [0] [] [0] [] 1 ![1, 3]
  gather_S131072x1_S2097152x1_S2097152x1_1_0_n_n_0_1_11_wf : GatherDims.WF S131072x1 S2097152x1 S2097152x1 [1] [0] [] [0] [] 1 ![1, 1]
  scatter_S131072x5_S2097152x1_S2097152x5_1_0_0_1_wf : ScatterDims.WF S131072x5 S2097152x1 S2097152x5 [1] [0] [0] 1
  gather_S8_S32768x1_S32768_n_0_n_n_0_1_1_wf : GatherDims.WF S8 S32768x1 S32768 [] [0] [] [0] [] 1 ![1]
  gather_S32768x3_S32768x1_S32768x3_1_0_n_n_0_1_13_wf : GatherDims.WF S32768x3 S32768x1 S32768x3 [1] [0] [] [0] [] 1 ![1, 3]
  gather_S32768x4_S32768x2_S32768x1_1_0_n_n_01_1_11_wf : GatherDims.WF S32768x4 S32768x2 S32768x1 [1] [0] [] [0, 1] [] 1 ![1, 1]
  gather_S32768x1_S32768x1_S32768x1_1_0_n_n_0_1_11_wf : GatherDims.WF S32768x1 S32768x1 S32768x1 [1] [0] [] [0] [] 1 ![1, 1]
  scatter_S32768x1_S32768x1_S32768x1_1_0_0_1_wf : ScatterDims.WF S32768x1 S32768x1 S32768x1 [1] [0] [0] 1
  gather_S32768x3_S262144x1_S262144x3_1_0_n_n_0_1_13_wf : GatherDims.WF S32768x3 S262144x1 S262144x3 [1] [0] [] [0] [] 1 ![1, 3]
  gather_S131072x3_S262144x1_S262144x3_1_0_n_n_0_1_13_wf : GatherDims.WF S131072x3 S262144x1 S262144x3 [1] [0] [] [0] [] 1 ![1, 3]
  scatter_S32768x2_S262144x1_S262144x2_1_0_0_1_wf : ScatterDims.WF S32768x2 S262144x1 S262144x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S131072x1.size a
  hwx0_0 : ∀ i : grid0.Coords, EltTy.bits .f32 = 32 ∨ (Rect.block (s := S131072x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S131072x3.size a
  hwx0_1 : ∀ i : grid0.Coords, EltTy.bits .f32 = 32 ∨ (Rect.block (s := S131072x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x3.size a ≤ S131072x3.size a
  hwx0_2 : ∀ i : grid0.Coords, EltTy.bits .f32 = 32 ∨ (Rect.block (s := S131072x3) S2048x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S131072x1.size a
  hwx0_4 : ∀ i : grid0.Coords, EltTy.bits .f32 = 32 ∨ (Rect.block (s := S131072x1) S2048x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3.size a ≤ S32768x3.size a
  hwx1_0 : ∀ i : grid1.Coords, EltTy.bits .f32 = 32 ∨ (Rect.block (s := S32768x3) S512x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x3.size a ≤ S2048x3.size a
  hwx1_1 : ∀ i : grid1.Coords, EltTy.bits .f32 = 32 ∨ (Rect.block (s := S2048x3) S2048x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S32768x1.size a
  hwx1_2 : ∀ i : grid1.Coords, EltTy.bits .f32 = 32 ∨ (Rect.block (s := S32768x1) S512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1.size a ≤ S32768x1.size a
  hwx2_0 : ∀ i : grid2.Coords, EltTy.bits .f32 = 32 ∨ (Rect.block (s := S32768x1) S2048x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S32768x1.size a
  hwx2_1 : ∀ i : grid2.Coords, EltTy.bits .f32 = 32 ∨ (Rect.block (s := S32768x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S32768x1.size a
  hwx2_2 : ∀ i : grid2.Coords, EltTy.bits .f32 = 32 ∨ (Rect.block (s := S32768x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S32768x1.size a
  hwx2_3 : ∀ i : grid2.Coords, EltTy.bits .f32 = 32 ∨ (Rect.block (s := S32768x1) S2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S32768x1.size a
  hwx2_4 : ∀ i : grid2.Coords, EltTy.bits .f32 = 32 ∨ (Rect.block (s := S32768x1) S2048x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x3.size a ≤ S1x3.size a
  hwx2_5 : ∀ i : grid2.Coords, EltTy.bits .f32 = 32 ∨ (Rect.block (s := S1x3) S1x3.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x3.size a ≤ S32768x3.size a
  hwx3_0 : ∀ i : grid3.Coords, EltTy.bits .f32 = 32 ∨ (Rect.block (s := S32768x3) S512x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x3.size a ≤ S2048x3.size a
  hwx3_1 : ∀ i : grid3.Coords, EltTy.bits .f32 = 32 ∨ (Rect.block (s := S2048x3) S2048x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S32768x1.size a
  hwx3_2 : ∀ i : grid3.Coords, EltTy.bits .f32 = 32 ∨ (Rect.block (s := S32768x1) S512x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1.size a ≤ S32768x1.size a
  hwx4_0 : ∀ i : grid4.Coords, EltTy.bits .f32 = 32 ∨ (Rect.block (s := S32768x1) S2048x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x1.size a ≤ S32768x1.size a
  hwx4_1 : ∀ i : grid4.Coords, EltTy.bits .f32 = 32 ∨ (Rect.block (s := S32768x1) S2048x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S32768x1.size a
  hwx4_2 : ∀ i : grid4.Coords, EltTy.bits .f32 = 32 ∨ (Rect.block (s := S32768x1) S2048x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x1.size a ≤ S32768x1.size a
  hwx4_3 : ∀ i : grid4.Coords, EltTy.bits .f32 = 32 ∨ (Rect.block (s := S32768x1) S2048x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x1.size a ≤ S32768x1.size a
  hwx4_4 : ∀ i : grid4.Coords, EltTy.bits .f32 = 32 ∨ (Rect.block (s := S32768x1) S2048x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x3.size a ≤ S1x3.size a
  hwx4_5 : ∀ i : grid4.Coords, EltTy.bits .f32 = 32 ∨ (Rect.block (s := S1x3) S1x3.size (cc4_transform_5 i) (hinb4_5 i)).WholeWords (EltTy.packing .f32)

variable [Facts₀]

def gather_S131072x3_S2097152x1_S2097152x3_1_0_n_n_0_1_13 : GatherDims S131072x3 S2097152x1 S2097152x3 where
  offsetDims := [1]
  collapsedSliceDims := [0]
  operandBatchingDims := []
  startIndicesBatchingDims := []
  startIndexMap := [0]
  indexVectorDim := 1
  sliceSizes := ![1, 3]
  wf := gather_S131072x3_S2097152x1_S2097152x3_1_0_n_n_0_1_13_wf
def gather_S131072x1_S2097152x1_S2097152x1_1_0_n_n_0_1_11 : GatherDims S131072x1 S2097152x1 S2097152x1 where
  offsetDims := [1]
  collapsedSliceDims := [0]
  operandBatchingDims := []
  startIndicesBatchingDims := []
  startIndexMap := [0]
  indexVectorDim := 1
  sliceSizes := ![1, 1]
  wf := gather_S131072x1_S2097152x1_S2097152x1_1_0_n_n_0_1_11_wf
def scatter_S131072x5_S2097152x1_S2097152x5_1_0_0_1 : ScatterDims S131072x5 S2097152x1 S2097152x5 where
  updateWindowDims := [1]
  insertedWindowDims := [0]
  scatterDimsToOperandDims := [0]
  indexVectorDim := 1
  wf := scatter_S131072x5_S2097152x1_S2097152x5_1_0_0_1_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def gather_S32768x3_S32768x1_S32768x3_1_0_n_n_0_1_13 : GatherDims S32768x3 S32768x1 S32768x3 where
  offsetDims := [1]
  collapsedSliceDims := [0]
  operandBatchingDims := []
  startIndicesBatchingDims := []
  startIndexMap := [0]
  indexVectorDim := 1
  sliceSizes := ![1, 3]
  wf := gather_S32768x3_S32768x1_S32768x3_1_0_n_n_0_1_13_wf
def gather_S32768x4_S32768x2_S32768x1_1_0_n_n_01_1_11 : GatherDims S32768x4 S32768x2 S32768x1 where
  offsetDims := [1]
  collapsedSliceDims := [0]
  operandBatchingDims := []
  startIndicesBatchingDims := []
  startIndexMap := [0, 1]
  indexVectorDim := 1
  sliceSizes := ![1, 1]
  wf := gather_S32768x4_S32768x2_S32768x1_1_0_n_n_01_1_11_wf
def gather_S32768x1_S32768x1_S32768x1_1_0_n_n_0_1_11 : GatherDims S32768x1 S32768x1 S32768x1 where
  offsetDims := [1]
  collapsedSliceDims := [0]
  operandBatchingDims := []
  startIndicesBatchingDims := []
  startIndexMap := [0]
  indexVectorDim := 1
  sliceSizes := ![1, 1]
  wf := gather_S32768x1_S32768x1_S32768x1_1_0_n_n_0_1_11_wf
def scatter_S32768x1_S32768x1_S32768x1_1_0_0_1 : ScatterDims S32768x1 S32768x1 S32768x1 where
  updateWindowDims := [1]
  insertedWindowDims := [0]
  scatterDimsToOperandDims := [0]
  indexVectorDim := 1
  wf := scatter_S32768x1_S32768x1_S32768x1_1_0_0_1_wf
def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def gather_S131072x3_S262144x1_S262144x3_1_0_n_n_0_1_13 : GatherDims S131072x3 S262144x1 S262144x3 where
  offsetDims := [1]
  collapsedSliceDims := [0]
  operandBatchingDims := []
  startIndicesBatchingDims := []
  startIndexMap := [0]
  indexVectorDim := 1
  sliceSizes := ![1, 3]
  wf := gather_S131072x3_S262144x1_S262144x3_1_0_n_n_0_1_13_wf
def scatter_S32768x2_S262144x1_S262144x2_1_0_0_1 : ScatterDims S32768x2 S262144x1 S262144x2 where
  updateWindowDims := [1]
  insertedWindowDims := [0]
  scatterDimsToOperandDims := [0]
  indexVectorDim := 1
  wf := scatter_S32768x2_S262144x1_S262144x2_1_0_0_1_wf

abbrev win0_0 : Pipeline.Window sig grid0 :=
  Pipeline.Window.ofSpec (Memref.whole main_arg0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x3.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v101) S512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S2048x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v102) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S2048x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v110) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v134) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v135) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v52) S2048x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v136) S1x3.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v210) S512x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S2048x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v211) S512x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg6) S2048x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v219) S2048x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v243) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v244) S2048x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v161) S2048x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v245) S1x3.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S131072x1 : Shape := ⟨2, ![131072, 1]⟩
abbrev S131072x3 : Shape := ⟨2, ![131072, 3]⟩
abbrev S131072x4 : Shape := ⟨2, ![131072, 4]⟩
abbrev S32768x1 : Shape := ⟨2, ![32768, 1]⟩
abbrev S32768x3 : Shape := ⟨2, ![32768, 3]⟩
abbrev S32768x4 : Shape := ⟨2, ![32768, 4]⟩
abbrev S2048x3 : Shape := ⟨2, ![2048, 3]⟩
abbrev S8 : Shape := ⟨1, ![8]⟩
abbrev S2097152 : Shape := ⟨1, ![2097152]⟩
abbrev S32768 : Shape := ⟨1, ![32768]⟩
abbrev S262144 : Shape := ⟨1, ![262144]⟩
abbrev S_ : Shape := ⟨0, ![]⟩
abbrev S131072 : Shape := ⟨1, ![131072]⟩
abbrev S2097152x1 : Shape := ⟨2, ![2097152, 1]⟩
abbrev S2097152x3 : Shape := ⟨2, ![2097152, 3]⟩
abbrev S32768x2 : Shape := ⟨2, ![32768, 2]⟩
abbrev S2048 : Shape := ⟨1, ![2048]⟩
abbrev S1x2048 : Shape := ⟨2, ![1, 2048]⟩
abbrev S32768x2048 : Shape := ⟨2, ![32768, 2048]⟩
abbrev S3x2048 : Shape := ⟨2, ![3, 2048]⟩
abbrev S262144x1 : Shape := ⟨2, ![262144, 1]⟩
abbrev S262144x3 : Shape := ⟨2, ![262144, 3]⟩

abbrev nBuf : Space → Nat
  | .hbm => 513
  | .vmem => 0
  | .smem => 0
  | _ => 0

abbrev hbmTy0_0 (i : Nat) : BufTy := match i % 128 with
  | 0 => ⟨S131072x1, .f32⟩
  | 1 => ⟨S131072x3, .f32⟩
  | 2 => ⟨S131072x4, .f32⟩
  | 3 => ⟨S32768x1, .f32⟩
  | 4 => ⟨S32768x3, .f32⟩
  | 5 => ⟨S32768x4, .f32⟩
  | 6 => ⟨S32768x1, .f32⟩
  | 7 => ⟨S32768x3, .f32⟩
  | 8 => ⟨S32768x4, .f32⟩
  | 9 => ⟨S2048x3, .f32⟩
  | 10 => ⟨S8, .f32⟩
  | 11 => ⟨S2097152, .i32⟩
  | 12 => ⟨S2097152, .i32⟩
  | 13 => ⟨S32768, .i32⟩
  | 14 => ⟨S32768, .i32⟩
  | 15 => ⟨S32768, .i32⟩
  | 16 => ⟨S262144, .i32⟩
  | 17 => ⟨S262144, .i32⟩
  | 18 => ⟨S32768, .i32⟩
  | 19 => ⟨S32768, .i32⟩
  | 20 => ⟨S32768, .i32⟩
  | 21 => ⟨S262144, .i32⟩
  | 22 => ⟨S262144, .i32⟩
  | 23 => ⟨S_, .f32⟩
  | 24 => ⟨S_, .f32⟩
  | 25 => ⟨S_, .f32⟩
  | 26 => ⟨S131072x1, .f32⟩
  | 27 => ⟨S131072x1, .f32⟩
  | 28 => ⟨S_, .f32⟩
  | 29 => ⟨S131072x1, .f32⟩
  | 30 => ⟨S131072x1, .f32⟩
  | 31 => ⟨S_, .f32⟩
  | 32 => ⟨S2097152, .f32⟩
  | 33 => ⟨S_, .f32⟩
  | 34 => ⟨S131072, .f32⟩
  | 35 => ⟨S2097152x1, .i32⟩
  | 36 => ⟨S131072, .f32⟩
  | 37 => ⟨S_, .f32⟩
  | 38 => ⟨S131072, .f32⟩
  | 39 => ⟨S131072, .f32⟩
  | 40 => ⟨S131072x1, .f32⟩
  | 41 => ⟨S_, .i32⟩
  | 42 => ⟨S2097152, .i32⟩
  | 43 => ⟨S2097152, .i1⟩
  | 44 => ⟨S_, .i32⟩
  | 45 => ⟨S2097152, .i32⟩
  | 46 => ⟨S2097152, .i32⟩
  | 47 => ⟨S2097152, .i32⟩
  | 48 => ⟨S2097152x1, .i32⟩
  | 49 => ⟨S2097152x3, .f32⟩
  | 50 => ⟨S_, .f32⟩
  | 51 => ⟨S131072x3, .f32⟩
  | 52 => ⟨S2097152x1, .i32⟩
  | 53 => ⟨S131072x3, .f32⟩
  | 54 => ⟨S131072x3, .f32⟩
  | 55 => ⟨S131072x3, .f32⟩
  | 56 => ⟨S131072x1, .f32⟩
  | 57 => ⟨S_, .i32⟩
  | 58 => ⟨S2097152, .i32⟩
  | 59 => ⟨S2097152, .i1⟩
  | 60 => ⟨S_, .i32⟩
  | 61 => ⟨S2097152, .i32⟩
  | 62 => ⟨S2097152, .i32⟩
  | 63 => ⟨S2097152, .i32⟩
  | 64 => ⟨S2097152x1, .i32⟩
  | 65 => ⟨S2097152x1, .f32⟩
  | 66 => ⟨S_, .f32⟩
  | 67 => ⟨S131072x1, .f32⟩
  | 68 => ⟨S2097152x1, .i32⟩
  | 69 => ⟨S131072x1, .f32⟩
  | 70 => ⟨S131072x1, .f32⟩
  | 71 => ⟨S131072x3, .f32⟩
  | 72 => ⟨S131072x3, .f32⟩
  | 73 => ⟨S_, .f32⟩
  | 74 => ⟨S131072, .f32⟩
  | 75 => ⟨S131072x1, .f32⟩
  | 76 => ⟨S131072x1, .f32⟩
  | 77 => ⟨S131072x1, .f32⟩
  | 78 => ⟨S131072x1, .f32⟩
  | 79 => ⟨S131072x1, .f32⟩
  | 80 => ⟨S_, .f32⟩
  | 81 => ⟨S131072x1, .f32⟩
  | 82 => ⟨S131072x1, .f32⟩
  | 83 => ⟨S131072x1, .f32⟩
  | 84 => ⟨S_, .f32⟩
  | 85 => ⟨S_, .f32⟩
  | 86 => ⟨S_, .f32⟩
  | 87 => ⟨S_, .f32⟩
  | 88 => ⟨S_, .f32⟩
  | 89 => ⟨S131072x1, .f32⟩
  | 90 => ⟨S131072x1, .f32⟩
  | 91 => ⟨S131072x1, .f32⟩
  | 92 => ⟨S_, .f32⟩
  | 93 => ⟨S_, .f32⟩
  | 94 => ⟨S_, .f32⟩
  | 95 => ⟨S_, .f32⟩
  | 96 => ⟨S_, .f32⟩
  | 97 => ⟨S131072x1, .f32⟩
  | 98 => ⟨S131072x1, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768, .f32⟩
  | _ => ⟨S131072x1, .f32⟩

abbrev hbmTy0_1 (i : Nat) : BufTy := match i % 128 with
  | 0 => ⟨S_, .f32⟩
  | 1 => ⟨S_, .f32⟩
  | 2 => ⟨S32768, .f32⟩
  | 3 => ⟨S32768, .f32⟩
  | 4 => ⟨S32768x1, .f32⟩
  | 5 => ⟨S_, .i32⟩
  | 6 => ⟨S32768, .i32⟩
  | 7 => ⟨S32768, .i1⟩
  | 8 => ⟨S_, .i32⟩
  | 9 => ⟨S32768, .i32⟩
  | 10 => ⟨S32768, .i32⟩
  | 11 => ⟨S32768, .i32⟩
  | 12 => ⟨S32768x1, .i32⟩
  | 13 => ⟨S32768x3, .f32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768x3, .f32⟩
  | 23 => ⟨S32768x3, .f32⟩
  | 24 => ⟨S32768x3, .f32⟩
  | 25 => ⟨S_, .f32⟩
  | 26 => ⟨S32768, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S32768x3, .f32⟩
  | 33 => ⟨S32768x3, .f32⟩
  | 34 => ⟨S_, .i32⟩
  | 35 => ⟨S32768, .i32⟩
  | 36 => ⟨S32768, .i1⟩
  | 37 => ⟨S_, .i32⟩
  | 38 => ⟨S32768, .i32⟩
  | 39 => ⟨S32768, .i32⟩
  | 40 => ⟨S32768, .i32⟩
  | 41 => ⟨S32768x1, .i32⟩
  | 42 => ⟨S_, .i32⟩
  | 43 => ⟨S32768x1, .i32⟩
  | 44 => ⟨S32768x2, .i32⟩
  | 45 => ⟨S32768x1, .f32⟩
  | 46 => ⟨S32768x1, .f32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S32768x3, .f32⟩
  | 56 => ⟨S32768x3, .f32⟩
  | 57 => ⟨S32768x3, .f32⟩
  | 58 => ⟨S_, .i32⟩
  | 59 => ⟨S32768, .i32⟩
  | 60 => ⟨S32768, .i1⟩
  | 61 => ⟨S_, .i32⟩
  | 62 => ⟨S32768, .i32⟩
  | 63 => ⟨S32768, .i32⟩
  | 64 => ⟨S32768, .i32⟩
  | 65 => ⟨S32768x1, .i32⟩
  | 66 => ⟨S32768x1, .f32⟩
  | 67 => ⟨S32768x3, .f32⟩
  | 68 => ⟨S32768x3, .f32⟩
  | 69 => ⟨S32768x3, .f32⟩
  | 70 => ⟨S32768x3, .f32⟩
  | 71 => ⟨S_, .f32⟩
  | 72 => ⟨S32768, .f32⟩
  | 73 => ⟨S2048x3, .f32⟩
  | 74 => ⟨S_, .f32⟩
  | 75 => ⟨S2048, .f32⟩
  | 76 => ⟨S32768x1, .f32⟩
  | 77 => ⟨S1x2048, .f32⟩
  | 78 => ⟨S32768x2048, .f32⟩
  | 79 => ⟨S32768x2048, .f32⟩
  | 80 => ⟨S32768x2048, .f32⟩
  | 81 => ⟨S_, .f32⟩
  | 82 => ⟨S32768x3, .f32⟩
  | 83 => ⟨S32768x3, .f32⟩
  | 84 => ⟨S3x2048, .f32⟩
  | 85 => ⟨S32768x2048, .f32⟩
  | 86 => ⟨S32768x2048, .f32⟩
  | 87 => ⟨S_, .f32⟩
  | 88 => ⟨S32768x2048, .f32⟩
  | 89 => ⟨S32768x2048, .f32⟩
  | 90 => ⟨S_, .f32⟩
  | 91 => ⟨S32768, .f32⟩
  | 92 => ⟨S32768x1, .f32⟩
  | 93 => ⟨S_, .f32⟩
  | 94 => ⟨S32768x1, .f32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768x1, .f32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144x3, .f32⟩
  | 113 => ⟨S_, .i32⟩
  | 114 => ⟨S262144, .i32⟩
  | 115 => ⟨S262144, .i1⟩
  | 116 => ⟨S_, .i32⟩
  | 117 => ⟨S262144, .i32⟩
  | 118 => ⟨S262144, .i32⟩
  | 119 => ⟨S262144, .i32⟩
  | 120 => ⟨S262144x1, .i32⟩
  | 121 => ⟨S262144x3, .f32⟩
  | 122 => ⟨S262144x3, .f32⟩
  | 123 => ⟨S262144x3, .f32⟩
  | 124 => ⟨S_, .f32⟩
  | 125 => ⟨S262144, .f32⟩
  | 126 => ⟨S_, .f32⟩
  | 127 => ⟨S32768, .f32⟩
  | _ => ⟨S131072x1, .f32⟩

abbrev hbmTy0_2 (i : Nat) : BufTy := match i % 128 with
  | 0 => ⟨S262144x1, .i32⟩
  | 1 => ⟨S32768, .f32⟩
  | 2 => ⟨S_, .f32⟩
  | 3 => ⟨S262144, .f32⟩
  | 4 => ⟨S_, .f32⟩
  | 5 => ⟨S32768, .f32⟩
  | 6 => ⟨S262144x1, .i32⟩
  | 7 => ⟨S32768, .f32⟩
  | 8 => ⟨S_, .f32⟩
  | 9 => ⟨S32768, .f32⟩
  | 10 => ⟨S32768, .i1⟩
  | 11 => ⟨S_, .f32⟩
  | 12 => ⟨S32768, .f32⟩
  | 13 => ⟨S32768, .f32⟩
  | 14 => ⟨S32768, .f32⟩
  | 15 => ⟨S32768, .f32⟩
  | 16 => ⟨S_, .f32⟩
  | 17 => ⟨S_, .f32⟩
  | 18 => ⟨S32768, .f32⟩
  | 19 => ⟨S32768, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1, .f32⟩
  | 27 => ⟨S_, .f32⟩
  | 28 => ⟨S32768x1, .f32⟩
  | 29 => ⟨S32768x1, .f32⟩
  | 30 => ⟨S32768x1, .f32⟩
  | 31 => ⟨S_, .f32⟩
  | 32 => ⟨S_, .f32⟩
  | 33 => ⟨S_, .f32⟩
  | 34 => ⟨S_, .f32⟩
  | 35 => ⟨S32768x1, .f32⟩
  | 36 => ⟨S_, .f32⟩
  | 37 => ⟨S_, .f32⟩
  | 38 => ⟨S_, .f32⟩
  | 39 => ⟨S_, .f32⟩
  | 40 => ⟨S_, .f32⟩
  | 41 => ⟨S32768x1, .f32⟩
  | 42 => ⟨S32768x1, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S_, .i32⟩
  | 65 => ⟨S32768, .i32⟩
  | 66 => ⟨S32768, .i1⟩
  | 67 => ⟨S_, .i32⟩
  | 68 => ⟨S32768, .i32⟩
  | 69 => ⟨S32768, .i32⟩
  | 70 => ⟨S32768, .i32⟩
  | 71 => ⟨S32768x1, .i32⟩
  | 72 => ⟨S32768, .f32⟩
  | 73 => ⟨S_, .f32⟩
  | 74 => ⟨S_, .f32⟩
  | 75 => ⟨S32768, .f32⟩
  | 76 => ⟨S32768, .f32⟩
  | 77 => ⟨S32768x1, .f32⟩
  | 78 => ⟨S_, .i32⟩
  | 79 => ⟨S32768, .i32⟩
  | 80 => ⟨S32768, .i1⟩
  | 81 => ⟨S_, .i32⟩
  | 82 => ⟨S32768, .i32⟩
  | 83 => ⟨S32768, .i32⟩
  | 84 => ⟨S32768, .i32⟩
  | 85 => ⟨S32768x1, .i32⟩
  | 86 => ⟨S32768x3, .f32⟩
  | 87 => ⟨S_, .i32⟩
  | 88 => ⟨S32768, .i32⟩
  | 89 => ⟨S32768, .i1⟩
  | 90 => ⟨S_, .i32⟩
  | 91 => ⟨S32768, .i32⟩
  | 92 => ⟨S32768, .i32⟩
  | 93 => ⟨S32768, .i32⟩
  | 94 => ⟨S32768x1, .i32⟩
  | 95 => ⟨S32768x3, .f32⟩
  | 96 => ⟨S32768x3, .f32⟩
  | 97 => ⟨S32768x3, .f32⟩
  | 98 => ⟨S_, .f32⟩
  | 99 => ⟨S32768, .f32⟩
  | 100 => ⟨S32768x1, .f32⟩
  | 101 => ⟨S32768x1, .f32⟩
  | 102 => ⟨S_, .f32⟩
  | 103 => ⟨S32768x1, .f32⟩
  | 104 => ⟨S32768x1, .f32⟩
  | 105 => ⟨S32768x3, .f32⟩
  | 106 => ⟨S32768x3, .f32⟩
  | 107 => ⟨S_, .i32⟩
  | 108 => ⟨S32768, .i32⟩
  | 109 => ⟨S32768, .i1⟩
  | 110 => ⟨S_, .i32⟩
  | 111 => ⟨S32768, .i32⟩
  | 112 => ⟨S32768, .i32⟩
  | 113 => ⟨S32768, .i32⟩
  | 114 => ⟨S32768x1, .i32⟩
  | 115 => ⟨S_, .i32⟩
  | 116 => ⟨S32768x1, .i32⟩
  | 117 => ⟨S32768x2, .i32⟩
  | 118 => ⟨S32768x1, .f32⟩
  | 119 => ⟨S32768x1, .f32⟩
  | 120 => ⟨S_, .i32⟩
  | 121 => ⟨S32768, .i32⟩
  | 122 => ⟨S32768, .i1⟩
  | 123 => ⟨S_, .i32⟩
  | 124 => ⟨S32768, .i32⟩
  | 125 => ⟨S32768, .i32⟩
  | 126 => ⟨S32768, .i32⟩
  | 127 => ⟨S32768x1, .i32⟩
  | _ => ⟨S131072x1, .f32⟩

abbrev hbmTy0_3 (i : Nat) : BufTy := match i % 128 with
  | 0 => ⟨S32768x3, .f32⟩
  | 1 => ⟨S32768x3, .f32⟩
  | 2 => ⟨S32768x3, .f32⟩
  | 3 => ⟨S_, .i32⟩
  | 4 => ⟨S32768, .i32⟩
  | 5 => ⟨S32768, .i1⟩
  | 6 => ⟨S_, .i32⟩
  | 7 => ⟨S32768, .i32⟩
  | 8 => ⟨S32768, .i32⟩
  | 9 => ⟨S32768, .i32⟩
  | 10 => ⟨S32768x1, .i32⟩
  | 11 => ⟨S32768x1, .f32⟩
  | 12 => ⟨S32768x3, .f32⟩
  | 13 => ⟨S32768x3, .f32⟩
  | 14 => ⟨S32768x3, .f32⟩
  | 15 => ⟨S32768x3, .f32⟩
  | 16 => ⟨S_, .f32⟩
  | 17 => ⟨S32768, .f32⟩
  | 18 => ⟨S2048x3, .f32⟩
  | 19 => ⟨S_, .f32⟩
  | 20 => ⟨S2048, .f32⟩
  | 21 => ⟨S32768x1, .f32⟩
  | 22 => ⟨S1x2048, .f32⟩
  | 23 => ⟨S32768x2048, .f32⟩
  | 24 => ⟨S32768x2048, .f32⟩
  | 25 => ⟨S32768x2048, .f32⟩
  | 26 => ⟨S_, .f32⟩
  | 27 => ⟨S32768x3, .f32⟩
  | 28 => ⟨S32768x3, .f32⟩
  | 29 => ⟨S3x2048, .f32⟩
  | 30 => ⟨S32768x2048, .f32⟩
  | 31 => ⟨S32768x2048, .f32⟩
  | 32 => ⟨S_, .f32⟩
  | 33 => ⟨S32768x2048, .f32⟩
  | 34 => ⟨S32768x2048, .f32⟩
  | 35 => ⟨S_, .f32⟩
  | 36 => ⟨S32768, .f32⟩
  | 37 => ⟨S32768x1, .f32⟩
  | 38 => ⟨S_, .f32⟩
  | 39 => ⟨S32768x1, .f32⟩
  | 40 => ⟨S_, .i32⟩
  | 41 => ⟨S32768, .i32⟩
  | 42 => ⟨S32768, .i1⟩
  | 43 => ⟨S_, .i32⟩
  | 44 => ⟨S32768, .i32⟩
  | 45 => ⟨S32768, .i32⟩
  | 46 => ⟨S32768, .i32⟩
  | 47 => ⟨S32768x1, .i32⟩
  | 48 => ⟨S32768x1, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x3, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S262144x1, .i32⟩
  | 66 => ⟨S262144x3, .f32⟩
  | 67 => ⟨S262144x3, .f32⟩
  | 68 => ⟨S262144x3, .f32⟩
  | 69 => ⟨S_, .f32⟩
  | 70 => ⟨S262144, .f32⟩
  | 71 => ⟨S_, .f32⟩
  | 72 => ⟨S32768, .f32⟩
  | 73 => ⟨S262144x1, .i32⟩
  | 74 => ⟨S32768, .f32⟩
  | 75 => ⟨S_, .f32⟩
  | 76 => ⟨S262144, .f32⟩
  | 77 => ⟨S_, .f32⟩
  | 78 => ⟨S32768, .f32⟩
  | 79 => ⟨S262144x1, .i32⟩
  | 80 => ⟨S32768, .f32⟩
  | 81 => ⟨S_, .f32⟩
  | 82 => ⟨S32768, .f32⟩
  | 83 => ⟨S32768, .i1⟩
  | 84 => ⟨S_, .f32⟩
  | 85 => ⟨S32768, .f32⟩
  | 86 => ⟨S32768, .f32⟩
  | 87 => ⟨S32768, .f32⟩
  | 88 => ⟨S32768, .f32⟩
  | 89 => ⟨S_, .f32⟩
  | 90 => ⟨S_, .f32⟩
  | 91 => ⟨S32768, .f32⟩
  | 92 => ⟨S32768, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S32768x1, .f32⟩
  | 99 => ⟨S32768x1, .f32⟩
  | 100 => ⟨S_, .f32⟩
  | 101 => ⟨S32768x1, .f32⟩
  | 102 => ⟨S32768x1, .f32⟩
  | 103 => ⟨S32768x1, .f32⟩
  | 104 => ⟨S_, .f32⟩
  | 105 => ⟨S_, .f32⟩
  | 106 => ⟨S_, .f32⟩
  | 107 => ⟨S_, .f32⟩
  | 108 => ⟨S32768x1, .f32⟩
  | 109 => ⟨S_, .f32⟩
  | 110 => ⟨S_, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S131072x1, .f32⟩

abbrev hbmTy0_4 (i : Nat) : BufTy := match i % 128 with
  | 0 => ⟨S_, .f32⟩
  | _ => ⟨S131072x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131072x1, .f32⟩

abbrev bufTy : (tb : Table) → Fin (tcTables nBuf tb) → BufTy
  | .hbm, ⟨i, _⟩ => hbmTy i
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v0 : Ref sig .tc := ⟨.hbm, 30, rfl⟩
abbrev main_cst_1 : Ref sig .tc := ⟨.hbm, 31, rfl⟩
abbrev main_v1 : Ref sig .tc := ⟨.hbm, 32, rfl⟩
abbrev main_cst_2 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst_3 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_c : Ref sig .tc := ⟨.hbm, 41, rfl⟩
abbrev main_v8 : Ref sig .tc := ⟨.hbm, 42, rfl⟩
abbrev main_v9 : Ref sig .tc := ⟨.hbm, 43, rfl⟩
abbrev main_c_4 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_5 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_6 : Ref sig .tc := ⟨.hbm, 57, rfl⟩
abbrev main_v21 : Ref sig .tc := ⟨.hbm, 58, rfl⟩
abbrev main_v22 : Ref sig .tc := ⟨.hbm, 59, rfl⟩
abbrev main_c_7 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_8 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_10 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_11 : Ref sig .tc := ⟨.hbm, 84, rfl⟩
abbrev main_v43 : Ref sig .tc := ⟨.hbm, 85, rfl⟩
abbrev main_cst_12 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_14 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_cst_16 : Ref sig .tc := ⟨.hbm, 96, rfl⟩
abbrev main_v50 : Ref sig .tc := ⟨.hbm, 97, rfl⟩
abbrev main_v51 : Ref sig .tc := ⟨.hbm, 98, rfl⟩
abbrev main_cst_17 : Ref sig .tc := ⟨.hbm, 99, rfl⟩
abbrev main_v52 : Ref sig .tc := ⟨.hbm, 100, rfl⟩
abbrev main_cst_18 : Ref sig .tc := ⟨.hbm, 101, rfl⟩
abbrev main_v53 : Ref sig .tc := ⟨.hbm, 102, rfl⟩
abbrev main_cst_19 : Ref sig .tc := ⟨.hbm, 103, rfl⟩
abbrev main_v54 : Ref sig .tc := ⟨.hbm, 104, rfl⟩
abbrev main_cst_20 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_21 : Ref sig .tc := ⟨.hbm, 109, rfl⟩
abbrev main_v58 : Ref sig .tc := ⟨.hbm, 110, rfl⟩
abbrev main_cst_22 : Ref sig .tc := ⟨.hbm, 111, rfl⟩
abbrev main_cst_23 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_v59 : Ref sig .tc := ⟨.hbm, 118, rfl⟩
abbrev main_c_24 : Ref sig .tc := ⟨.hbm, 119, rfl⟩
abbrev main_v60 : Ref sig .tc := ⟨.hbm, 120, rfl⟩
abbrev main_v61 : Ref sig .tc := ⟨.hbm, 121, rfl⟩
abbrev main_c_25 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_26 : Ref sig .tc := ⟨.hbm, 128, rfl⟩
abbrev main_call2_v0 : Ref sig .tc := ⟨.hbm, 129, rfl⟩
abbrev main_call2_v1 : Ref sig .tc := ⟨.hbm, 130, rfl⟩
abbrev main_v67 : Ref sig .tc := ⟨.hbm, 131, rfl⟩
abbrev main_v68 : Ref sig .tc := ⟨.hbm, 132, rfl⟩
abbrev main_c_27 : Ref sig .tc := ⟨.hbm, 133, rfl⟩
abbrev main_v69 : Ref sig .tc := ⟨.hbm, 134, rfl⟩
abbrev main_v70 : Ref sig .tc := ⟨.hbm, 135, rfl⟩
abbrev main_c_28 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_c_29 : Ref sig .tc := ⟨.hbm, 142, rfl⟩
abbrev main_v76 : Ref sig .tc := ⟨.hbm, 143, rfl⟩
abbrev main_v77 : Ref sig .tc := ⟨.hbm, 144, rfl⟩
abbrev main_c_30 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_call3_v0 : Ref sig .tc := ⟨.hbm, 152, rfl⟩
abbrev main_call3_cst : Ref sig .tc := ⟨.hbm, 153, rfl⟩
abbrev main_call3_v1 : Ref sig .tc := ⟨.hbm, 154, rfl⟩
abbrev main_call3_v2 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_c_32 : Ref sig .tc := ⟨.hbm, 162, rfl⟩
abbrev main_v89 : Ref sig .tc := ⟨.hbm, 163, rfl⟩
abbrev main_v90 : Ref sig .tc := ⟨.hbm, 164, rfl⟩
abbrev main_c_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_c_34 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_c_35 : Ref sig .tc := ⟨.hbm, 175, rfl⟩
abbrev main_v99 : Ref sig .tc := ⟨.hbm, 176, rfl⟩
abbrev main_v100 : Ref sig .tc := ⟨.hbm, 177, rfl⟩
abbrev main_c_36 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_c_37 : Ref sig .tc := ⟨.hbm, 186, rfl⟩
abbrev main_v108 : Ref sig .tc := ⟨.hbm, 187, rfl⟩
abbrev main_v109 : Ref sig .tc := ⟨.hbm, 188, rfl⟩
abbrev main_c_38 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_cst_39 : Ref sig .tc := ⟨.hbm, 199, rfl⟩
abbrev main_v119 : Ref sig .tc := ⟨.hbm, 200, rfl⟩
abbrev main_v120 : Ref sig .tc := ⟨.hbm, 201, rfl⟩
abbrev main_cst_40 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_cst_41 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_cst_42 : Ref sig .tc := ⟨.hbm, 215, rfl⟩
abbrev main_v132 : Ref sig .tc := ⟨.hbm, 216, rfl⟩
abbrev main_v133 : Ref sig .tc := ⟨.hbm, 217, rfl⟩
abbrev main_cst_43 : Ref sig .tc := ⟨.hbm, 218, rfl⟩
abbrev main_v134 : Ref sig .tc := ⟨.hbm, 219, rfl⟩
abbrev main_v135 : Ref sig .tc := ⟨.hbm, 220, rfl⟩
abbrev main_cst_44 : Ref sig .tc := ⟨.hbm, 221, rfl⟩
abbrev main_v136 : Ref sig .tc := ⟨.hbm, 222, rfl⟩
abbrev main_c_45 : Ref sig .tc := ⟨.hbm, 223, rfl⟩
abbrev main_v137 : Ref sig .tc := ⟨.hbm, 224, rfl⟩
abbrev main_v138 : Ref sig .tc := ⟨.hbm, 225, rfl⟩
abbrev main_c_46 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_c_47 : Ref sig .tc := ⟨.hbm, 232, rfl⟩
abbrev main_v144 : Ref sig .tc := ⟨.hbm, 233, rfl⟩
abbrev main_v145 : Ref sig .tc := ⟨.hbm, 234, rfl⟩
abbrev main_c_48 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_c_49 : Ref sig .tc := ⟨.hbm, 241, rfl⟩
abbrev main_v151 : Ref sig .tc := ⟨.hbm, 242, rfl⟩
abbrev main_v152 : Ref sig .tc := ⟨.hbm, 243, rfl⟩
abbrev main_c_50 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_51 : Ref sig .tc := ⟨.hbm, 252, rfl⟩
abbrev main_v160 : Ref sig .tc := ⟨.hbm, 253, rfl⟩
abbrev main_cst_52 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_cst_53 : Ref sig .tc := ⟨.hbm, 258, rfl⟩
abbrev main_v164 : Ref sig .tc := ⟨.hbm, 259, rfl⟩
abbrev main_cst_54 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_cst_55 : Ref sig .tc := ⟨.hbm, 264, rfl⟩
abbrev main_v168 : Ref sig .tc := ⟨.hbm, 265, rfl⟩
abbrev main_v169 : Ref sig .tc := ⟨.hbm, 266, rfl⟩
abbrev main_cst_56 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_cst_57 : Ref sig .tc := ⟨.hbm, 272, rfl⟩
abbrev main_call4_v0 : Ref sig .tc := ⟨.hbm, 273, rfl⟩
abbrev main_call4_v1 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_cst_58 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_cst_59 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_cst_60 : Ref sig .tc := ⟨.hbm, 287, rfl⟩
abbrev main_v184 : Ref sig .tc := ⟨.hbm, 288, rfl⟩
abbrev main_cst_61 : Ref sig .tc := ⟨.hbm, 289, rfl⟩
abbrev main_v185 : Ref sig .tc := ⟨.hbm, 290, rfl⟩
abbrev main_v186 : Ref sig .tc := ⟨.hbm, 291, rfl⟩
abbrev main_cst_62 : Ref sig .tc := ⟨.hbm, 292, rfl⟩
abbrev main_v187 : Ref sig .tc := ⟨.hbm, 293, rfl⟩
abbrev main_cst_63 : Ref sig .tc := ⟨.hbm, 294, rfl⟩
abbrev main_v188 : Ref sig .tc := ⟨.hbm, 295, rfl⟩
abbrev main_cst_64 : Ref sig .tc := ⟨.hbm, 296, rfl⟩
abbrev main_v189 : Ref sig .tc := ⟨.hbm, 297, rfl⟩
abbrev main_v190 : Ref sig .tc := ⟨.hbm, 298, rfl⟩
abbrev main_cst_65 : Ref sig .tc := ⟨.hbm, 299, rfl⟩
abbrev main_v191 : Ref sig .tc := ⟨.hbm, 300, rfl⟩
abbrev main_cst_66 : Ref sig .tc := ⟨.hbm, 301, rfl⟩
abbrev main_v192 : Ref sig .tc := ⟨.hbm, 302, rfl⟩
abbrev main_cst_67 : Ref sig .tc := ⟨.hbm, 303, rfl⟩
abbrev main_v193 : Ref sig .tc := ⟨.hbm, 304, rfl⟩
abbrev main_cst_68 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_cst_69 : Ref sig .tc := ⟨.hbm, 309, rfl⟩
abbrev main_v197 : Ref sig .tc := ⟨.hbm, 310, rfl⟩
abbrev main_v198 : Ref sig .tc := ⟨.hbm, 311, rfl⟩
abbrev main_cst_70 : Ref sig .tc := ⟨.hbm, 312, rfl⟩
abbrev main_cst_71 : Ref sig .tc := ⟨.hbm, 313, rfl⟩
abbrev main_call5_v0 : Ref sig .tc := ⟨.hbm, 314, rfl⟩
abbrev main_call5_v1 : Ref sig .tc := ⟨.hbm, 315, rfl⟩
abbrev main_call5_v2 : Ref sig .tc := ⟨.hbm, 316, rfl⟩
abbrev main_call5_v3 : Ref sig .tc := ⟨.hbm, 317, rfl⟩
abbrev main_call5_v4 : Ref sig .tc := ⟨.hbm, 318, rfl⟩
abbrev main_v199 : Ref sig .tc := ⟨.hbm, 319, rfl⟩
abbrev main_c_72 : Ref sig .tc := ⟨.hbm, 320, rfl⟩
abbrev main_v200 : Ref sig .tc := ⟨.hbm, 321, rfl⟩
abbrev main_v201 : Ref sig .tc := ⟨.hbm, 322, rfl⟩
abbrev main_c_73 : Ref sig .tc := ⟨.hbm, 323, rfl⟩
abbrev main_v202 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_cst_74 : Ref sig .tc := ⟨.hbm, 329, rfl⟩
abbrev main_call6_v0 : Ref sig .tc := ⟨.hbm, 330, rfl⟩
abbrev main_call6_v1 : Ref sig .tc := ⟨.hbm, 331, rfl⟩
abbrev main_v207 : Ref sig .tc := ⟨.hbm, 332, rfl⟩
abbrev main_v208 : Ref sig .tc := ⟨.hbm, 333, rfl⟩
abbrev main_c_75 : Ref sig .tc := ⟨.hbm, 334, rfl⟩
abbrev main_v209 : Ref sig .tc := ⟨.hbm, 335, rfl⟩
abbrev main_v210 : Ref sig .tc := ⟨.hbm, 336, rfl⟩
abbrev main_c_76 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_c_77 : Ref sig .tc := ⟨.hbm, 343, rfl⟩
abbrev main_v216 : Ref sig .tc := ⟨.hbm, 344, rfl⟩
abbrev main_v217 : Ref sig .tc := ⟨.hbm, 345, rfl⟩
abbrev main_c_78 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_call7_v0 : Ref sig .tc := ⟨.hbm, 353, rfl⟩
abbrev main_call7_cst : Ref sig .tc := ⟨.hbm, 354, rfl⟩
abbrev main_call7_v1 : Ref sig .tc := ⟨.hbm, 355, rfl⟩
abbrev main_call7_v2 : Ref sig .tc := ⟨.hbm, 356, rfl⟩
abbrev main_v224 : Ref sig .tc := ⟨.hbm, 357, rfl⟩
abbrev main_cst_79 : Ref sig .tc := ⟨.hbm, 358, rfl⟩
abbrev main_v225 : Ref sig .tc := ⟨.hbm, 359, rfl⟩
abbrev main_v226 : Ref sig .tc := ⟨.hbm, 360, rfl⟩
abbrev main_v227 : Ref sig .tc := ⟨.hbm, 361, rfl⟩
abbrev main_v228 : Ref sig .tc := ⟨.hbm, 362, rfl⟩
abbrev main_c_80 : Ref sig .tc := ⟨.hbm, 363, rfl⟩
abbrev main_v229 : Ref sig .tc := ⟨.hbm, 364, rfl⟩
abbrev main_v230 : Ref sig .tc := ⟨.hbm, 365, rfl⟩
abbrev main_c_81 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_c_82 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_v238 : Ref sig .tc := ⟨.hbm, 375, rfl⟩
abbrev main_c_83 : Ref sig .tc := ⟨.hbm, 376, rfl⟩
abbrev main_v239 : Ref sig .tc := ⟨.hbm, 377, rfl⟩
abbrev main_v240 : Ref sig .tc := ⟨.hbm, 378, rfl⟩
abbrev main_c_84 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_c_85 : Ref sig .tc := ⟨.hbm, 387, rfl⟩
abbrev main_v248 : Ref sig .tc := ⟨.hbm, 388, rfl⟩
abbrev main_v249 : Ref sig .tc := ⟨.hbm, 389, rfl⟩
abbrev main_c_86 : Ref sig .tc := ⟨.hbm, 390, rfl⟩
abbrev main_v250 : Ref sig .tc := ⟨.hbm, 391, rfl⟩
abbrev main_v251 : Ref sig .tc := ⟨.hbm, 392, rfl⟩
abbrev main_v252 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_87 : Ref sig .tc := ⟨.hbm, 400, rfl⟩
abbrev main_v259 : Ref sig .tc := ⟨.hbm, 401, rfl⟩
abbrev main_v260 : Ref sig .tc := ⟨.hbm, 402, rfl⟩
abbrev main_cst_88 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_cst_89 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_cst_90 : Ref sig .tc := ⟨.hbm, 416, rfl⟩
abbrev main_v272 : Ref sig .tc := ⟨.hbm, 417, rfl⟩
abbrev main_v273 : Ref sig .tc := ⟨.hbm, 418, rfl⟩
abbrev main_cst_91 : Ref sig .tc := ⟨.hbm, 419, rfl⟩
abbrev main_v274 : Ref sig .tc := ⟨.hbm, 420, rfl⟩
abbrev main_v275 : Ref sig .tc := ⟨.hbm, 421, rfl⟩
abbrev main_cst_92 : Ref sig .tc := ⟨.hbm, 422, rfl⟩
abbrev main_v276 : Ref sig .tc := ⟨.hbm, 423, rfl⟩
abbrev main_c_93 : Ref sig .tc := ⟨.hbm, 424, rfl⟩
abbrev main_v277 : Ref sig .tc := ⟨.hbm, 425, rfl⟩
abbrev main_v278 : Ref sig .tc := ⟨.hbm, 426, rfl⟩
abbrev main_c_94 : Ref sig .tc := ⟨.hbm, 427, rfl⟩
abbrev main_v279 : Ref sig .tc := ⟨.hbm, 428, rfl⟩
abbrev main_v280 : Ref sig .tc := ⟨.hbm, 429, rfl⟩
abbrev main_v281 : Ref sig .tc := ⟨.hbm, 430, rfl⟩
abbrev main_v282 : Ref sig .tc := ⟨.hbm, 431, rfl⟩
abbrev main_v283 : Ref sig .tc := ⟨.hbm, 432, rfl⟩
abbrev main_c_95 : Ref sig .tc := ⟨.hbm, 433, rfl⟩
abbrev main_v284 : Ref sig .tc := ⟨.hbm, 434, rfl⟩
abbrev main_v285 : Ref sig .tc := ⟨.hbm, 435, rfl⟩
abbrev main_c_96 : Ref sig .tc := ⟨.hbm, 436, rfl⟩
abbrev main_v286 : Ref sig .tc := ⟨.hbm, 437, rfl⟩
abbrev main_v287 : Ref sig .tc := ⟨.hbm, 438, rfl⟩
abbrev main_v288 : Ref sig .tc := ⟨.hbm, 439, rfl⟩
abbrev main_v289 : Ref sig .tc := ⟨.hbm, 440, rfl⟩
abbrev main_v290 : Ref sig .tc := ⟨.hbm, 441, rfl⟩
abbrev main_c_97 : Ref sig .tc := ⟨.hbm, 442, rfl⟩
abbrev main_v291 : Ref sig .tc := ⟨.hbm, 443, rfl⟩
abbrev main_v292 : Ref sig .tc := ⟨.hbm, 444, rfl⟩
abbrev main_c_98 : Ref sig .tc := ⟨.hbm, 445, rfl⟩
abbrev main_v293 : Ref sig .tc := ⟨.hbm, 446, rfl⟩
abbrev main_v294 : Ref sig .tc := ⟨.hbm, 447, rfl⟩
abbrev main_v295 : Ref sig .tc := ⟨.hbm, 448, rfl⟩
abbrev main_v296 : Ref sig .tc := ⟨.hbm, 449, rfl⟩
abbrev main_v297 : Ref sig .tc := ⟨.hbm, 450, rfl⟩
abbrev main_v298 : Ref sig .tc := ⟨.hbm, 451, rfl⟩
abbrev main_v299 : Ref sig .tc := ⟨.hbm, 452, rfl⟩
abbrev main_cst_99 : Ref sig .tc := ⟨.hbm, 453, rfl⟩
abbrev main_v300 : Ref sig .tc := ⟨.hbm, 454, rfl⟩
abbrev main_cst_100 : Ref sig .tc := ⟨.hbm, 455, rfl⟩
abbrev main_v301 : Ref sig .tc := ⟨.hbm, 456, rfl⟩
abbrev main_v302 : Ref sig .tc := ⟨.hbm, 457, rfl⟩
abbrev main_v303 : Ref sig .tc := ⟨.hbm, 458, rfl⟩
abbrev main_cst_101 : Ref sig .tc := ⟨.hbm, 459, rfl⟩
abbrev main_v304 : Ref sig .tc := ⟨.hbm, 460, rfl⟩
abbrev main_cst_102 : Ref sig .tc := ⟨.hbm, 461, rfl⟩
abbrev main_v305 : Ref sig .tc := ⟨.hbm, 462, rfl⟩
abbrev main_v306 : Ref sig .tc := ⟨.hbm, 463, rfl⟩
abbrev main_v307 : Ref sig .tc := ⟨.hbm, 464, rfl⟩
abbrev main_cst_103 : Ref sig .tc := ⟨.hbm, 465, rfl⟩
abbrev main_v308 : Ref sig .tc := ⟨.hbm, 466, rfl⟩
abbrev main_v309 : Ref sig .tc := ⟨.hbm, 467, rfl⟩
abbrev main_cst_104 : Ref sig .tc := ⟨.hbm, 468, rfl⟩
abbrev main_v310 : Ref sig .tc := ⟨.hbm, 469, rfl⟩
abbrev main_v311 : Ref sig .tc := ⟨.hbm, 470, rfl⟩
abbrev main_v312 : Ref sig .tc := ⟨.hbm, 471, rfl⟩
abbrev main_v313 : Ref sig .tc := ⟨.hbm, 472, rfl⟩
abbrev main_cst_105 : Ref sig .tc := ⟨.hbm, 473, rfl⟩
abbrev main_call8_v0 : Ref sig .tc := ⟨.hbm, 474, rfl⟩
abbrev main_call8_v1 : Ref sig .tc := ⟨.hbm, 475, rfl⟩
abbrev main_v314 : Ref sig .tc := ⟨.hbm, 476, rfl⟩
abbrev main_v315 : Ref sig .tc := ⟨.hbm, 477, rfl⟩
abbrev main_v316 : Ref sig .tc := ⟨.hbm, 478, rfl⟩
abbrev main_cst_106 : Ref sig .tc := ⟨.hbm, 479, rfl⟩
abbrev main_v317 : Ref sig .tc := ⟨.hbm, 480, rfl⟩
abbrev main_v318 : Ref sig .tc := ⟨.hbm, 481, rfl⟩
abbrev main_v319 : Ref sig .tc := ⟨.hbm, 482, rfl⟩
abbrev main_v320 : Ref sig .tc := ⟨.hbm, 483, rfl⟩
abbrev main_cst_107 : Ref sig .tc := ⟨.hbm, 484, rfl⟩
abbrev main_v321 : Ref sig .tc := ⟨.hbm, 485, rfl⟩
abbrev main_v322 : Ref sig .tc := ⟨.hbm, 486, rfl⟩
abbrev main_v323 : Ref sig .tc := ⟨.hbm, 487, rfl⟩
abbrev main_cst_108 : Ref sig .tc := ⟨.hbm, 488, rfl⟩
abbrev main_v324 : Ref sig .tc := ⟨.hbm, 489, rfl⟩
abbrev main_cst_109 : Ref sig .tc := ⟨.hbm, 490, rfl⟩
abbrev main_v325 : Ref sig .tc := ⟨.hbm, 491, rfl⟩
abbrev main_v326 : Ref sig .tc := ⟨.hbm, 492, rfl⟩
abbrev main_cst_110 : Ref sig .tc := ⟨.hbm, 493, rfl⟩
abbrev main_v327 : Ref sig .tc := ⟨.hbm, 494, rfl⟩
abbrev main_cst_111 : Ref sig .tc := ⟨.hbm, 495, rfl⟩
abbrev main_v328 : Ref sig .tc := ⟨.hbm, 496, rfl⟩
abbrev main_cst_112 : Ref sig .tc := ⟨.hbm, 497, rfl⟩
abbrev main_v329 : Ref sig .tc := ⟨.hbm, 498, rfl⟩
abbrev main_v330 : Ref sig .tc := ⟨.hbm, 499, rfl⟩
abbrev main_cst_113 : Ref sig .tc := ⟨.hbm, 500, rfl⟩
abbrev main_v331 : Ref sig .tc := ⟨.hbm, 501, rfl⟩
abbrev main_cst_114 : Ref sig .tc := ⟨.hbm, 502, rfl⟩
abbrev main_v332 : Ref sig .tc := ⟨.hbm, 503, rfl⟩
abbrev main_cst_115 : Ref sig .tc := ⟨.hbm, 504, rfl⟩
abbrev main_v333 : Ref sig .tc := ⟨.hbm, 505, rfl⟩
abbrev main_cst_116 : Ref sig .tc := ⟨.hbm, 506, rfl⟩
abbrev main_v334 : Ref sig .tc := ⟨.hbm, 507, rfl⟩
abbrev main_v335 : Ref sig .tc := ⟨.hbm, 508, rfl⟩
abbrev main_v336 : Ref sig .tc := ⟨.hbm, 509, rfl⟩
abbrev main_cst_117 : Ref sig .tc := ⟨.hbm, 510, rfl⟩
abbrev main_v337 : Ref sig .tc := ⟨.hbm, 511, rfl⟩
abbrev main_v338 : Ref sig .tc := ⟨.hbm, 512, rfl⟩

abbrev nD : Nat := 1
abbrev τ : Topo := Topo.v7x

variable {F : FTy → Type} [FloatOps F]

class Facts₀ : Prop where
  bcast_S_S131072x1 : S_.BroadcastsInDim S131072x1 (![] : Fin 0 → Fin S131072x1.rank)
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S_S131072x3 : S_.BroadcastsInDim S131072x3 (![] : Fin 0 → Fin S131072x3.rank)
  bcast_S131072x1_S131072x3_0_1 : S131072x1.BroadcastsInDim S131072x3 (![0, 1] : Fin 2 → Fin S131072x3.rank)
  slices_S131072x4_S131072x1_0_2 : S131072x4.Slices ![0, 2] S131072x1
  reducesTo_S131072x3_S131072_d1 : S131072x3.ReducesTo [1] S131072
  h_S_ : 0 < S_.numel
  reducesTo_S131072x1_S_d0_1 : S131072x1.ReducesTo [0, 1] S_
  bcast_S_S32768x1 : S_.BroadcastsInDim S32768x1 (![] : Fin 0 → Fin S32768x1.rank)
  bcast_S_S32768 : S_.BroadcastsInDim S32768 (![] : Fin 0 → Fin S32768.rank)
  bcast_S32768_S32768x1_0 : S32768.BroadcastsInDim S32768x1 (![0] : Fin 1 → Fin S32768x1.rank)
  reducesTo_S32768x3_S32768_d1 : S32768x3.ReducesTo [1] S32768
  bcast_S32768x1_S32768x3_0_1 : S32768x1.BroadcastsInDim S32768x3 (![0, 1] : Fin 2 → Fin S32768x3.rank)
  concatenates_S32768x1_S32768x1_S32768x2_d1 : Shape.Concatenates [S32768x1, S32768x1] S32768x2 1
  reducesTo_S2048x3_S2048_d1 : S2048x3.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  bcast_S_S32768x3 : S_.BroadcastsInDim S32768x3 (![] : Fin 0 → Fin S32768x3.rank)
  transposes_S2048x3_S3x2048_1_0 : S2048x3.Transposes [1, 0] S3x2048
  bcast_S_S32768x2048 : S_.BroadcastsInDim S32768x2048 (![] : Fin 0 → Fin S32768x2048.rank)
  reducesTo_S32768x2048_S32768_d1 : S32768x2048.ReducesTo [1] S32768
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  reducesTo_S32768x1_S_d0_1 : S32768x1.ReducesTo [0, 1] S_
  scatter_S131072_S2097152x1_S2097152_n_0_0_1_wf : ScatterDims.WF S131072 S2097152x1 S2097152 [] [0] [0] 1
  gather_S131072x3_S2097152x1_S2097152x3_1_0_n_n_0_1_13_wf : GatherDims.WF S131072x3 S2097152x1 S2097152x3 [1] [0] [] [0] [] 1 ![1, 3]
  scatter_S131072x3_S2097152x1_S2097152x3_1_0_0_1_wf : ScatterDims.WF S131072x3 S2097152x1 S2097152x3 [1] [0] [0] 1
  gather_S131072x1_S2097152x1_S2097152x1_1_0_n_n_0_1_11_wf : GatherDims.WF S131072x1 S2097152x1 S2097152x1 [1] [0] [] [0] [] 1 ![1, 1]
  scatter_S131072x1_S2097152x1_S2097152x1_1_0_0_1_wf : ScatterDims.WF S131072x1 S2097152x1 S2097152x1 [1] [0] [0] 1
  gather_S8_S32768x1_S32768_n_0_n_n_0_1_1_wf : GatherDims.WF S8 S32768x1 S32768 [] [0] [] [0] [] 1 ![1]
  gather_S32768x3_S32768x1_S32768x3_1_0_n_n_0_1_13_wf : GatherDims.WF S32768x3 S32768x1 S32768x3 [1] [0] [] [0] [] 1 ![1, 3]
  gather_S32768x4_S32768x2_S32768x1_1_0_n_n_01_1_11_wf : GatherDims.WF S32768x4 S32768x2 S32768x1 [1] [0] [] [0, 1] [] 1 ![1, 1]
  gather_S32768x1_S32768x1_S32768x1_1_0_n_n_0_1_11_wf : GatherDims.WF S32768x1 S32768x1 S32768x1 [1] [0] [] [0] [] 1 ![1, 1]
  dot_S32768x3_S3x2048_S32768x2048_1_0_0_1_n_n_wf : DotDims.WF S32768x3 S3x2048 S32768x2048 [1] [0] [0] [1] [] []
  scatter_S32768x1_S32768x1_S32768x1_1_0_0_1_wf : ScatterDims.WF S32768x1 S32768x1 S32768x1 [1] [0] [0] 1
  gather_S32768x3_S262144x1_S262144x3_1_0_n_n_0_1_13_wf : GatherDims.WF S32768x3 S262144x1 S262144x3 [1] [0] [] [0] [] 1 ![1, 3]
  gather_S131072x3_S262144x1_S262144x3_1_0_n_n_0_1_13_wf : GatherDims.WF S131072x3 S262144x1 S262144x3 [1] [0] [] [0] [] 1 ![1, 3]
  scatter_S32768_S262144x1_S262144_n_0_0_1_wf : ScatterDims.WF S32768 S262144x1 S262144 [] [0] [0] 1

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x3_S2097152x1_S2097152x3_1_0_n_n_0_1_13 : GatherDims S131072x3 S2097152x1 S2097152x3 where
  offsetDims := [1]
  collapsedSliceDims := [0]
  operandBatchingDims := []
  startIndicesBatchingDims := []
  startIndexMap := [0]
  indexVectorDim := 1
  sliceSizes := ![1, 3]
  wf := gather_S131072x3_S2097152x1_S2097152x3_1_0_n_n_0_1_13_wf
def scatter_S131072x3_S2097152x1_S2097152x3_1_0_0_1 : ScatterDims S131072x3 S2097152x1 S2097152x3 where
  updateWindowDims := [1]
  insertedWindowDims := [0]
  scatterDimsToOperandDims := [0]
  indexVectorDim := 1
  wf := scatter_S131072x3_S2097152x1_S2097152x3_1_0_0_1_wf
def gather_S131072x1_S2097152x1_S2097152x1_1_0_n_n_0_1_11 : GatherDims S131072x1 S2097152x1 S2097152x1 where
  offsetDims := [1]
  collapsedSliceDims := [0]
  operandBatchingDims := []
  startIndicesBatchingDims := []
  startIndexMap := [0]
  indexVectorDim := 1
  sliceSizes := ![1, 1]
  wf := gather_S131072x1_S2097152x1_S2097152x1_1_0_n_n_0_1_11_wf
def scatter_S131072x1_S2097152x1_S2097152x1_1_0_0_1 : ScatterDims S131072x1 S2097152x1 S2097152x1 where
  updateWindowDims := [1]
  insertedWindowDims := [0]
  scatterDimsToOperandDims := [0]
  indexVectorDim := 1
  wf := scatter_S131072x1_S2097152x1_S2097152x1_1_0_0_1_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def gather_S32768x3_S32768x1_S32768x3_1_0_n_n_0_1_13 : GatherDims S32768x3 S32768x1 S32768x3 where
  offsetDims := [1]
  collapsedSliceDims := [0]
  operandBatchingDims := []
  startIndicesBatchingDims := []
  startIndexMap := [0]
  indexVectorDim := 1
  sliceSizes := ![1, 3]
  wf := gather_S32768x3_S32768x1_S32768x3_1_0_n_n_0_1_13_wf
def gather_S32768x4_S32768x2_S32768x1_1_0_n_n_01_1_11 : GatherDims S32768x4 S32768x2 S32768x1 where
  offsetDims := [1]
  collapsedSliceDims := [0]
  operandBatchingDims := []
  startIndicesBatchingDims := []
  startIndexMap := [0, 1]
  indexVectorDim := 1
  sliceSizes := ![1, 1]
  wf := gather_S32768x4_S32768x2_S32768x1_1_0_n_n_01_1_11_wf
def gather_S32768x1_S32768x1_S32768x1_1_0_n_n_0_1_11 : GatherDims S32768x1 S32768x1 S32768x1 where
  offsetDims := [1]
  collapsedSliceDims := [0]
  operandBatchingDims := []
  startIndicesBatchingDims := []
  startIndexMap := [0]
  indexVectorDim := 1
  sliceSizes := ![1, 1]
  wf := gather_S32768x1_S32768x1_S32768x1_1_0_n_n_0_1_11_wf
def dot_S32768x3_S3x2048_S32768x2048_1_0_0_1_n_n : DotDims S32768x3 S3x2048 S32768x2048 where
  lhsContracting := [1]
  rhsContracting := [0]
  lhsNonContracting := [0]
  rhsNonContracting := [1]
  lhsBatch := []
  rhsBatch := []
  wf := dot_S32768x3_S3x2048_S32768x2048_1_0_0_1_n_n_wf
def scatter_S32768x1_S32768x1_S32768x1_1_0_0_1 : ScatterDims S32768x1 S32768x1 S32768x1 where
  updateWindowDims := [1]
  insertedWindowDims := [0]
  scatterDimsToOperandDims := [0]
  indexVectorDim := 1
  wf := scatter_S32768x1_S32768x1_S32768x1_1_0_0_1_wf
def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def gather_S131072x3_S262144x1_S262144x3_1_0_n_n_0_1_13 : GatherDims S131072x3 S262144x1 S262144x3 where
  offsetDims := [1]
  collapsedSliceDims := [0]
  operandBatchingDims := []
  startIndicesBatchingDims := []
  startIndexMap := [0]
  indexVectorDim := 1
  sliceSizes := ![1, 3]
  wf := gather_S131072x3_S262144x1_S262144x3_1_0_n_n_0_1_13_wf
def scatter_S32768_S262144x1_S262144_n_0_0_1 : ScatterDims S32768 S262144x1 S262144 where
  updateWindowDims := []
  insertedWindowDims := [0]
  scatterDimsToOperandDims := [0]
  indexVectorDim := 1
  wf := scatter_S32768_S262144x1_S262144_n_0_0_1_wf

class Facts : Prop extends Facts₀ where

variable [Facts]
-- ==== Proof.K.Reg0.lean ====
import proofs.«119071_j16140487098675_2_alg».proof.Proof.Gen.Kernel.Launch
import proofs.«119071_j16140487098675_2_alg».proof.Proof.Gen.Kernel.Skeleton
import proofs.«119071_j16140487098675_2_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin grid0.N, cond0_0 (grid0.coords t) ↔ t.val = 0 := by decide +kernel

section Whole
variable {sig' : RefSig} {κ' : Kind} {sp' : Space} {s' : Shape} {e' : EltTy} {Val' : EltTy → Type}

private theorem idx_unit_whole (off : Fin s'.rank → ℕ) (h0 : ∀ a, off a = 0) (inb : ∀ a, off a + s'.size a ≤ s'.size a)
    (x : (Rect.unit (s := s') off s'.size inb).shape.Idx) :
    (Rect.unit (s := s') off s'.size inb).toLoadRect.idx x = x := by
  funext a; apply Fin.ext
  show off a + 1 * (x a).val = (x a).val
  rw [h0 a, Nat.zero_add, Nat.one_mul]

private theorem readAt_whole (v : View sig' κ' sp' s' e') (g : v.ty.Contents Val') (off : Fin s'.rank → ℕ) (h0 : ∀ a, off a = 0)
    (inb : ∀ a, off a + s'.size a ≤ s'.size a) :
    v.readAt Val' (Rect.unit (s := s') off s'.size inb).toLoadRect g = v.read Val' g :=
  funext fun x => congrArg (v.read Val' g) (idx_unit_whole off h0 inb x)

private theorem read_writes_whole (v : View sig' κ' sp' s' e') (f : v.ty.Contents Val') (off : Fin s'.rank → ℕ) (h0 : ∀ a, off a = 0)
    (inb : ∀ a, off a + s'.size a ≤ s'.size a) (w : (Rect.unit (s := s') off s'.size inb).shape.Idx → Val' e')
    (L : List (View.Piece Val' s' e')) :
    v.read Val' (v.writes Val' f (⟨Rect.unit (s := s') off s'.size inb, w⟩ :: L)) = w :=
  funext fun y =>
    (congrArg (v.read Val' (v.writes Val' f (⟨Rect.unit (s := s') off s'.size inb, w⟩ :: L)))
      (idx_unit_whole off h0 inb y).symm).trans
      (View.read_writes_cons_emb v f (Rect.unit (s := s') off s'.size inb) w L y)

private theorem off00 : ∀ a : Fin 2, (![0, 0] : Fin 2 → ℕ) a = 0 := Fin.forall_fin_two.mpr ⟨rfl, rfl⟩

end Whole

-- One point: the output block ends at the point's three column sums added to the zero block (first point) or to what it held.
theorem sound_kernel0 (c : Dev nD) (E : Set ℕ) (i : grid0.Coords)
    (arg1 : Memref sig .tc .vmem S2048x1 .f32) (harg1 : arg1.IsWhole) (arg2 : Memref sig .tc .vmem S2048x3 .f32) (harg2 : arg2.IsWhole)
    (arg3 : Memref sig .tc .vmem S2048x3 .f32) (harg3 : arg3.IsWhole) (arg4 : Memref sig .tc .vmem S2048x1 .f32) (harg4 : arg4.IsWhole)
    (arg5 : Memref sig .tc .vmem S2048x1 .f32) (harg5 : arg5.IsWhole) (arg6 : Memref sig .tc .vmem S1x3 .f32) (harg6 : arg6.IsWhole)
    (x0 : Vec F S2048x1 .f32) (x1 x2 : Vec F S2048x3 .f32) (x3 x4 : Vec F S2048x1 .f32) (xo : Vec F S1x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare
          (k0_pay1 (k0_pay3 i) (k0_pay4 x0) (k0_pay5 x3 x4) (k0_pay7 i x0 x1 x2) (k0_pay8 x0) (if cond0_0 i then k0_pay2 else xo))) -∗ K ⟨⟩))
      ⊢ wp frame (wpE (defs₀ (F := F)) Variants.none c none) E (cc0__lidar_reduce_kernel i arg1 harg1 arg2 harg2 arg3 harg3 arg4 harg4 arg5 harg5 arg6 harg6) K := by
  simp only [cc0__lidar_reduce_kernel_eq_skeleton, owns_eq_rep]; unfold cc0__lidar_reduce_kernel_skel
  by_cases hc0 : cond0_0 i <;> (first | rw [if_pos hc0] | rw [if_neg hc0]) <;>
  · iintro ⟨H0, H1, H2, H3, H4, H5, Hk⟩
    sl_exec (disch := first | exact hc0)
    sl_step
    iapply Hk
    iframe
    rw [← owns_eq_rep]; unfold owns
    iexists _; isplitr; swap; · iexact H5
    ipureintro
    sl_unfold_run_names
    rw [read_writes_whole _ _ _ off00]
    simp only [readAt_whole (s' := S2048x1) _ _ _ off00, readAt_whole (s' := S2048x3) _ _ _ off00, readAt_whole (s' := S1x3) _ _ _ off00,
      View.readCov_cons_toLoadRect, View.read_rep]

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The running sum: what the output block holds after point `n`.
def outsAt0 (c : Dev nD) : (n : ℕ) → n < cfg0.N → Vec F S1x3 .f32
  | 0, hn =>
    k0_pay1 (k0_pay3 (grid0.coords ⟨0, hn⟩)) (k0_pay4 (iblk0 V c 0 ⟨0, hn⟩))
      (k0_pay5 (iblk0 V c 3 ⟨0, hn⟩) (iblk0 V c 4 ⟨0, hn⟩))
      (k0_pay7 (grid0.coords ⟨0, hn⟩) (iblk0 V c 0 ⟨0, hn⟩) (iblk0 V c 1 ⟨0, hn⟩) (iblk0 V c 2 ⟨0, hn⟩))
      (k0_pay8 (iblk0 V c 0 ⟨0, hn⟩)) (k0_pay2 (F := F))
  | n + 1, hn =>
    k0_pay1 (k0_pay3 (grid0.coords ⟨n + 1, hn⟩)) (k0_pay4 (iblk0 V c 0 ⟨n + 1, hn⟩))
      (k0_pay5 (iblk0 V c 3 ⟨n + 1, hn⟩) (iblk0 V c 4 ⟨n + 1, hn⟩))
      (k0_pay7 (grid0.coords ⟨n + 1, hn⟩) (iblk0 V c 0 ⟨n + 1, hn⟩) (iblk0 V c 1 ⟨n + 1, hn⟩) (iblk0 V c 2 ⟨n + 1, hn⟩))
      (k0_pay8 (iblk0 V c 0 ⟨n + 1, hn⟩)) (outsAt0 c n (Nat.lt_of_succ_lt hn))

theorem outsAt0_zero (c : Dev nD) (hn : 0 < cfg0.N) :
    outsAt0 V c 0 hn =
      k0_pay1 (k0_pay3 (grid0.coords ⟨0, hn⟩)) (k0_pay4 (iblk0 V c 0 ⟨0, hn⟩))
        (k0_pay5 (iblk0 V c 3 ⟨0, hn⟩) (iblk0 V c 4 ⟨0, hn⟩))
        (k0_pay7 (grid0.coords ⟨0, hn⟩) (iblk0 V c 0 ⟨0, hn⟩) (iblk0 V c 1 ⟨0, hn⟩) (iblk0 V c 2 ⟨0, hn⟩))
        (k0_pay8 (iblk0 V c 0 ⟨0, hn⟩)) (k0_pay2 (F := F)) := rfl

theorem outsAt0_succ (c : Dev nD) (n : ℕ) (hn : n + 1 < cfg0.N) :
    outsAt0 V c (n + 1) hn =
      k0_pay1 (k0_pay3 (grid0.coords ⟨n + 1, hn⟩)) (k0_pay4 (iblk0 V c 0 ⟨n + 1, hn⟩))
        (k0_pay5 (iblk0 V c 3 ⟨n + 1, hn⟩) (iblk0 V c 4 ⟨n + 1, hn⟩))
        (k0_pay7 (grid0.coords ⟨n + 1, hn⟩) (iblk0 V c 0 ⟨n + 1, hn⟩) (iblk0 V c 1 ⟨n + 1, hn⟩) (iblk0 V c 2 ⟨n + 1, hn⟩))
        (k0_pay8 (iblk0 V c 0 ⟨n + 1, hn⟩)) (outsAt0 V c n (Nat.lt_of_succ_lt hn)) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = outsAt0 V c t.val t.isLt := rfl

theorem before0_0 (c : Dev nD) (t : Fin cfg0.N) (d) : (dat0 V c).before 0 t d = (dat0 V c).after 0 t := (dat0 V c).before_fetched 0 t (fetch0_0 t) d
theorem before0_1 (c : Dev nD) (t : Fin cfg0.N) (d) : (dat0 V c).before 1 t d = (dat0 V c).after 1 t := (dat0 V c).before_fetched 1 t (fetch0_1 t) d
theorem before0_2 (c : Dev nD) (t : Fin cfg0.N) (d) : (dat0 V c).before 2 t d = (dat0 V c).after 2 t := (dat0 V c).before_fetched 2 t (fetch0_2 t) d
theorem before0_3 (c : Dev nD) (t : Fin cfg0.N) (d) : (dat0 V c).before 3 t d = (dat0 V c).after 3 t := (dat0 V c).before_fetched 3 t (fetch0_3 t) d
theorem before0_4 (c : Dev nD) (t : Fin cfg0.N) (d) : (dat0 V c).before 4 t d = (dat0 V c).after 4 t := (dat0 V c).before_fetched 4 t (fetch0_4 t) d

theorem before0_5 (c : Dev nD) (t : Fin cfg0.N) (h0 : t.val ≠ 0) (d) :
    (dat0 V c).before 5 t d = outsAt0 V c (t.val - 1) (Nat.lt_of_le_of_lt (Nat.sub_le _ _) t.isLt) := by
  have hN : t.val < 64 := t.isLt.trans_eq N_0
  exact Dat.before_out_kept _ 5 rfl t h0 (Bool.eq_false_iff.mpr fun h => by have := (flush0_5 _).mp h; dsimp only at this; omega)
    (fun _ => rfl) (fun _ _ => rfl) d

-- One step of the running sum, over what the output block held before the point.
theorem outsAt0_step (c : Dev nD) : ∀ (t : Fin cfg0.N) (d), outsAt0 V c t.val t.isLt =
      k0_pay1 (k0_pay3 (grid0.coords t)) (k0_pay4 ((dat0 V c).after 0 t)) (k0_pay5 ((dat0 V c).after 3 t) ((dat0 V c).after 4 t))
        (k0_pay7 (grid0.coords t) ((dat0 V c).after 0 t) ((dat0 V c).after 1 t) ((dat0 V c).after 2 t)) (k0_pay8 ((dat0 V c).after 0 t))
        (if cond0_0 (grid0.coords t) then k0_pay2 else (dat0 V c).before 5 t d)
  | ⟨0, _⟩, _ => by rw [if_pos ((hcond0_0 _).mpr rfl)]; rfl
  | ⟨n + 1, hn⟩, d => by
    rw [if_neg fun h => Nat.succ_ne_zero n ((hcond0_0 _).mp h), before0_5 V c _ (Nat.succ_ne_zero n)]; rfl

theorem body_obligation0 (c : Dev nD) : BodyObligation (dat0 (F := F) V c) (defs₀ (F := F)) Variants.none () Set.univ := fun t => by
  rw [bigSep_W0, bigSep_W0]
  simp only [before0_0, before0_1, before0_2, before0_3, before0_4]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ ((dat0 V c).after 0 t) ((dat0 V c).after 1 t) ((dat0 V c).after 2 t)
    ((dat0 V c).after 3 t) ((dat0 V c).after 4 t) ((dat0 V c).before 5 t d5) _)
  iframe
  iintro ⟨H0, H1, H2, H3, H4, H5⟩
  rw [show (dat0 V c).Φ t.succ = (dat0 V c).Φ t.castSucc from rfl, show (dat0 V c).owesAt () t.succ = (dat0 V c).owesAt () t.castSucc from rfl,
    after0_5, outsAt0_step V c t d5]
  iframe

end Region0

end Cert.Kernel.Hand

end
-- ==== Proof.K.Reg1.lean ====
import proofs.«119071_j16140487098675_2_alg».proof.Proof.Gen.Kernel.Launch
import proofs.«119071_j16140487098675_2_alg».proof.Proof.Gen.Kernel.Skeleton
import proofs.«119071_j16140487098675_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x3 := Rect.unit (s := S512x3) ![0, 0] S512x3.size inb_S512x3_S512x3_0_0
abbrev r1_1 : Rect S2048x3 := Rect.unit (s := S2048x3) ![0, 0] S2048x3.size inb_S2048x3_S2048x3_0_0
abbrev r1_2 : Rect S512x1 := Rect.unit (s := S512x1) ![0, 0] S512x1.size inb_S512x1_S512x1_0_0

def out1_2 (x0 : Vec F S512x3 .f32) (x1 : Vec F S2048x3 .f32) : Vec F S512x1 .f32 :=
  View.canon [⟨r1_2, k1_pay1 (View.ld x0 r1_0) (View.ld x1 r1_1)⟩]

-- The nearest-neighbour kernel on whole buffers: the inputs stay, the output is left at `out1_2` of them.
theorem body_min_sqdist (c : Dev nD) {i : grid1.Coords}
    {arg1 : Memref sig .tc .vmem S512x3 .f32} {harg1 : arg1.IsWhole} {arg2 : Memref sig .tc .vmem S2048x3 .f32} {harg2 : arg2.IsWhole}
    {arg3 : Memref sig .tc .vmem S512x1 .f32} {harg3 : arg3.IsWhole} {P Q : sProp 𝕄}
    {D0 D1 D2 : Type} {b0 : D0 → Vec F S512x3 .f32} {b1 : D1 → Vec F S2048x3 .f32} {b2 : D2 → Vec F S512x1 .f32}
    {x0 : Vec F S512x3 .f32} {x1 : Vec F S2048x3 .f32} {y : Vec F S512x1 .f32}
    (h0 : ∀ d, b0 d = x0) (h1 : ∀ d, b1 d = x1) (hy : y = out1_2 x0 x1) :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)))
      ⊢ wp frame (wpE (defs₀ (F := F)) Variants.none c none) Set.univ (cc1__min_sqdist_kernel i arg1 harg1 arg2 harg2 arg3 harg3)
        fun _ => iprop(P ∗ Q ∗ owns (c : Thread nD τ) arg1 fullShare x0 ∗ owns (c : Thread nD τ) arg2 fullShare x1
          ∗ owns (c : Thread nD τ) arg3 fullShare y) := by
  subst hy
  simp only [cc1__min_sqdist_kernel_eq_skeleton, h0, h1]; unfold cc1__min_sqdist_kernel_skel owns
  iintro ⟨HP, HQ, ⟨%_, %f0, %hf0, H0⟩, ⟨%_, %f1, %hf1, H1⟩, ⟨%_, %f2, -, H2⟩⟩
  subst hf0 hf1
  sl_exec
  sl_step
  iframe HP HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S512x1.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  sl_whnfR [defs₀, Defs.onTc]
  exact body_min_sqdist c (before1_0 V c t) (before1_1 V c t) (after1_2 V c t)

end Cert.Kernel.Hand
-- ==== Proof.K.RegRR.lean ====
import proofs.«119071_j16140487098675_2_alg».proof.Proof.Gen.Kernel.Launch
import proofs.«119071_j16140487098675_2_alg».proof.Proof.Gen.Kernel.Skeleton
import proofs.«119071_j16140487098675_2_alg».proof.Proof.Gen.Kernel.Points
import Idealize.ShloMosaic.Lib.Pipeline.FrameBody
import Idealize.ShloMosaic.Lib.Pipeline.TableIdle
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev condRR (i : grid2.Coords) : Prop := (Scalar.cmpi .ne (Scalar.extui (Scalar.cmpi .eq (BitVec.ofNat 32 (i 0).val) 0#32)) 0#32) = 1#1

theorem hcondRR : ∀ t : Fin grid2.N, condRR (grid2.coords t) ↔ t.val = 0 := by decide +kernel

-- A rectangle at offset zero of the shape's full extents places each index at itself.
private theorem full_emb {s : Shape} (off : Fin s.rank → ℕ) (h0 : ∀ a, off a = 0) (inb : ∀ a, off a + s.size a ≤ s.size a)
    (x : (Rect.unit (s := s) off s.size inb).shape.Idx) : (Rect.unit (s := s) off s.size inb).emb x = x := by
  funext a; apply Fin.ext
  show off a + 1 * (x a : ℕ) = x a
  rw [h0 a]; omega

private theorem full_readAt {s : Shape} {e : EltTy} (v : View sig .tc .vmem s e) (X : s.Idx → Elt F e)
    (off : Fin s.rank → ℕ) (h0 : ∀ a, off a = 0) (inb : ∀ a, off a + s.size a ≤ s.size a) :
    View.readAt (Elt F) v (Rect.unit (s := s) off s.size inb).toLoadRect (v.rep X) = X := by
  rw [View.readAt_rep]; funext x
  exact congrArg X (full_emb off h0 inb x)

private theorem full_read_writes {s : Shape} {e : EltTy} (v : View sig .tc .vmem s e) (f : v.ty.Contents (Elt F))
    (off : Fin s.rank → ℕ) (h0 : ∀ a, off a = 0) (inb : ∀ a, off a + s.size a ≤ s.size a)
    (w : (Rect.unit (s := s) off s.size inb).shape.Idx → Elt F e) (L : List (View.Piece (Elt F) s e)) :
    v.read (Elt F) (v.writes (Elt F) f (⟨Rect.unit (s := s) off s.size inb, w⟩ :: L)) = w := by
  funext y
  have h := View.read_writes_cons_emb (v := v) (f := f) (Rect.unit (s := s) off s.size inb) w L y
  rwa [full_emb off h0 inb y] at h

private theorem zero_off : ∀ a : Fin 2, (![0, 0] : Fin 2 → ℕ) a = 0 := by decide

-- One point: the output block ends at the point's three column sums added to the zero block (first point) or to what it held.
theorem runRR (c : Dev nD) (E : Set ℕ) (i : grid2.Coords)
    (arg1 : Memref sig .tc .vmem S2048x1 .f32) (harg1 : arg1.IsWhole) (arg2 : Memref sig .tc .vmem S2048x1 .f32) (harg2 : arg2.IsWhole)
    (arg3 : Memref sig .tc .vmem S2048x1 .f32) (harg3 : arg3.IsWhole) (arg4 : Memref sig .tc .vmem S2048x1 .f32) (harg4 : arg4.IsWhole)
    (arg5 : Memref sig .tc .vmem S2048x1 .f32) (harg5 : arg5.IsWhole) (arg6 : Memref sig .tc .vmem S1x3 .f32) (harg6 : arg6.IsWhole)
    (x0 x1 x2 x3 x4 : Vec F S2048x1 .f32) (xo : Vec F S1x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare
          (k2_pay1 (k2_pay3 i) (k2_pay4 x1) (k2_pay5 x0) (k2_pay6 x2 x3) (k2_pay7 x0 x4) (Scalar.ofBits .f32 0x3089705F#32)
            (if condRR i then k2_pay2 else xo))) -∗ K ⟨⟩))
      ⊢ wp frame (wpE (defs₀ (F := F)) Variants.none c none) E (cc2__radar_reduce_kernel i arg1 harg1 arg2 harg2 arg3 harg3 arg4 harg4 arg5 harg5 arg6 harg6) K := by
  simp only [cc2__radar_reduce_kernel_eq_skeleton, k2_part1_eq_skeleton, owns_eq_rep]; unfold cc2__radar_reduce_kernel_skel
  by_cases hc0 : condRR i <;> (first | rw [if_pos hc0] | rw [if_neg hc0]) <;>
  · iintro ⟨H0, H1, H2, H3, H4, H5, Hk⟩
    sl_exec (disch := first | exact hc0)
    sl_step
    iapply Hk
    iframe
    rw [← owns_eq_rep]; unfold owns
    iexists _; isplitr; swap; · iexact H5
    ipureintro
    sl_unfold_run_names
    rw [full_read_writes _ _ _ zero_off, full_readAt _ x0 _ zero_off, full_readAt _ x1 _ zero_off, full_readAt _ x2 _ zero_off,
      full_readAt _ x3 _ zero_off, full_readAt _ x4 _ zero_off]
    first | rw [View.readCov_cons_toLoadRect] | rw [full_readAt _ xo _ zero_off]

end Cert.Kernel.Hand

end
-- ==== Proof.K.Reg2.lean ====
import proofs.«119071_j16140487098675_2_alg».proof.Proof.K.RegRR
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The running sum: what the output block holds after point `n`.
def outsAt2 (c : Dev nD) : (n : ℕ) → n < cfg2.N → Vec F S1x3 .f32
  | 0, hn =>
    k2_pay1 (k2_pay3 (grid2.coords ⟨0, hn⟩)) (k2_pay4 (iblk2 V c 1 ⟨0, hn⟩)) (k2_pay5 (iblk2 V c 0 ⟨0, hn⟩))
        (k2_pay6 (iblk2 V c 2 ⟨0, hn⟩) (iblk2 V c 3 ⟨0, hn⟩)) (k2_pay7 (iblk2 V c 0 ⟨0, hn⟩) (iblk2 V c 4 ⟨0, hn⟩))
        (Scalar.ofBits .f32 0x3089705F#32) k2_pay2
  | n + 1, hn =>
    k2_pay1 (k2_pay3 (grid2.coords ⟨n + 1, hn⟩)) (k2_pay4 (iblk2 V c 1 ⟨n + 1, hn⟩)) (k2_pay5 (iblk2 V c 0 ⟨n + 1, hn⟩))
        (k2_pay6 (iblk2 V c 2 ⟨n + 1, hn⟩) (iblk2 V c 3 ⟨n + 1, hn⟩)) (k2_pay7 (iblk2 V c 0 ⟨n + 1, hn⟩) (iblk2 V c 4 ⟨n + 1, hn⟩))
        (Scalar.ofBits .f32 0x3089705F#32) (outsAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = outsAt2 V c t.val t.isLt := rfl

theorem before2_0 (c : Dev nD) (t : Fin cfg2.N) (d) : (dat2 V c).before 0 t d = (dat2 V c).after 0 t := (dat2 V c).before_fetched 0 t (fetch2_0 t) d
theorem before2_1 (c : Dev nD) (t : Fin cfg2.N) (d) : (dat2 V c).before 1 t d = (dat2 V c).after 1 t := (dat2 V c).before_fetched 1 t (fetch2_1 t) d
theorem before2_2 (c : Dev nD) (t : Fin cfg2.N) (d) : (dat2 V c).before 2 t d = (dat2 V c).after 2 t := (dat2 V c).before_fetched 2 t (fetch2_2 t) d
theorem before2_3 (c : Dev nD) (t : Fin cfg2.N) (d) : (dat2 V c).before 3 t d = (dat2 V c).after 3 t := (dat2 V c).before_fetched 3 t (fetch2_3 t) d
theorem before2_4 (c : Dev nD) (t : Fin cfg2.N) (d) : (dat2 V c).before 4 t d = (dat2 V c).after 4 t := (dat2 V c).before_fetched 4 t (fetch2_4 t) d

theorem before2_5 (c : Dev nD) (t : Fin cfg2.N) (h0 : t.val ≠ 0) (d) :
    (dat2 V c).before 5 t d = outsAt2 V c (t.val - 1) (Nat.lt_of_le_of_lt (Nat.sub_le _ _) t.isLt) := by
  have hN : t.val < 16 := t.isLt.trans_eq N_2
  exact Dat.before_out_kept _ 5 rfl t h0 (Bool.eq_false_iff.mpr fun h => by have := (flush2_5 _).mp h; dsimp only at this; omega)
    (fun _ => rfl) (fun _ _ => rfl) d

-- One step of the running sum, over what the output block held before the point.
theorem outsAt2_step (c : Dev nD) : ∀ (t : Fin cfg2.N) (d), outsAt2 V c t.val t.isLt =
      k2_pay1 (k2_pay3 (grid2.coords t)) (k2_pay4 ((dat2 V c).after 1 t)) (k2_pay5 ((dat2 V c).after 0 t))
        (k2_pay6 ((dat2 V c).after 2 t) ((dat2 V c).after 3 t)) (k2_pay7 ((dat2 V c).after 0 t) ((dat2 V c).after 4 t))
        (Scalar.ofBits .f32 0x3089705F#32) (if condRR (grid2.coords t) then k2_pay2 else (dat2 V c).before 5 t d)
  | ⟨0, _⟩, _ => by rw [if_pos ((hcondRR _).mpr rfl)]; rfl
  | ⟨n + 1, hn⟩, d => by
    rw [if_neg fun h => Nat.succ_ne_zero n ((hcondRR _).mp h), before2_5 V c _ (Nat.succ_ne_zero n)]; rfl

theorem body_obligation2 (c : Dev nD) : BodyObligation (dat2 (F := F) V c) (defs₀ (F := F)) Variants.none () Set.univ := fun t => by
  rw [bigSep_W2, bigSep_W2]
  simp only [before2_0, before2_1, before2_2, before2_3, before2_4]
  iintro ⟨HΦ, Ho, ⟨%d0, H0⟩, ⟨%d1, H1⟩, ⟨%d2, H2⟩, ⟨%d3, H3⟩, ⟨%d4, H4⟩, ⟨%d5, H5⟩⟩
  iapply (runRR c Set.univ (grid2.coords t) _ (stage_whole2 0 _) _ (stage_whole2 1 _) _ (stage_whole2 2 _) _ (stage_whole2 3 _)
    _ (stage_whole2 4 _) _ (stage_whole2 5 _) ((dat2 V c).after 0 t) ((dat2 V c).after 1 t) ((dat2 V c).after 2 t) ((dat2 V c).after 3 t) ((dat2 V c).after 4 t) ((dat2 V c).before 5 t d5) _)
  iframe
  iintro ⟨H0, H1, H2, H3, H4, H5⟩
  rw [show (dat2 V c).Φ t.succ = (dat2 V c).Φ t.castSucc from rfl, show (dat2 V c).owesAt () t.succ = (dat2 V c).owesAt () t.castSucc from rfl,
    after2_5, outsAt2_step V c t d5]
  iframe

end Region2

end Cert.Kernel.Hand

end
-- ==== Proof.K.Reg3.lean ====
import proofs.«119071_j16140487098675_2_alg».proof.Proof.K.Reg1

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S512x3 .f32) (x1 : Vec F S2048x3 .f32) : Vec F S512x1 .f32 :=
  View.canon [⟨r1_2, k3_pay1 (View.ld x0 r1_0) (View.ld x1 r1_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- Regions 1 and 3 run one kernel function on different arrays.
theorem cc3_eq : cc3__min_sqdist_kernel (F := F) = cc1__min_sqdist_kernel := rfl

theorem body_obligation3 (c : Dev nD) : BodyObligation (dat3 (F := F) V c) (defs₀ (F := F)) Variants.none () Set.univ := fun t => by
  rw [bigSep_W3, bigSep_W3]
  sl_whnfR [defs₀, Defs.onTc]
  rw [cc3_eq]
  exact body_min_sqdist c (before3_0 V c t) (before3_1 V c t) (after3_2 V c t)

end Cert.Kernel.Hand
-- ==== Proof.K.Reg4.lean ====
import proofs.«119071_j16140487098675_2_alg».proof.Proof.K.RegRR
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- The running sum: what the output block holds after point `n`.
def outsAt4 (c : Dev nD) : (n : ℕ) → n < cfg4.N → Vec F S1x3 .f32
  | 0, hn =>
    k4_pay1 (k4_pay3 (grid4.coords ⟨0, hn⟩)) (k4_pay4 (iblk4 V c 1 ⟨0, hn⟩)) (k4_pay5 (iblk4 V c 0 ⟨0, hn⟩))
        (k4_pay6 (iblk4 V c 2 ⟨0, hn⟩) (iblk4 V c 3 ⟨0, hn⟩)) (k4_pay7 (iblk4 V c 0 ⟨0, hn⟩) (iblk4 V c 4 ⟨0, hn⟩))
        (Scalar.ofBits .f32 0x3089705F#32) k4_pay2
  | n + 1, hn =>
    k4_pay1 (k4_pay3 (grid4.coords ⟨n + 1, hn⟩)) (k4_pay4 (iblk4 V c 1 ⟨n + 1, hn⟩)) (k4_pay5 (iblk4 V c 0 ⟨n + 1, hn⟩))
        (k4_pay6 (iblk4 V c 2 ⟨n + 1, hn⟩) (iblk4 V c 3 ⟨n + 1, hn⟩)) (k4_pay7 (iblk4 V c 0 ⟨n + 1, hn⟩) (iblk4 V c 4 ⟨n + 1, hn⟩))
        (Scalar.ofBits .f32 0x3089705F#32) (outsAt4 c n (Nat.lt_of_succ_lt hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => outsAt4 V c t.val t.isLt
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = outsAt4 V c t.val t.isLt := rfl

theorem before4_0 (c : Dev nD) (t : Fin cfg4.N) (d) : (dat4 V c).before 0 t d = (dat4 V c).after 0 t := (dat4 V c).before_fetched 0 t (fetch4_0 t) d
theorem before4_1 (c : Dev nD) (t : Fin cfg4.N) (d) : (dat4 V c).before 1 t d = (dat4 V c).after 1 t := (dat4 V c).before_fetched 1 t (fetch4_1 t) d
theorem before4_2 (c : Dev nD) (t : Fin cfg4.N) (d) : (dat4 V c).before 2 t d = (dat4 V c).after 2 t := (dat4 V c).before_fetched 2 t (fetch4_2 t) d
theorem before4_3 (c : Dev nD) (t : Fin cfg4.N) (d) : (dat4 V c).before 3 t d = (dat4 V c).after 3 t := (dat4 V c).before_fetched 3 t (fetch4_3 t) d
theorem before4_4 (c : Dev nD) (t : Fin cfg4.N) (d) : (dat4 V c).before 4 t d = (dat4 V c).after 4 t := (dat4 V c).before_fetched 4 t (fetch4_4 t) d

theorem before4_5 (c : Dev nD) (t : Fin cfg4.N) (h0 : t.val ≠ 0) (d) :
    (dat4 V c).before 5 t d = outsAt4 V c (t.val - 1) (Nat.lt_of_le_of_lt (Nat.sub_le _ _) t.isLt) := by
  have hN : t.val < 16 := t.isLt.trans_eq N_4
  exact Dat.before_out_kept _ 5 rfl t h0 (Bool.eq_false_iff.mpr fun h => by have := (flush4_5 _).mp h; dsimp only at this; omega)
    (fun _ => rfl) (fun _ _ => rfl) d

-- One step of the running sum, over what the output block held before the point.
theorem outsAt4_step (c : Dev nD) : ∀ (t : Fin cfg4.N) (d), outsAt4 V c t.val t.isLt =
      k2_pay1 (k2_pay3 (grid4.coords t)) (k2_pay4 ((dat4 V c).after 1 t)) (k2_pay5 ((dat4 V c).after 0 t))
        (k2_pay6 ((dat4 V c).after 2 t) ((dat4 V c).after 3 t)) (k2_pay7 ((dat4 V c).after 0 t) ((dat4 V c).after 4 t))
        (Scalar.ofBits .f32 0x3089705F#32) (if condRR (grid4.coords t) then k2_pay2 else (dat4 V c).before 5 t d)
  | ⟨0, _⟩, _ => by rw [if_pos ((hcondRR _).mpr rfl)]; rfl
  | ⟨n + 1, hn⟩, d => by
    rw [if_neg fun h => Nat.succ_ne_zero n ((hcondRR _).mp h), before4_5 V c _ (Nat.succ_ne_zero n)]; rfl

theorem body_obligation4 (c : Dev nD) : BodyObligation (dat4 (F := F) V c) (defs₀ (F := F)) Variants.none () Set.univ := fun t => by
  rw [bigSep_W4, bigSep_W4]
  simp only [before4_0, before4_1, before4_2, before4_3, before4_4]
  iintro ⟨HΦ, Ho, ⟨%d0, H0⟩, ⟨%d1, H1⟩, ⟨%d2, H2⟩, ⟨%d3, H3⟩, ⟨%d4, H4⟩, ⟨%d5, H5⟩⟩
  iapply (runRR c Set.univ (grid4.coords t) _ (stage_whole4 0 _) _ (stage_whole4 1 _) _ (stage_whole4 2 _) _ (stage_whole4 3 _)
    _ (stage_whole4 4 _) _ (stage_whole4 5 _) ((dat4 V c).after 0 t) ((dat4 V c).after 1 t) ((dat4 V c).after 2 t) ((dat4 V c).after 3 t) ((dat4 V c).after 4 t) ((dat4 V c).before 5 t d5) _)
  iframe
  iintro ⟨H0, H1, H2, H3, H4, H5⟩
  rw [show (dat4 V c).Φ t.succ = (dat4 V c).Φ t.castSucc from rfl, show (dat4 V c).owesAt () t.succ = (dat4 V c).owesAt () t.castSucc from rfl,
    after4_5, outsAt4_step V c t d5]
  iframe

end Region4

end Cert.Kernel.Hand

end
-- ==== Proof.K.Run.lean ====
import proofs.«119071_j16140487098675_2_alg».proof.Proof.K.Reg0
import proofs.«119071_j16140487098675_2_alg».proof.Proof.K.Reg1
import proofs.«119071_j16140487098675_2_alg».proof.Proof.K.Reg2
import proofs.«119071_j16140487098675_2_alg».proof.Proof.K.Reg3
import proofs.«119071_j16140487098675_2_alg».proof.Proof.K.Reg4
import proofs.«119071_j16140487098675_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev Vt1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 : Dev nD → Valuation τ sig (Elt F) := fun c => StableHlo.after hostOps1 (W2 m c)

abbrev W4 : Dev nD → Valuation τ sig (Elt F) := fun c => StableHlo.after hostOps1_1 (W3 m c)

abbrev W5 : Dev nD → Valuation τ sig (Elt F) := fun c => StableHlo.after hostOps1_2 (W4 m c)

abbrev W6 : Dev nD → Valuation τ sig (Elt F) := fun c => StableHlo.after hostOps1_3 (W5 m c)

abbrev W7 : Dev nD → Valuation τ sig (Elt F) := fun c => StableHlo.after hostOps1_4 (W6 m c)
abbrev Vt7 : (c : Dev nD) → (b : Ref sig .tc) → Buf (Elt F) ((c : Thread nD τ).loc b) := fun c b => W7 m c b

def W8 (c : Dev nD) : Valuation τ sig (Elt F) :=
  Pipeline.withArrays spec1 c (W7 m c) fun w => (dat1 (Vt7 m) c).arrAt w cfg1.N
theorem W8_arr (c : Dev nD) (w : Fin cfg1.W) :
    W8 m c (Proc.devRef .tc (Pipeline.arrRef spec1 w)) = (dat1 (Vt7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

abbrev W9 : Dev nD → Valuation τ sig (Elt F) := fun c => StableHlo.after hostOps2 (W8 m c)
abbrev Vt9 : (c : Dev nD) → (b : Ref sig .tc) → Buf (Elt F) ((c : Thread nD τ).loc b) := fun c b => W9 m c b

def W10 (c : Dev nD) : Valuation τ sig (Elt F) :=
  Pipeline.withArrays spec2 c (W9 m c) fun w => (dat2 (Vt9 m) c).arrAt w cfg2.N
theorem W10_arr (c : Dev nD) (w : Fin cfg2.W) :
    W10 m c (Proc.devRef .tc (Pipeline.arrRef spec2 w)) = (dat2 (Vt9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb

abbrev W11 : Dev nD → Valuation τ sig (Elt F) := fun c => StableHlo.after hostOps3 (W10 m c)

abbrev W12 : Dev nD → Valuation τ sig (Elt F) := fun c => StableHlo.after hostOps3_1 (W11 m c)

abbrev W13 : Dev nD → Valuation τ sig (Elt F) := fun c => StableHlo.after hostOps3_2 (W12 m c)

abbrev W14 : Dev nD → Valuation τ sig (Elt F) := fun c => StableHlo.after hostOps3_3 (W13 m c)

abbrev W15 : Dev nD → Valuation τ sig (Elt F) := fun c => StableHlo.after hostOps3_4 (W14 m c)
abbrev Vt15 : (c : Dev nD) → (b : Ref sig .tc) → Buf (Elt F) ((c : Thread nD τ).loc b) := fun c b => W15 m c b

def W16 (c : Dev nD) : Valuation τ sig (Elt F) :=
  Pipeline.withArrays spec3 c (W15 m c) fun w => (dat3 (Vt15 m) c).arrAt w cfg3.N
theorem W16_arr (c : Dev nD) (w : Fin cfg3.W) :
    W16 m c (Proc.devRef .tc (Pipeline.arrRef spec3 w)) = (dat3 (Vt15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb

abbrev W17 : Dev nD → Valuation τ sig (Elt F) := fun c => StableHlo.after hostOps4 (W16 m c)
abbrev Vt17 : (c : Dev nD) → (b : Ref sig .tc) → Buf (Elt F) ((c : Thread nD τ).loc b) := fun c b => W17 m c b

def W18 (c : Dev nD) : Valuation τ sig (Elt F) :=
  Pipeline.withArrays spec4 c (W17 m c) fun w => (dat4 (Vt17 m) c).arrAt w cfg4.N
theorem W18_arr (c : Dev nD) (w : Fin cfg4.W) :
    W18 m c (Proc.devRef .tc (Pipeline.arrRef spec4 w)) = (dat4 (Vt17 m) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m c (Proc.devRef .tc b) = W17 m c (Proc.devRef .tc b) := by
  unfold W18; exact Pipeline.withArrays_of_ne spec4 c _ _ b hb

abbrev W19 : Dev nD → Valuation τ sig (Elt F) := fun c => StableHlo.after hostOps5 (W18 m c)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

-- A region only reads an argument array, so the array keeps its contents across the region.
theorem W2_arg (c : Dev nD) (r : Ref sig .tc) (hr : r ∈ argRefs) : W2 m c (Proc.devRef .tc r) = W1 m c (Proc.devRef .tc r) := by
  by_cases h : ∀ w, Pipeline.arrRef spec0 w ≠ r
  · exact W2_of_ne m c r h
  · obtain ⟨w, rfl⟩ := not_forall_not.mp h
    exact (W2_arr m c w).trans (((dat0 (Vt1 m) c).arrAt_in w
      ((by decide : ∀ w : Fin cfg0.W, Pipeline.arrRef spec0 w ∈ argRefs → (cfg0.win w).isOut = false) w hr) _).trans (A_eq0 (Vt1 m) c w))
theorem W8_arg (c : Dev nD) (r : Ref sig .tc) (hr : r ∈ argRefs) : W8 m c (Proc.devRef .tc r) = W7 m c (Proc.devRef .tc r) := by
  by_cases h : ∀ w, Pipeline.arrRef spec1 w ≠ r
  · exact W8_of_ne m c r h
  · obtain ⟨w, rfl⟩ := not_forall_not.mp h
    exact (W8_arr m c w).trans (((dat1 (Vt7 m) c).arrAt_in w
      ((by decide : ∀ w : Fin cfg1.W, Pipeline.arrRef spec1 w ∈ argRefs → (cfg1.win w).isOut = false) w hr) _).trans (A_eq1 (Vt7 m) c w))
theorem W10_arg (c : Dev nD) (r : Ref sig .tc) (hr : r ∈ argRefs) : W10 m c (Proc.devRef .tc r) = W9 m c (Proc.devRef .tc r) := by
  by_cases h : ∀ w, Pipeline.arrRef spec2 w ≠ r
  · exact W10_of_ne m c r h
  · obtain ⟨w, rfl⟩ := not_forall_not.mp h
    exact (W10_arr m c w).trans (((dat2 (Vt9 m) c).arrAt_in w
      ((by decide : ∀ w : Fin cfg2.W, Pipeline.arrRef spec2 w ∈ argRefs → (cfg2.win w).isOut = false) w hr) _).trans (A_eq2 (Vt9 m) c w))
theorem W16_arg (c : Dev nD) (r : Ref sig .tc) (hr : r ∈ argRefs) : W16 m c (Proc.devRef .tc r) = W15 m c (Proc.devRef .tc r) := by
  by_cases h : ∀ w, Pipeline.arrRef spec3 w ≠ r
  · exact W16_of_ne m c r h
  · obtain ⟨w, rfl⟩ := not_forall_not.mp h
    exact (W16_arr m c w).trans (((dat3 (Vt15 m) c).arrAt_in w
      ((by decide : ∀ w : Fin cfg3.W, Pipeline.arrRef spec3 w ∈ argRefs → (cfg3.win w).isOut = false) w hr) _).trans (A_eq3 (Vt15 m) c w))
theorem W18_arg (c : Dev nD) (r : Ref sig .tc) (hr : r ∈ argRefs) : W18 m c (Proc.devRef .tc r) = W17 m c (Proc.devRef .tc r) := by
  by_cases h : ∀ w, Pipeline.arrRef spec4 w ≠ r
  · exact W18_of_ne m c r h
  · obtain ⟨w, rfl⟩ := not_forall_not.mp h
    exact (W18_arr m c w).trans (((dat4 (Vt17 m) c).arrAt_in w
      ((by decide : ∀ w : Fin cfg4.W, Pipeline.arrRef spec4 w ∈ argRefs → (cfg4.win w).isOut = false) w hr) _).trans (A_eq4 (Vt17 m) c w))

-- No host stretch writes an argument array and every region only reads it, so it ends as launched.
theorem W19_arg (c : Dev nD) (r : Ref sig .tc) (hr : r ∈ argRefs) : W19 m c (Proc.devRef .tc r) = m (c, Proc.devRef .tc r) := by
  obtain ⟨h0, h1, h2, h3, h4, h5, h6, h7, h8, h9, h10, h11, h12, h13⟩ :=
    (by decide : ∀ r ∈ argRefs, r ∉ hostOps0_W ∧ r ∉ hostOps1_W ∧ r ∉ hostOps1_1_W ∧ r ∉ hostOps1_2_W ∧ r ∉ hostOps1_3_W ∧ r ∉ hostOps1_4_W ∧ r ∉ hostOps2_W ∧ r ∉ hostOps3_W ∧ r ∉ hostOps3_1_W ∧ r ∉ hostOps3_2_W ∧ r ∉ hostOps3_3_W ∧ r ∉ hostOps3_4_W ∧ r ∉ hostOps4_W ∧ r ∉ hostOps5_W) r hr
  calc W19 m c (Proc.devRef .tc r)
    _ = W18 m c (Proc.devRef .tc r) := StableHlo.after_of_writes_sub hostOps5 _ hostOps5_writes h13
    _ = W17 m c (Proc.devRef .tc r) := W18_arg m c r hr
    _ = W16 m c (Proc.devRef .tc r) := StableHlo.after_of_writes_sub hostOps4 _ hostOps4_writes h12
    _ = W15 m c (Proc.devRef .tc r) := W16_arg m c r hr
    _ = W14 m c (Proc.devRef .tc r) := StableHlo.after_of_writes_sub hostOps3_4 _ hostOps3_4_writes h11
    _ = W13 m c (Proc.devRef .tc r) := StableHlo.after_of_writes_sub hostOps3_3 _ hostOps3_3_writes h10
    _ = W12 m c (Proc.devRef .tc r) := StableHlo.after_of_writes_sub hostOps3_2 _ hostOps3_2_writes h9
    _ = W11 m c (Proc.devRef .tc r) := StableHlo.after_of_writes_sub hostOps3_1 _ hostOps3_1_writes h8
    _ = W10 m c (Proc.devRef .tc r) := StableHlo.after_of_writes_sub hostOps3 _ hostOps3_writes h7
    _ = W9 m c (Proc.devRef .tc r) := W10_arg m c r hr
    _ = W8 m c (Proc.devRef .tc r) := StableHlo.after_of_writes_sub hostOps2 _ hostOps2_writes h6
    _ = W7 m c (Proc.devRef .tc r) := W8_arg m c r hr
    _ = W6 m c (Proc.devRef .tc r) := StableHlo.after_of_writes_sub hostOps1_4 _ hostOps1_4_writes h5
    _ = W5 m c (Proc.devRef .tc r) := StableHlo.after_of_writes_sub hostOps1_3 _ hostOps1_3_writes h4
    _ = W4 m c (Proc.devRef .tc r) := StableHlo.after_of_writes_sub hostOps1_2 _ hostOps1_2_writes h3
    _ = W3 m c (Proc.devRef .tc r) := StableHlo.after_of_writes_sub hostOps1_1 _ hostOps1_1_writes h2
    _ = W2 m c (Proc.devRef .tc r) := StableHlo.after_of_writes_sub hostOps1 _ hostOps1_writes h1
    _ = W1 m c (Proc.devRef .tc r) := W2_arg m c r hr
    _ = W0 m c (Proc.devRef .tc r) := StableHlo.after_of_writes_sub hostOps0 _ hostOps0_writes h0
    _ = m (c, Proc.devRef .tc r) := rfl

abbrev admH : (p : Fin 5) → (pcfgs (F := F) p).Adm := fun p => (cfgs p).toPCfg_adm

def pdatsH : (p : Fin 5) → (c : Dev nD) → Dat τ (Elt F) Unit ℕ (UR sig nD τ) ℕ (Pipeline.pin (pcfgs (F := F)) admH p) c
  | ⟨0, _⟩ => fun c => dat0 (Vt1 m) c
  | ⟨1, _⟩ => fun c => dat1 (Vt7 m) c
  | ⟨2, _⟩ => fun c => dat2 (Vt9 m) c
  | ⟨3, _⟩ => fun c => dat3 (Vt15 m) c
  | ⟨4, _⟩ => fun c => dat4 (Vt17 m) c
abbrev 𝒱H : Variants := Variants.none

abbrev LH : GSem nD τ sig → Finset Unit := fun _ => ∅
abbrev lvH : GSem nD τ sig → Unit → ℕ := fun _ _ => 0

abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev TnH (c : Dev nD) : sProp 𝕄 := iprop(StableHlo.held (c : Thread nD τ) (Pipeline.ucRefs τ sig) (W19 m c) ∗ ∃ r, prngReg c r)

-- A kernel region as an item of the program: it takes the buffers' contents from Win to Wout and owes nothing.
set_option backward.isDefEq.respectTransparency.types false in
def regOf (p : Fin 5) (launch : Pipeline.LaunchFacts (nD := nD) (τ := τ) cfgs p) (Win Wout : Dev nD → Valuation τ sig (Elt F))
    (hbody : ∀ c, BodyObligation (pdatsH m p c) (defs₀ (F := F)) Variants.none () Set.univ)
    (howed : ∀ c t, (pdatsH m p c).owed t = 0) (hrec : ∀ c x, x ∈ (pdatsH m p c).recorded 0) (hq : ∀ c w, (pdatsH m p c).q w = fullShare)
    (hA : ∀ c w, (pdatsH m p c).A w = Win c (Pipeline.arrRef (cfgs p).spec w))
    (hΦ0 : ∀ c, (pdatsH m p c).Φ 0 = Pipeline.ΦA (cfgs p).spec c)
    (hΦN : ∀ c, (pdatsH m p c).Φ (Fin.last _) = Pipeline.ΦA (cfgs p).spec c)
    (harr : ∀ c w, Wout c (Proc.devRef .tc (Pipeline.arrRef (cfgs p).spec w)) = (pdatsH m p c).arrAt w (cfgs p).N)
    (hne : ∀ c (b : Ref sig .tc), (∀ w, Pipeline.arrRef (cfgs p).spec w ≠ b) → Wout c (Proc.devRef .tc b) = Win c (Proc.devRef .tc b)) :
    Pipeline.RegionSeg (pcfgs (F := F)) admH (pdatsH m) () defs₀ 𝒱H LH lvH p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ LH lvH p howed
  pre c := iprop(StableHlo.held (c : Thread nD τ) (Pipeline.ucRefs τ sig) (Win c) ∗ RH c)
  post c := iprop(StableHlo.held (c : Thread nD τ) (Pipeline.ucRefs τ sig) (Wout c) ∗ RH c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) admH (pdatsH m) launch.win launch.arr_whole c
      ((pdatsH m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      launch.win launch.arr_whole c (pdatsH m) ((pdatsH m p c).share_full (hq c))
      (fun b => Win c b) (fun b => Wout c b) ((pdatsH m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (W1 m) (W2 m) (body_obligation0 (Vt1 m)) (fun _ _ => rfl) (fun _ _ => trivial) (fun _ _ => rfl) (fun _ _ => rfl) (fun _ => rfl) (fun _ => rfl) (W2_arr m) (W2_of_ne m)
def reg1 := regOf m 1 launch1 (W7 m) (W8 m) (body_obligation1 (Vt7 m)) (fun _ _ => rfl) (fun _ _ => trivial) (fun _ _ => rfl) (fun _ _ => rfl) (fun _ => rfl) (fun _ => rfl) (W8_arr m) (W8_of_ne m)
def reg2 := regOf m 2 launch2 (W9 m) (W10 m) (body_obligation2 (Vt9 m)) (fun _ _ => rfl) (fun _ _ => trivial) (fun _ _ => rfl) (fun _ _ => rfl) (fun _ => rfl) (fun _ => rfl) (W10_arr m) (W10_of_ne m)
def reg3 := regOf m 3 launch3 (W15 m) (W16 m) (body_obligation3 (Vt15 m)) (fun _ _ => rfl) (fun _ _ => trivial) (fun _ _ => rfl) (fun _ _ => rfl) (fun _ => rfl) (fun _ => rfl) (W16_arr m) (W16_of_ne m)
def reg4 := regOf m 4 launch4 (W17 m) (W18 m) (body_obligation4 (Vt17 m)) (fun _ _ => rfl) (fun _ _ => trivial) (fun _ _ => rfl) (fun _ _ => rfl) (fun _ => rfl) (fun _ => rfl) (W18_arr m) (W18_of_ne m)

abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .host (hsegH hostOps1_1 hostOps1_1_sub hostOps1_1_fresh (W3 m)),
    .host (hsegH hostOps1_2 hostOps1_2_sub hostOps1_2_fresh (W4 m)),
    .host (hsegH hostOps1_3 hostOps1_3_sub hostOps1_3_fresh (W5 m)),
    .host (hsegH hostOps1_4 hostOps1_4_sub hostOps1_4_fresh (W6 m)),
    .region (reg1 m),
    .host (hsegH hostOps2 hostOps2_sub hostOps2_fresh (W8 m)),
    .region (reg2 m),
    .host (hsegH hostOps3 hostOps3_sub hostOps3_fresh (W10 m)),
    .host (hsegH hostOps3_1 hostOps3_1_sub hostOps3_1_fresh (W11 m)),
    .host (hsegH hostOps3_2 hostOps3_2_sub hostOps3_2_fresh (W12 m)),
    .host (hsegH hostOps3_3 hostOps3_3_sub hostOps3_3_fresh (W13 m)),
    .host (hsegH hostOps3_4 hostOps3_4_sub hostOps3_4_fresh (W14 m)),
    .region (reg3 m),
    .host (hsegH hostOps4 hostOps4_sub hostOps4_fresh (W16 m)),
    .region (reg4 m),
    .host (hsegH hostOps5 hostOps5_sub hostOps5_fresh (W18 m)) ]

variable (ρ : Dev nD → PrngReg)

set_option backward.isDefEq.respectTransparency.types false in
set_option maxHeartbeats 4000000 in
theorem run_all : θ_run defs (onTc (τ := τ) (main (F := F))) ⟨m, fun _ => 0, ρ⟩
    (fun r => ∀ c : Dev nD, ∀ b ∈ Pipeline.ucRefs τ sig, r.2.mem (((c : Thread nD τ)).1, b) = W19 m c b) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          Prog.lift (.customCall (Pipeline.entry 4) ()),
          StableHlo.seq hostOps5 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W19 m c) ∗ (∃ r, prngReg c r)
            ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

-- The run, with each argument array read back: it ends as launched.
theorem run_args : θ_run defs (onTc (τ := τ) (main (F := F))) ⟨m, fun _ => 0, ρ⟩
    (fun r => ∀ c : Dev nD, (∀ b ∈ Pipeline.ucRefs τ sig, r.2.mem (((c : Thread nD τ)).1, b) = W19 m c b)
      ∧ ∀ b ∈ argRefs, r.2.mem ((c.tc : Thread nD τ).loc b) = m ((c.tc : Thread nD τ).loc b)) :=
  (θ_run defs _ _).mono (fun r h c => ⟨h c, fun b hb =>
    (h c _ (mem_uc b ((by decide : ∀ b ∈ argRefs, ¬ (Proc.devRef .tc b : DevRef τ sig).isScoped) b hb))).trans (W19_arg m c b hb)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => by and_intros <;> exact (h c).2 _ (by decide)) (run_args m ρ)

end Cert.Kernel.Hand

end
-- ==== Proof.KI.Reg0.lean ====
import proofs.«119071_j16140487098675_2_alg».proof.Proof.Gen.KernelIdeal.Launch
import proofs.«119071_j16140487098675_2_alg».proof.Proof.Gen.KernelIdeal.Skeleton
import proofs.«119071_j16140487098675_2_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin grid0.N, cond0_0 (grid0.coords t) ↔ t.val = 0 := by decide +kernel

section Whole
variable {sig' : RefSig} {κ' : Kind} {sp' : Space} {s' : Shape} {e' : EltTy} {Val' : EltTy → Type}

private theorem idx_unit_whole (off : Fin s'.rank → ℕ) (h0 : ∀ a, off a = 0) (inb : ∀ a, off a + s'.size a ≤ s'.size a)
    (x : (Rect.unit (s := s') off s'.size inb).shape.Idx) :
    (Rect.unit (s := s') off s'.size inb).toLoadRect.idx x = x := by
  funext a; apply Fin.ext
  show off a + 1 * (x a).val = (x a).val
  rw [h0 a, Nat.zero_add, Nat.one_mul]

private theorem readAt_whole (v : View sig' κ' sp' s' e') (g : v.ty.Contents Val') (off : Fin s'.rank → ℕ) (h0 : ∀ a, off a = 0)
    (inb : ∀ a, off a + s'.size a ≤ s'.size a) :
    v.readAt Val' (Rect.unit (s := s') off s'.size inb).toLoadRect g = v.read Val' g :=
  funext fun x => congrArg (v.read Val' g) (idx_unit_whole off h0 inb x)

private theorem read_writes_whole (v : View sig' κ' sp' s' e') (f : v.ty.Contents Val') (off : Fin s'.rank → ℕ) (h0 : ∀ a, off a = 0)
    (inb : ∀ a, off a + s'.size a ≤ s'.size a) (w : (Rect.unit (s := s') off s'.size inb).shape.Idx → Val' e')
    (L : List (View.Piece Val' s' e')) :
    v.read Val' (v.writes Val' f (⟨Rect.unit (s := s') off s'.size inb, w⟩ :: L)) = w :=
  funext fun y =>
    (congrArg (v.read Val' (v.writes Val' f (⟨Rect.unit (s := s') off s'.size inb, w⟩ :: L)))
      (idx_unit_whole off h0 inb y).symm).trans
      (View.read_writes_cons_emb v f (Rect.unit (s := s') off s'.size inb) w L y)

private theorem off00 : ∀ a : Fin 2, (![0, 0] : Fin 2 → ℕ) a = 0 := Fin.forall_fin_two.mpr ⟨rfl, rfl⟩

end Whole

-- One point: the output block ends at the point's three column sums added to the zero block (first point) or to what it held.
theorem sound_kernel0 (c : Dev nD) (E : Set ℕ) (i : grid0.Coords)
    (arg1 : Memref sig .tc .vmem S2048x1 .f32) (harg1 : arg1.IsWhole) (arg2 : Memref sig .tc .vmem S2048x3 .f32) (harg2 : arg2.IsWhole)
    (arg3 : Memref sig .tc .vmem S2048x3 .f32) (harg3 : arg3.IsWhole) (arg4 : Memref sig .tc .vmem S2048x1 .f32) (harg4 : arg4.IsWhole)
    (arg5 : Memref sig .tc .vmem S2048x1 .f32) (harg5 : arg5.IsWhole) (arg6 : Memref sig .tc .vmem S1x3 .f32) (harg6 : arg6.IsWhole)
    (x0 : Vec F S2048x1 .f32) (x1 x2 : Vec F S2048x3 .f32) (x3 x4 : Vec F S2048x1 .f32) (xo : Vec F S1x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare
          (k0_pay1 (k0_pay3 i) (k0_pay4 x0) (k0_pay5 x3 x4) (k0_pay7 i x0 x1 x2) (k0_pay8 x0) (if cond0_0 i then k0_pay2 else xo))) -∗ K ⟨⟩))
      ⊢ wp frame (wpE (defs₀ (F := F)) Variants.none c none) E (cc0__lidar_reduce_kernel i arg1 harg1 arg2 harg2 arg3 harg3 arg4 harg4 arg5 harg5 arg6 harg6) K := by
  simp only [cc0__lidar_reduce_kernel_eq_skeleton, owns_eq_rep]; unfold cc0__lidar_reduce_kernel_skel
  by_cases hc0 : cond0_0 i <;> (first | rw [if_pos hc0] | rw [if_neg hc0]) <;>
  · iintro ⟨H0, H1, H2, H3, H4, H5, Hk⟩
    sl_exec (disch := first | exact hc0)
    sl_step
    iapply Hk
    iframe
    rw [← owns_eq_rep]; unfold owns
    iexists _; isplitr; swap; · iexact H5
    ipureintro
    sl_unfold_run_names
    rw [read_writes_whole _ _ _ off00]
    simp only [readAt_whole (s' := S2048x1) _ _ _ off00, readAt_whole (s' := S2048x3) _ _ _ off00, readAt_whole (s' := S1x3) _ _ _ off00,
      View.readCov_cons_toLoadRect, View.read_rep]

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The running sum: what the output block holds after point `n`.
def outsAt0 (c : Dev nD) : (n : ℕ) → n < cfg0.N → Vec F S1x3 .f32
  | 0, hn =>
    k0_pay1 (k0_pay3 (grid0.coords ⟨0, hn⟩)) (k0_pay4 (iblk0 V c 0 ⟨0, hn⟩))
      (k0_pay5 (iblk0 V c 3 ⟨0, hn⟩) (iblk0 V c 4 ⟨0, hn⟩))
      (k0_pay7 (grid0.coords ⟨0, hn⟩) (iblk0 V c 0 ⟨0, hn⟩) (iblk0 V c 1 ⟨0, hn⟩) (iblk0 V c 2 ⟨0, hn⟩))
      (k0_pay8 (iblk0 V c 0 ⟨0, hn⟩)) (k0_pay2 (F := F))
  | n + 1, hn =>
    k0_pay1 (k0_pay3 (grid0.coords ⟨n + 1, hn⟩)) (k0_pay4 (iblk0 V c 0 ⟨n + 1, hn⟩))
      (k0_pay5 (iblk0 V c 3 ⟨n + 1, hn⟩) (iblk0 V c 4 ⟨n + 1, hn⟩))
      (k0_pay7 (grid0.coords ⟨n + 1, hn⟩) (iblk0 V c 0 ⟨n + 1, hn⟩) (iblk0 V c 1 ⟨n + 1, hn⟩) (iblk0 V c 2 ⟨n + 1, hn⟩))
      (k0_pay8 (iblk0 V c 0 ⟨n + 1, hn⟩)) (outsAt0 c n (Nat.lt_of_succ_lt hn))

theorem outsAt0_zero (c : Dev nD) (hn : 0 < cfg0.N) :
    outsAt0 V c 0 hn =
      k0_pay1 (k0_pay3 (grid0.coords ⟨0, hn⟩)) (k0_pay4 (iblk0 V c 0 ⟨0, hn⟩))
        (k0_pay5 (iblk0 V c 3 ⟨0, hn⟩) (iblk0 V c 4 ⟨0, hn⟩))
        (k0_pay7 (grid0.coords ⟨0, hn⟩) (iblk0 V c 0 ⟨0, hn⟩) (iblk0 V c 1 ⟨0, hn⟩) (iblk0 V c 2 ⟨0, hn⟩))
        (k0_pay8 (iblk0 V c 0 ⟨0, hn⟩)) (k0_pay2 (F := F)) := rfl

theorem outsAt0_succ (c : Dev nD) (n : ℕ) (hn : n + 1 < cfg0.N) :
    outsAt0 V c (n + 1) hn =
      k0_pay1 (k0_pay3 (grid0.coords ⟨n + 1, hn⟩)) (k0_pay4 (iblk0 V c 0 ⟨n + 1, hn⟩))
        (k0_pay5 (iblk0 V c 3 ⟨n + 1, hn⟩) (iblk0 V c 4 ⟨n + 1, hn⟩))
        (k0_pay7 (grid0.coords ⟨n + 1, hn⟩) (iblk0 V c 0 ⟨n + 1, hn⟩) (iblk0 V c 1 ⟨n + 1, hn⟩) (iblk0 V c 2 ⟨n + 1, hn⟩))
        (k0_pay8 (iblk0 V c 0 ⟨n + 1, hn⟩)) (outsAt0 V c n (Nat.lt_of_succ_lt hn)) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = outsAt0 V c t.val t.isLt := rfl

theorem before0_0 (c : Dev nD) (t : Fin cfg0.N) (d) : (dat0 V c).before 0 t d = (dat0 V c).after 0 t := (dat0 V c).before_fetched 0 t (fetch0_0 t) d
theorem before0_1 (c : Dev nD) (t : Fin cfg0.N) (d) : (dat0 V c).before 1 t d = (dat0 V c).after 1 t := (dat0 V c).before_fetched 1 t (fetch0_1 t) d
theorem before0_2 (c : Dev nD) (t : Fin cfg0.N) (d) : (dat0 V c).before 2 t d = (dat0 V c).after 2 t := (dat0 V c).before_fetched 2 t (fetch0_2 t) d
theorem before0_3 (c : Dev nD) (t : Fin cfg0.N) (d) : (dat0 V c).before 3 t d = (dat0 V c).after 3 t := (dat0 V c).before_fetched 3 t (fetch0_3 t) d
theorem before0_4 (c : Dev nD) (t : Fin cfg0.N) (d) : (dat0 V c).before 4 t d = (dat0 V c).after 4 t := (dat0 V c).before_fetched 4 t (fetch0_4 t) d

theorem before0_5 (c : Dev nD) (t : Fin cfg0.N) (h0 : t.val ≠ 0) (d) :
    (dat0 V c).before 5 t d = outsAt0 V c (t.val - 1) (Nat.lt_of_le_of_lt (Nat.sub_le _ _) t.isLt) := by
  have hN : t.val < 64 := t.isLt.trans_eq N_0
  exact Dat.before_out_kept _ 5 rfl t h0 (Bool.eq_false_iff.mpr fun h => by have := (flush0_5 _).mp h; dsimp only at this; omega)
    (fun _ => rfl) (fun _ _ => rfl) d

-- One step of the running sum, over what the output block held before the point.
theorem outsAt0_step (c : Dev nD) : ∀ (t : Fin cfg0.N) (d), outsAt0 V c t.val t.isLt =
      k0_pay1 (k0_pay3 (grid0.coords t)) (k0_pay4 ((dat0 V c).after 0 t)) (k0_pay5 ((dat0 V c).after 3 t) ((dat0 V c).after 4 t))
        (k0_pay7 (grid0.coords t) ((dat0 V c).after 0 t) ((dat0 V c).after 1 t) ((dat0 V c).after 2 t)) (k0_pay8 ((dat0 V c).after 0 t))
        (if cond0_0 (grid0.coords t) then k0_pay2 else (dat0 V c).before 5 t d)
  | ⟨0, _⟩, _ => by rw [if_pos ((hcond0_0 _).mpr rfl)]; rfl
  | ⟨n + 1, hn⟩, d => by
    rw [if_neg fun h => Nat.succ_ne_zero n ((hcond0_0 _).mp h), before0_5 V c _ (Nat.succ_ne_zero n)]; rfl

theorem body_obligation0 (c : Dev nD) : BodyObligation (dat0 (F := F) V c) (defs₀ (F := F)) Variants.none () Set.univ := fun t => by
  rw [bigSep_W0, bigSep_W0]
  simp only [before0_0, before0_1, before0_2, before0_3, before0_4]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ ((dat0 V c).after 0 t) ((dat0 V c).after 1 t) ((dat0 V c).after 2 t)
    ((dat0 V c).after 3 t) ((dat0 V c).after 4 t) ((dat0 V c).before 5 t d5) _)
  iframe
  iintro ⟨H0, H1, H2, H3, H4, H5⟩
  rw [show (dat0 V c).Φ t.succ = (dat0 V c).Φ t.castSucc from rfl, show (dat0 V c).owesAt () t.succ = (dat0 V c).owesAt () t.castSucc from rfl,
    after0_5, outsAt0_step V c t d5]
  iframe

end Region0

end Cert.KernelIdeal.Hand

end
-- ==== Proof.KI.Reg1.lean ====
import proofs.«119071_j16140487098675_2_alg».proof.Proof.Gen.KernelIdeal.Launch
import proofs.«119071_j16140487098675_2_alg».proof.Proof.Gen.KernelIdeal.Skeleton
import proofs.«119071_j16140487098675_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x3 := Rect.unit (s := S512x3) ![0, 0] S512x3.size inb_S512x3_S512x3_0_0
abbrev r1_1 : Rect S2048x3 := Rect.unit (s := S2048x3) ![0, 0] S2048x3.size inb_S2048x3_S2048x3_0_0
abbrev r1_2 : Rect S512x1 := Rect.unit (s := S512x1) ![0, 0] S512x1.size inb_S512x1_S512x1_0_0

def out1_2 (x0 : Vec F S512x3 .f32) (x1 : Vec F S2048x3 .f32) : Vec F S512x1 .f32 :=
  View.canon [⟨r1_2, k1_pay1 (View.ld x0 r1_0) (View.ld x1 r1_1)⟩]

-- The nearest-neighbour kernel on whole buffers: the inputs stay, the output is left at `out1_2` of them.
theorem body_min_sqdist (c : Dev nD) {i : grid1.Coords}
    {arg1 : Memref sig .tc .vmem S512x3 .f32} {harg1 : arg1.IsWhole} {arg2 : Memref sig .tc .vmem S2048x3 .f32} {harg2 : arg2.IsWhole}
    {arg3 : Memref sig .tc .vmem S512x1 .f32} {harg3 : arg3.IsWhole} {P Q : sProp 𝕄}
    {D0 D1 D2 : Type} {b0 : D0 → Vec F S512x3 .f32} {b1 : D1 → Vec F S2048x3 .f32} {b2 : D2 → Vec F S512x1 .f32}
    {x0 : Vec F S512x3 .f32} {x1 : Vec F S2048x3 .f32} {y : Vec F S512x1 .f32}
    (h0 : ∀ d, b0 d = x0) (h1 : ∀ d, b1 d = x1) (hy : y = out1_2 x0 x1) :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)))
      ⊢ wp frame (wpE (defs₀ (F := F)) Variants.none c none) Set.univ (cc1__min_sqdist_kernel i arg1 harg1 arg2 harg2 arg3 harg3)
        fun _ => iprop(P ∗ Q ∗ owns (c : Thread nD τ) arg1 fullShare x0 ∗ owns (c : Thread nD τ) arg2 fullShare x1
          ∗ owns (c : Thread nD τ) arg3 fullShare y) := by
  subst hy
  simp only [cc1__min_sqdist_kernel_eq_skeleton, h0, h1]; unfold cc1__min_sqdist_kernel_skel owns
  iintro ⟨HP, HQ, ⟨%_, %f0, %hf0, H0⟩, ⟨%_, %f1, %hf1, H1⟩, ⟨%_, %f2, -, H2⟩⟩
  subst hf0 hf1
  sl_exec
  sl_step
  iframe HP HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S512x1.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  sl_whnfR [defs₀, Defs.onTc]
  exact body_min_sqdist c (before1_0 V c t) (before1_1 V c t) (after1_2 V c t)

end Cert.KernelIdeal.Hand
-- ==== Proof.KI.RegRR.lean ====
import proofs.«119071_j16140487098675_2_alg».proof.Proof.Gen.KernelIdeal.Launch
import proofs.«119071_j16140487098675_2_alg».proof.Proof.Gen.KernelIdeal.Skeleton
import proofs.«119071_j16140487098675_2_alg».proof.Proof.Gen.KernelIdeal.Points
import Idealize.ShloMosaic.Lib.Pipeline.FrameBody
import Idealize.ShloMosaic.Lib.Pipeline.TableIdle
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev condRR (i : grid2.Coords) : Prop := (Scalar.cmpi .ne (Scalar.extui (Scalar.cmpi .eq (BitVec.ofNat 32 (i 0).val) 0#32)) 0#32) = 1#1

theorem hcondRR : ∀ t : Fin grid2.N, condRR (grid2.coords t) ↔ t.val = 0 := by decide +kernel

-- A rectangle at offset zero of the shape's full extents places each index at itself.
private theorem full_emb {s : Shape} (off : Fin s.rank → ℕ) (h0 : ∀ a, off a = 0) (inb : ∀ a, off a + s.size a ≤ s.size a)
    (x : (Rect.unit (s := s) off s.size inb).shape.Idx) : (Rect.unit (s := s) off s.size inb).emb x = x := by
  funext a; apply Fin.ext
  show off a + 1 * (x a : ℕ) = x a
  rw [h0 a]; omega

private theorem full_readAt {s : Shape} {e : EltTy} (v : View sig .tc .vmem s e) (X : s.Idx → Elt F e)
    (off : Fin s.rank → ℕ) (h0 : ∀ a, off a = 0) (inb : ∀ a, off a + s.size a ≤ s.size a) :
    View.readAt (Elt F) v (Rect.unit (s := s) off s.size inb).toLoadRect (v.rep X) = X := by
  rw [View.readAt_rep]; funext x
  exact congrArg X (full_emb off h0 inb x)

private theorem full_read_writes {s : Shape} {e : EltTy} (v : View sig .tc .vmem s e) (f : v.ty.Contents (Elt F))
    (off : Fin s.rank → ℕ) (h0 : ∀ a, off a = 0) (inb : ∀ a, off a + s.size a ≤ s.size a)
    (w : (Rect.unit (s := s) off s.size inb).shape.Idx → Elt F e) (L : List (View.Piece (Elt F) s e)) :
    v.read (Elt F) (v.writes (Elt F) f (⟨Rect.unit (s := s) off s.size inb, w⟩ :: L)) = w := by
  funext y
  have h := View.read_writes_cons_emb (v := v) (f := f) (Rect.unit (s := s) off s.size inb) w L y
  rwa [full_emb off h0 inb y] at h

private theorem zero_off : ∀ a : Fin 2, (![0, 0] : Fin 2 → ℕ) a = 0 := by decide

-- One point: the output block ends at the point's three column sums added to the zero block (first point) or to what it held.
theorem runRR (c : Dev nD) (E : Set ℕ) (i : grid2.Coords)
    (arg1 : Memref sig .tc .vmem S2048x1 .f32) (harg1 : arg1.IsWhole) (arg2 : Memref sig .tc .vmem S2048x1 .f32) (harg2 : arg2.IsWhole)
    (arg3 : Memref sig .tc .vmem S2048x1 .f32) (harg3 : arg3.IsWhole) (arg4 : Memref sig .tc .vmem S2048x1 .f32) (harg4 : arg4.IsWhole)
    (arg5 : Memref sig .tc .vmem S2048x1 .f32) (harg5 : arg5.IsWhole) (arg6 : Memref sig .tc .vmem S1x3 .f32) (harg6 : arg6.IsWhole)
    (x0 x1 x2 x3 x4 : Vec F S2048x1 .f32) (xo : Vec F S1x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare
          (k2_pay1 (k2_pay3 i) (k2_pay4 x1) (k2_pay5 x0) (k2_pay6 x2 x3) (k2_pay7 x0 x4) (Scalar.ofBits .f32 0x3089705F#32)
            (if condRR i then k2_pay2 else xo))) -∗ K ⟨⟩))
      ⊢ wp frame (wpE (defs₀ (F := F)) Variants.none c none) E (cc2__radar_reduce_kernel i arg1 harg1 arg2 harg2 arg3 harg3 arg4 harg4 arg5 harg5 arg6 harg6) K := by
  simp only [cc2__radar_reduce_kernel_eq_skeleton, k2_part1_eq_skeleton, owns_eq_rep]; unfold cc2__radar_reduce_kernel_skel
  by_cases hc0 : condRR i <;> (first | rw [if_pos hc0] | rw [if_neg hc0]) <;>
  · iintro ⟨H0, H1, H2, H3, H4, H5, Hk⟩
    sl_exec (disch := first | exact hc0)
    sl_step
    iapply Hk
    iframe
    rw [← owns_eq_rep]; unfold owns
    iexists _; isplitr; swap; · iexact H5
    ipureintro
    sl_unfold_run_names
    rw [full_read_writes _ _ _ zero_off, full_readAt _ x0 _ zero_off, full_readAt _ x1 _ zero_off, full_readAt _ x2 _ zero_off,
      full_readAt _ x3 _ zero_off, full_readAt _ x4 _ zero_off]
    first | rw [View.readCov_cons_toLoadRect] | rw [full_readAt _ xo _ zero_off]

end Cert.KernelIdeal.Hand

end
-- ==== Proof.KI.Reg2.lean ====
import proofs.«119071_j16140487098675_2_alg».proof.Proof.KI.RegRR
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The running sum: what the output block holds after point `n`.
def outsAt2 (c : Dev nD) : (n : ℕ) → n < cfg2.N → Vec F S1x3 .f32
  | 0, hn =>
    k2_pay1 (k2_pay3 (grid2.coords ⟨0, hn⟩)) (k2_pay4 (iblk2 V c 1 ⟨0, hn⟩)) (k2_pay5 (iblk2 V c 0 ⟨0, hn⟩))
        (k2_pay6 (iblk2 V c 2 ⟨0, hn⟩) (iblk2 V c 3 ⟨0, hn⟩)) (k2_pay7 (iblk2 V c 0 ⟨0, hn⟩) (iblk2 V c 4 ⟨0, hn⟩))
        (Scalar.ofBits .f32 0x3089705F#32) k2_pay2
  | n + 1, hn =>
    k2_pay1 (k2_pay3 (grid2.coords ⟨n + 1, hn⟩)) (k2_pay4 (iblk2 V c 1 ⟨n + 1, hn⟩)) (k2_pay5 (iblk2 V c 0 ⟨n + 1, hn⟩))
        (k2_pay6 (iblk2 V c 2 ⟨n + 1, hn⟩) (iblk2 V c 3 ⟨n + 1, hn⟩)) (k2_pay7 (iblk2 V c 0 ⟨n + 1, hn⟩) (iblk2 V c 4 ⟨n + 1, hn⟩))
        (Scalar.ofBits .f32 0x3089705F#32) (outsAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = outsAt2 V c t.val t.isLt := rfl

theorem before2_0 (c : Dev nD) (t : Fin cfg2.N) (d) : (dat2 V c).before 0 t d = (dat2 V c).after 0 t := (dat2 V c).before_fetched 0 t (fetch2_0 t) d
theorem before2_1 (c : Dev nD) (t : Fin cfg2.N) (d) : (dat2 V c).before 1 t d = (dat2 V c).after 1 t := (dat2 V c).before_fetched 1 t (fetch2_1 t) d
theorem before2_2 (c : Dev nD) (t : Fin cfg2.N) (d) : (dat2 V c).before 2 t d = (dat2 V c).after 2 t := (dat2 V c).before_fetched 2 t (fetch2_2 t) d
theorem before2_3 (c : Dev nD) (t : Fin cfg2.N) (d) : (dat2 V c).before 3 t d = (dat2 V c).after 3 t := (dat2 V c).before_fetched 3 t (fetch2_3 t) d
theorem before2_4 (c : Dev nD) (t : Fin cfg2.N) (d) : (dat2 V c).before 4 t d = (dat2 V c).after 4 t := (dat2 V c).before_fetched 4 t (fetch2_4 t) d

theorem before2_5 (c : Dev nD) (t : Fin cfg2.N) (h0 : t.val ≠ 0) (d) :
    (dat2 V c).before 5 t d = outsAt2 V c (t.val - 1) (Nat.lt_of_le_of_lt (Nat.sub_le _ _) t.isLt) := by
  have hN : t.val < 16 := t.isLt.trans_eq N_2
  exact Dat.before_out_kept _ 5 rfl t h0 (Bool.eq_false_iff.mpr fun h => by have := (flush2_5 _).mp h; dsimp only at this; omega)
    (fun _ => rfl) (fun _ _ => rfl) d

-- One step of the running sum, over what the output block held before the point.
theorem outsAt2_step (c : Dev nD) : ∀ (t : Fin cfg2.N) (d), outsAt2 V c t.val t.isLt =
      k2_pay1 (k2_pay3 (grid2.coords t)) (k2_pay4 ((dat2 V c).after 1 t)) (k2_pay5 ((dat2 V c).after 0 t))
        (k2_pay6 ((dat2 V c).after 2 t) ((dat2 V c).after 3 t)) (k2_pay7 ((dat2 V c).after 0 t) ((dat2 V c).after 4 t))
        (Scalar.ofBits .f32 0x3089705F#32) (if condRR (grid2.coords t) then k2_pay2 else (dat2 V c).before 5 t d)
  | ⟨0, _⟩, _ => by rw [if_pos ((hcondRR _).mpr rfl)]; rfl
  | ⟨n + 1, hn⟩, d => by
    rw [if_neg fun h => Nat.succ_ne_zero n ((hcondRR _).mp h), before2_5 V c _ (Nat.succ_ne_zero n)]; rfl

theorem body_obligation2 (c : Dev nD) : BodyObligation (dat2 (F := F) V c) (defs₀ (F := F)) Variants.none () Set.univ := fun t => by
  rw [bigSep_W2, bigSep_W2]
  simp only [before2_0, before2_1, before2_2, before2_3, before2_4]
  iintro ⟨HΦ, Ho, ⟨%d0, H0⟩, ⟨%d1, H1⟩, ⟨%d2, H2⟩, ⟨%d3, H3⟩, ⟨%d4, H4⟩, ⟨%d5, H5⟩⟩
  iapply (runRR c Set.univ (grid2.coords t) _ (stage_whole2 0 _) _ (stage_whole2 1 _) _ (stage_whole2 2 _) _ (stage_whole2 3 _)
    _ (stage_whole2 4 _) _ (stage_whole2 5 _) ((dat2 V c).after 0 t) ((dat2 V c).after 1 t) ((dat2 V c).after 2 t) ((dat2 V c).after 3 t) ((dat2 V c).after 4 t) ((dat2 V c).before 5 t d5) _)
  iframe
  iintro ⟨H0, H1, H2, H3, H4, H5⟩
  rw [show (dat2 V c).Φ t.succ = (dat2 V c).Φ t.castSucc from rfl, show (dat2 V c).owesAt () t.succ = (dat2 V c).owesAt () t.castSucc from rfl,
    after2_5, outsAt2_step V c t d5]
  iframe

end Region2

end Cert.KernelIdeal.Hand

end
-- ==== Proof.KI.Reg3.lean ====
import proofs.«119071_j16140487098675_2_alg».proof.Proof.KI.Reg1

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S512x3 .f32) (x1 : Vec F S2048x3 .f32) : Vec F S512x1 .f32 :=
  View.canon [⟨r1_2, k3_pay1 (View.ld x0 r1_0) (View.ld x1 r1_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- Regions 1 and 3 run one kernel function on different arrays.
theorem cc3_eq : cc3__min_sqdist_kernel (F := F) = cc1__min_sqdist_kernel := rfl

theorem body_obligation3 (c : Dev nD) : BodyObligation (dat3 (F := F) V c) (defs₀ (F := F)) Variants.none () Set.univ := fun t => by
  rw [bigSep_W3, bigSep_W3]
  sl_whnfR [defs₀, Defs.onTc]
  rw [cc3_eq]
  exact body_min_sqdist c (before3_0 V c t) (before3_1 V c t) (after3_2 V c t)

end Cert.KernelIdeal.Hand
-- ==== Proof.KI.Reg4.lean ====
import proofs.«119071_j16140487098675_2_alg».proof.Proof.KI.RegRR
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- The running sum: what the output block holds after point `n`.
def outsAt4 (c : Dev nD) : (n : ℕ) → n < cfg4.N → Vec F S1x3 .f32
  | 0, hn =>
    k4_pay1 (k4_pay3 (grid4.coords ⟨0, hn⟩)) (k4_pay4 (iblk4 V c 1 ⟨0, hn⟩)) (k4_pay5 (iblk4 V c 0 ⟨0, hn⟩))
        (k4_pay6 (iblk4 V c 2 ⟨0, hn⟩) (iblk4 V c 3 ⟨0, hn⟩)) (k4_pay7 (iblk4 V c 0 ⟨0, hn⟩) (iblk4 V c 4 ⟨0, hn⟩))
        (Scalar.ofBits .f32 0x3089705F#32) k4_pay2
  | n + 1, hn =>
    k4_pay1 (k4_pay3 (grid4.coords ⟨n + 1, hn⟩)) (k4_pay4 (iblk4 V c 1 ⟨n + 1, hn⟩)) (k4_pay5 (iblk4 V c 0 ⟨n + 1, hn⟩))
        (k4_pay6 (iblk4 V c 2 ⟨n + 1, hn⟩) (iblk4 V c 3 ⟨n + 1, hn⟩)) (k4_pay7 (iblk4 V c 0 ⟨n + 1, hn⟩) (iblk4 V c 4 ⟨n + 1, hn⟩))
        (Scalar.ofBits .f32 0x3089705F#32) (outsAt4 c n (Nat.lt_of_succ_lt hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => outsAt4 V c t.val t.isLt
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = outsAt4 V c t.val t.isLt := rfl

theorem before4_0 (c : Dev nD) (t : Fin cfg4.N) (d) : (dat4 V c).before 0 t d = (dat4 V c).after 0 t := (dat4 V c).before_fetched 0 t (fetch4_0 t) d
theorem before4_1 (c : Dev nD) (t : Fin cfg4.N) (d) : (dat4 V c).before 1 t d = (dat4 V c).after 1 t := (dat4 V c).before_fetched 1 t (fetch4_1 t) d
theorem before4_2 (c : Dev nD) (t : Fin cfg4.N) (d) : (dat4 V c).before 2 t d = (dat4 V c).after 2 t := (dat4 V c).before_fetched 2 t (fetch4_2 t) d
theorem before4_3 (c : Dev nD) (t : Fin cfg4.N) (d) : (dat4 V c).before 3 t d = (dat4 V c).after 3 t := (dat4 V c).before_fetched 3 t (fetch4_3 t) d
theorem before4_4 (c : Dev nD) (t : Fin cfg4.N) (d) : (dat4 V c).before 4 t d = (dat4 V c).after 4 t := (dat4 V c).before_fetched 4 t (fetch4_4 t) d

theorem before4_5 (c : Dev nD) (t : Fin cfg4.N) (h0 : t.val ≠ 0) (d) :
    (dat4 V c).before 5 t d = outsAt4 V c (t.val - 1) (Nat.lt_of_le_of_lt (Nat.sub_le _ _) t.isLt) := by
  have hN : t.val < 16 := t.isLt.trans_eq N_4
  exact Dat.before_out_kept _ 5 rfl t h0 (Bool.eq_false_iff.mpr fun h => by have := (flush4_5 _).mp h; dsimp only at this; omega)
    (fun _ => rfl) (fun _ _ => rfl) d

-- One step of the running sum, over what the output block held before the point.
theorem outsAt4_step (c : Dev nD) : ∀ (t : Fin cfg4.N) (d), outsAt4 V c t.val t.isLt =
      k2_pay1 (k2_pay3 (grid4.coords t)) (k2_pay4 ((dat4 V c).after 1 t)) (k2_pay5 ((dat4 V c).after 0 t))
        (k2_pay6 ((dat4 V c).after 2 t) ((dat4 V c).after 3 t)) (k2_pay7 ((dat4 V c).after 0 t) ((dat4 V c).after 4 t))
        (Scalar.ofBits .f32 0x3089705F#32) (if condRR (grid4.coords t) then k2_pay2 else (dat4 V c).before 5 t d)
  | ⟨0, _⟩, _ => by rw [if_pos ((hcondRR _).mpr rfl)]; rfl
  | ⟨n + 1, hn⟩, d => by
    rw [if_neg fun h => Nat.succ_ne_zero n ((hcondRR _).mp h), before4_5 V c _ (Nat.succ_ne_zero n)]; rfl

theorem body_obligation4 (c : Dev nD) : BodyObligation (dat4 (F := F) V c) (defs₀ (F := F)) Variants.none () Set.univ := fun t => by
  rw [bigSep_W4, bigSep_W4]
  simp only [before4_0, before4_1, before4_2, before4_3, before4_4]
  iintro ⟨HΦ, Ho, ⟨%d0, H0⟩, ⟨%d1, H1⟩, ⟨%d2, H2⟩, ⟨%d3, H3⟩, ⟨%d4, H4⟩, ⟨%d5, H5⟩⟩
  iapply (runRR c Set.univ (grid4.coords t) _ (stage_whole4 0 _) _ (stage_whole4 1 _) _ (stage_whole4 2 _) _ (stage_whole4 3 _)
    _ (stage_whole4 4 _) _ (stage_whole4 5 _) ((dat4 V c).after 0 t) ((dat4 V c).after 1 t) ((dat4 V c).after 2 t) ((dat4 V c).after 3 t) ((dat4 V c).after 4 t) ((dat4 V c).before 5 t d5) _)
  iframe
  iintro ⟨H0, H1, H2, H3, H4, H5⟩
  rw [show (dat4 V c).Φ t.succ = (dat4 V c).Φ t.castSucc from rfl, show (dat4 V c).owesAt () t.succ = (dat4 V c).owesAt () t.castSucc from rfl,
    after4_5, outsAt4_step V c t d5]
  iframe

end Region4

end Cert.KernelIdeal.Hand

end
-- ==== Proof.KI.Run.lean ====
import proofs.«119071_j16140487098675_2_alg».proof.Proof.KI.Reg0
import proofs.«119071_j16140487098675_2_alg».proof.Proof.KI.Reg1
import proofs.«119071_j16140487098675_2_alg».proof.Proof.KI.Reg2
import proofs.«119071_j16140487098675_2_alg».proof.Proof.KI.Reg3
import proofs.«119071_j16140487098675_2_alg».proof.Proof.KI.Reg4
import proofs.«119071_j16140487098675_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev Vt1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 : Dev nD → Valuation τ sig (Elt F) := fun c => StableHlo.after hostOps1 (W2 m c)

abbrev W4 : Dev nD → Valuation τ sig (Elt F) := fun c => StableHlo.after hostOps1_1 (W3 m c)

abbrev W5 : Dev nD → Valuation τ sig (Elt F) := fun c => StableHlo.after hostOps1_2 (W4 m c)

abbrev W6 : Dev nD → Valuation τ sig (Elt F) := fun c => StableHlo.after hostOps1_3 (W5 m c)

abbrev W7 : Dev nD → Valuation τ sig (Elt F) := fun c => StableHlo.after hostOps1_4 (W6 m c)
abbrev Vt7 : (c : Dev nD) → (b : Ref sig .tc) → Buf (Elt F) ((c : Thread nD τ).loc b) := fun c b => W7 m c b

def W8 (c : Dev nD) : Valuation τ sig (Elt F) :=
  Pipeline.withArrays spec1 c (W7 m c) fun w => (dat1 (Vt7 m) c).arrAt w cfg1.N
theorem W8_arr (c : Dev nD) (w : Fin cfg1.W) :
    W8 m c (Proc.devRef .tc (Pipeline.arrRef spec1 w)) = (dat1 (Vt7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

abbrev W9 : Dev nD → Valuation τ sig (Elt F) := fun c => StableHlo.after hostOps2 (W8 m c)
abbrev Vt9 : (c : Dev nD) → (b : Ref sig .tc) → Buf (Elt F) ((c : Thread nD τ).loc b) := fun c b => W9 m c b

def W10 (c : Dev nD) : Valuation τ sig (Elt F) :=
  Pipeline.withArrays spec2 c (W9 m c) fun w => (dat2 (Vt9 m) c).arrAt w cfg2.N
theorem W10_arr (c : Dev nD) (w : Fin cfg2.W) :
    W10 m c (Proc.devRef .tc (Pipeline.arrRef spec2 w)) = (dat2 (Vt9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb

abbrev W11 : Dev nD → Valuation τ sig (Elt F) := fun c => StableHlo.after hostOps3 (W10 m c)

abbrev W12 : Dev nD → Valuation τ sig (Elt F) := fun c => StableHlo.after hostOps3_1 (W11 m c)

abbrev W13 : Dev nD → Valuation τ sig (Elt F) := fun c => StableHlo.after hostOps3_2 (W12 m c)

abbrev W14 : Dev nD → Valuation τ sig (Elt F) := fun c => StableHlo.after hostOps3_3 (W13 m c)

abbrev W15 : Dev nD → Valuation τ sig (Elt F) := fun c => StableHlo.after hostOps3_4 (W14 m c)
abbrev Vt15 : (c : Dev nD) → (b : Ref sig .tc) → Buf (Elt F) ((c : Thread nD τ).loc b) := fun c b => W15 m c b

def W16 (c : Dev nD) : Valuation τ sig (Elt F) :=
  Pipeline.withArrays spec3 c (W15 m c) fun w => (dat3 (Vt15 m) c).arrAt w cfg3.N
theorem W16_arr (c : Dev nD) (w : Fin cfg3.W) :
    W16 m c (Proc.devRef .tc (Pipeline.arrRef spec3 w)) = (dat3 (Vt15 m) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m c (Proc.devRef .tc b) = W15 m c (Proc.devRef .tc b) := by
  unfold W16; exact Pipeline.withArrays_of_ne spec3 c _ _ b hb

abbrev W17 : Dev nD → Valuation τ sig (Elt F) := fun c => StableHlo.after hostOps4 (W16 m c)
abbrev Vt17 : (c : Dev nD) → (b : Ref sig .tc) → Buf (Elt F) ((c : Thread nD τ).loc b) := fun c b => W17 m c b

def W18 (c : Dev nD) : Valuation τ sig (Elt F) :=
  Pipeline.withArrays spec4 c (W17 m c) fun w => (dat4 (Vt17 m) c).arrAt w cfg4.N
theorem W18_arr (c : Dev nD) (w : Fin cfg4.W) :
    W18 m c (Proc.devRef .tc (Pipeline.arrRef spec4 w)) = (dat4 (Vt17 m) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m c (Proc.devRef .tc b) = W17 m c (Proc.devRef .tc b) := by
  unfold W18; exact Pipeline.withArrays_of_ne spec4 c _ _ b hb

abbrev W19 : Dev nD → Valuation τ sig (Elt F) := fun c => StableHlo.after hostOps5 (W18 m c)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

-- A region only reads an argument array, so the array keeps its contents across the region.
theorem W2_arg (c : Dev nD) (r : Ref sig .tc) (hr : r ∈ argRefs) : W2 m c (Proc.devRef .tc r) = W1 m c (Proc.devRef .tc r) := by
  by_cases h : ∀ w, Pipeline.arrRef spec0 w ≠ r
  · exact W2_of_ne m c r h
  · obtain ⟨w, rfl⟩ := not_forall_not.mp h
    exact (W2_arr m c w).trans (((dat0 (Vt1 m) c).arrAt_in w
      ((by decide : ∀ w : Fin cfg0.W, Pipeline.arrRef spec0 w ∈ argRefs → (cfg0.win w).isOut = false) w hr) _).trans (A_eq0 (Vt1 m) c w))
theorem W8_arg (c : Dev nD) (r : Ref sig .tc) (hr : r ∈ argRefs) : W8 m c (Proc.devRef .tc r) = W7 m c (Proc.devRef .tc r) := by
  by_cases h : ∀ w, Pipeline.arrRef spec1 w ≠ r
  · exact W8_of_ne m c r h
  · obtain ⟨w, rfl⟩ := not_forall_not.mp h
    exact (W8_arr m c w).trans (((dat1 (Vt7 m) c).arrAt_in w
      ((by decide : ∀ w : Fin cfg1.W, Pipeline.arrRef spec1 w ∈ argRefs → (cfg1.win w).isOut = false) w hr) _).trans (A_eq1 (Vt7 m) c w))
theorem W10_arg (c : Dev nD) (r : Ref sig .tc) (hr : r ∈ argRefs) : W10 m c (Proc.devRef .tc r) = W9 m c (Proc.devRef .tc r) := by
  by_cases h : ∀ w, Pipeline.arrRef spec2 w ≠ r
  · exact W10_of_ne m c r h
  · obtain ⟨w, rfl⟩ := not_forall_not.mp h
    exact (W10_arr m c w).trans (((dat2 (Vt9 m) c).arrAt_in w
      ((by decide : ∀ w : Fin cfg2.W, Pipeline.arrRef spec2 w ∈ argRefs → (cfg2.win w).isOut = false) w hr) _).trans (A_eq2 (Vt9 m) c w))
theorem W16_arg (c : Dev nD) (r : Ref sig .tc) (hr : r ∈ argRefs) : W16 m c (Proc.devRef .tc r) = W15 m c (Proc.devRef .tc r) := by
  by_cases h : ∀ w, Pipeline.arrRef spec3 w ≠ r
  · exact W16_of_ne m c r h
  · obtain ⟨w, rfl⟩ := not_forall_not.mp h
    exact (W16_arr m c w).trans (((dat3 (Vt15 m) c).arrAt_in w
      ((by decide : ∀ w : Fin cfg3.W, Pipeline.arrRef spec3 w ∈ argRefs → (cfg3.win w).isOut = false) w hr) _).trans (A_eq3 (Vt15 m) c w))
theorem W18_arg (c : Dev nD) (r : Ref sig .tc) (hr : r ∈ argRefs) : W18 m c (Proc.devRef .tc r) = W17 m c (Proc.devRef .tc r) := by
  by_cases h : ∀ w, Pipeline.arrRef spec4 w ≠ r
  · exact W18_of_ne m c r h
  · obtain ⟨w, rfl⟩ := not_forall_not.mp h
    exact (W18_arr m c w).trans (((dat4 (Vt17 m) c).arrAt_in w
      ((by decide : ∀ w : Fin cfg4.W, Pipeline.arrRef spec4 w ∈ argRefs → (cfg4.win w).isOut = false) w hr) _).trans (A_eq4 (Vt17 m) c w))

-- No host stretch writes an argument array and every region only reads it, so it ends as launched.
theorem W19_arg (c : Dev nD) (r : Ref sig .tc) (hr : r ∈ argRefs) : W19 m c (Proc.devRef .tc r) = m (c, Proc.devRef .tc r) := by
  obtain ⟨h0, h1, h2, h3, h4, h5, h6, h7, h8, h9, h10, h11, h12, h13⟩ :=
    (by decide : ∀ r ∈ argRefs, r ∉ hostOps0_W ∧ r ∉ hostOps1_W ∧ r ∉ hostOps1_1_W ∧ r ∉ hostOps1_2_W ∧ r ∉ hostOps1_3_W ∧ r ∉ hostOps1_4_W ∧ r ∉ hostOps2_W ∧ r ∉ hostOps3_W ∧ r ∉ hostOps3_1_W ∧ r ∉ hostOps3_2_W ∧ r ∉ hostOps3_3_W ∧ r ∉ hostOps3_4_W ∧ r ∉ hostOps4_W ∧ r ∉ hostOps5_W) r hr
  calc W19 m c (Proc.devRef .tc r)
    _ = W18 m c (Proc.devRef .tc r) := StableHlo.after_of_writes_sub hostOps5 _ hostOps5_writes h13
    _ = W17 m c (Proc.devRef .tc r) := W18_arg m c r hr
    _ = W16 m c (Proc.devRef .tc r) := StableHlo.after_of_writes_sub hostOps4 _ hostOps4_writes h12
    _ = W15 m c (Proc.devRef .tc r) := W16_arg m c r hr
    _ = W14 m c (Proc.devRef .tc r) := StableHlo.after_of_writes_sub hostOps3_4 _ hostOps3_4_writes h11
    _ = W13 m c (Proc.devRef .tc r) := StableHlo.after_of_writes_sub hostOps3_3 _ hostOps3_3_writes h10
    _ = W12 m c (Proc.devRef .tc r) := StableHlo.after_of_writes_sub hostOps3_2 _ hostOps3_2_writes h9
    _ = W11 m c (Proc.devRef .tc r) := StableHlo.after_of_writes_sub hostOps3_1 _ hostOps3_1_writes h8
    _ = W10 m c (Proc.devRef .tc r) := StableHlo.after_of_writes_sub hostOps3 _ hostOps3_writes h7
    _ = W9 m c (Proc.devRef .tc r) := W10_arg m c r hr
    _ = W8 m c (Proc.devRef .tc r) := StableHlo.after_of_writes_sub hostOps2 _ hostOps2_writes h6
    _ = W7 m c (Proc.devRef .tc r) := W8_arg m c r hr
    _ = W6 m c (Proc.devRef .tc r) := StableHlo.after_of_writes_sub hostOps1_4 _ hostOps1_4_writes h5
    _ = W5 m c (Proc.devRef .tc r) := StableHlo.after_of_writes_sub hostOps1_3 _ hostOps1_3_writes h4
    _ = W4 m c (Proc.devRef .tc r) := StableHlo.after_of_writes_sub hostOps1_2 _ hostOps1_2_writes h3
    _ = W3 m c (Proc.devRef .tc r) := StableHlo.after_of_writes_sub hostOps1_1 _ hostOps1_1_writes h2
    _ = W2 m c (Proc.devRef .tc r) := StableHlo.after_of_writes_sub hostOps1 _ hostOps1_writes h1
    _ = W1 m c (Proc.devRef .tc r) := W2_arg m c r hr
    _ = W0 m c (Proc.devRef .tc r) := StableHlo.after_of_writes_sub hostOps0 _ hostOps0_writes h0
    _ = m (c, Proc.devRef .tc r) := rfl

abbrev admH : (p : Fin 5) → (pcfgs (F := F) p).Adm := fun p => (cfgs p).toPCfg_adm

def pdatsH : (p : Fin 5) → (c : Dev nD) → Dat τ (Elt F) Unit ℕ (UR sig nD τ) ℕ (Pipeline.pin (pcfgs (F := F)) admH p) c
  | ⟨0, _⟩ => fun c => dat0 (Vt1 m) c
  | ⟨1, _⟩ => fun c => dat1 (Vt7 m) c
  | ⟨2, _⟩ => fun c => dat2 (Vt9 m) c
  | ⟨3, _⟩ => fun c => dat3 (Vt15 m) c
  | ⟨4, _⟩ => fun c => dat4 (Vt17 m) c
abbrev 𝒱H : Variants := Variants.none

abbrev LH : GSem nD τ sig → Finset Unit := fun _ => ∅
abbrev lvH : GSem nD τ sig → Unit → ℕ := fun _ _ => 0

abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev TnH (c : Dev nD) : sProp 𝕄 := iprop(StableHlo.held (c : Thread nD τ) (Pipeline.ucRefs τ sig) (W19 m c) ∗ ∃ r, prngReg c r)

-- A kernel region as an item of the program: it takes the buffers' contents from Win to Wout and owes nothing.
set_option backward.isDefEq.respectTransparency.types false in
def regOf (p : Fin 5) (launch : Pipeline.LaunchFacts (nD := nD) (τ := τ) cfgs p) (Win Wout : Dev nD → Valuation τ sig (Elt F))
    (hbody : ∀ c, BodyObligation (pdatsH m p c) (defs₀ (F := F)) Variants.none () Set.univ)
    (howed : ∀ c t, (pdatsH m p c).owed t = 0) (hrec : ∀ c x, x ∈ (pdatsH m p c).recorded 0) (hq : ∀ c w, (pdatsH m p c).q w = fullShare)
    (hA : ∀ c w, (pdatsH m p c).A w = Win c (Pipeline.arrRef (cfgs p).spec w))
    (hΦ0 : ∀ c, (pdatsH m p c).Φ 0 = Pipeline.ΦA (cfgs p).spec c)
    (hΦN : ∀ c, (pdatsH m p c).Φ (Fin.last _) = Pipeline.ΦA (cfgs p).spec c)
    (harr : ∀ c w, Wout c (Proc.devRef .tc (Pipeline.arrRef (cfgs p).spec w)) = (pdatsH m p c).arrAt w (cfgs p).N)
    (hne : ∀ c (b : Ref sig .tc), (∀ w, Pipeline.arrRef (cfgs p).spec w ≠ b) → Wout c (Proc.devRef .tc b) = Win c (Proc.devRef .tc b)) :
    Pipeline.RegionSeg (pcfgs (F := F)) admH (pdatsH m) () defs₀ 𝒱H LH lvH p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ LH lvH p howed
  pre c := iprop(StableHlo.held (c : Thread nD τ) (Pipeline.ucRefs τ sig) (Win c) ∗ RH c)
  post c := iprop(StableHlo.held (c : Thread nD τ) (Pipeline.ucRefs τ sig) (Wout c) ∗ RH c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) admH (pdatsH m) launch.win launch.arr_whole c
      ((pdatsH m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      launch.win launch.arr_whole c (pdatsH m) ((pdatsH m p c).share_full (hq c))
      (fun b => Win c b) (fun b => Wout c b) ((pdatsH m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (W1 m) (W2 m) (body_obligation0 (Vt1 m)) (fun _ _ => rfl) (fun _ _ => trivial) (fun _ _ => rfl) (fun _ _ => rfl) (fun _ => rfl) (fun _ => rfl) (W2_arr m) (W2_of_ne m)
def reg1 := regOf m 1 launch1 (W7 m) (W8 m) (body_obligation1 (Vt7 m)) (fun _ _ => rfl) (fun _ _ => trivial) (fun _ _ => rfl) (fun _ _ => rfl) (fun _ => rfl) (fun _ => rfl) (W8_arr m) (W8_of_ne m)
def reg2 := regOf m 2 launch2 (W9 m) (W10 m) (body_obligation2 (Vt9 m)) (fun _ _ => rfl) (fun _ _ => trivial) (fun _ _ => rfl) (fun _ _ => rfl) (fun _ => rfl) (fun _ => rfl) (W10_arr m) (W10_of_ne m)
def reg3 := regOf m 3 launch3 (W15 m) (W16 m) (body_obligation3 (Vt15 m)) (fun _ _ => rfl) (fun _ _ => trivial) (fun _ _ => rfl) (fun _ _ => rfl) (fun _ => rfl) (fun _ => rfl) (W16_arr m) (W16_of_ne m)
def reg4 := regOf m 4 launch4 (W17 m) (W18 m) (body_obligation4 (Vt17 m)) (fun _ _ => rfl) (fun _ _ => trivial) (fun _ _ => rfl) (fun _ _ => rfl) (fun _ => rfl) (fun _ => rfl) (W18_arr m) (W18_of_ne m)

abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .host (hsegH hostOps1_1 hostOps1_1_sub hostOps1_1_fresh (W3 m)),
    .host (hsegH hostOps1_2 hostOps1_2_sub hostOps1_2_fresh (W4 m)),
    .host (hsegH hostOps1_3 hostOps1_3_sub hostOps1_3_fresh (W5 m)),
    .host (hsegH hostOps1_4 hostOps1_4_sub hostOps1_4_fresh (W6 m)),
    .region (reg1 m),
    .host (hsegH hostOps2 hostOps2_sub hostOps2_fresh (W8 m)),
    .region (reg2 m),
    .host (hsegH hostOps3 hostOps3_sub hostOps3_fresh (W10 m)),
    .host (hsegH hostOps3_1 hostOps3_1_sub hostOps3_1_fresh (W11 m)),
    .host (hsegH hostOps3_2 hostOps3_2_sub hostOps3_2_fresh (W12 m)),
    .host (hsegH hostOps3_3 hostOps3_3_sub hostOps3_3_fresh (W13 m)),
    .host (hsegH hostOps3_4 hostOps3_4_sub hostOps3_4_fresh (W14 m)),
    .region (reg3 m),
    .host (hsegH hostOps4 hostOps4_sub hostOps4_fresh (W16 m)),
    .region (reg4 m),
    .host (hsegH hostOps5 hostOps5_sub hostOps5_fresh (W18 m)) ]

variable (ρ : Dev nD → PrngReg)

set_option backward.isDefEq.respectTransparency.types false in
set_option maxHeartbeats 4000000 in
theorem run_all : θ_run defs (onTc (τ := τ) (main (F := F))) ⟨m, fun _ => 0, ρ⟩
    (fun r => ∀ c : Dev nD, ∀ b ∈ Pipeline.ucRefs τ sig, r.2.mem (((c : Thread nD τ)).1, b) = W19 m c b) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          Prog.lift (.customCall (Pipeline.entry 4) ()),
          StableHlo.seq hostOps5 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W19 m c) ∗ (∃ r, prngReg c r)
            ∗ ∃ W, owes (c : Thread nD τ) (0 : CellTallies nD τ sig Unit) W) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

-- The run, with each argument array read back: it ends as launched.
theorem run_args : θ_run defs (onTc (τ := τ) (main (F := F))) ⟨m, fun _ => 0, ρ⟩
    (fun r => ∀ c : Dev nD, (∀ b ∈ Pipeline.ucRefs τ sig, r.2.mem (((c : Thread nD τ)).1, b) = W19 m c b)
      ∧ ∀ b ∈ argRefs, r.2.mem ((c.tc : Thread nD τ).loc b) = m ((c.tc : Thread nD τ).loc b)) :=
  (θ_run defs _ _).mono (fun r h c => ⟨h c, fun b hb =>
    (h c _ (mem_uc b ((by decide : ∀ b ∈ argRefs, ¬ (Proc.devRef .tc b : DevRef τ sig).isScoped) b hb))).trans (W19_arg m c b hb)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => by and_intros <;> exact (h c).2 _ (by decide)) (run_args m ρ)

end Cert.KernelIdeal.Hand

end
-- ==== Proof.RefRun.lean ====
import proofs.«119071_j16140487098675_2_alg».proof.Proof.RefOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- No operation allocates a buffer: block by block, each builder's `fresh` is empty by definition. -/
theorem ops_fresh : ∀ op ∈ (ops : List (HloOp τ sig (Elt F))), op.fresh = ∅ := by
  simp only [ops, List.forall_mem_append]
  repeat' apply And.intro
  all_goals repeat (first | refine List.forall_mem_cons.mpr ⟨rfl, ?_⟩ | exact fun _ h => nomatch h)

theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.ValueP

end
-- ==== Proof.Split.lean ====
import proofs.«119071_j16140487098675_2_alg».proof.Proof.Gen.KernelIdeal.Launch

noncomputable section

namespace Cert.KernelIdeal.Hand

open Cert.KernelIdeal Cert.KernelIdeal.Gen Idealize.ShloMosaic

variable {F : FTy → Type} [FloatOps F]

abbrev hostOps1a : List (HloOp τ sig (Elt F)) := (hostOps1 (F := F)).take 21
abbrev hostOps1b : List (HloOp τ sig (Elt F)) := (hostOps1 (F := F)).drop 21
theorem hostOps1_split : (hostOps1 : List (HloOp τ sig (Elt F))) = hostOps1a ++ hostOps1b := (List.take_append_drop 21 _).symm

abbrev hostOps2a : List (HloOp τ sig (Elt F)) := (hostOps2 (F := F)).take 33
abbrev hostOps2b : List (HloOp τ sig (Elt F)) := (hostOps2 (F := F)).drop 33
theorem hostOps2_split : (hostOps2 : List (HloOp τ sig (Elt F))) = hostOps2a ++ hostOps2b := (List.take_append_drop 33 _).symm

abbrev hostOps3a : List (HloOp τ sig (Elt F)) := (hostOps3 (F := F)).take 21
abbrev hostOps3b : List (HloOp τ sig (Elt F)) := (hostOps3 (F := F)).drop 21
theorem hostOps3_split : (hostOps3 : List (HloOp τ sig (Elt F))) = hostOps3a ++ hostOps3b := (List.take_append_drop 21 _).symm

abbrev hostOps4a : List (HloOp τ sig (Elt F)) := (hostOps4 (F := F)).take 33
abbrev hostOps4b : List (HloOp τ sig (Elt F)) := (hostOps4 (F := F)).drop 33
theorem hostOps4_split : (hostOps4 : List (HloOp τ sig (Elt F))) = hostOps4a ++ hostOps4b := (List.take_append_drop 33 _).symm

abbrev hostOps5a : List (HloOp τ sig (Elt F)) := (hostOps5 (F := F)).take 21
abbrev hostOps5b : List (HloOp τ sig (Elt F)) := (hostOps5 (F := F)).drop 21
theorem hostOps5_split : (hostOps5 : List (HloOp τ sig (Elt F))) = hostOps5a ++ hostOps5b := (List.take_append_drop 21 _).symm

end Cert.KernelIdeal.Hand

end
-- ==== Proof.RefWrites.lean ====
import proofs.«119071_j16140487098675_2_alg».proof.Proof.RefOps
import Idealize.ShloMosaic.Lib.Pipeline.Frame

noncomputable section

namespace Cert.Hand.Bridge

open Idealize.ShloMosaic Idealize.ShloMosaic.TcCoe Idealize.ShloMosaic.StableHlo

section Lists

variable {α β γ : Type} [DecidableEq α] [DecidableEq β]

/-- No image under `f` of an element of `L` is in the list `W`: the Boolean test, read back. -/
theorem image_not_mem (f : γ → α) {L : List γ} {W : List α} (h : (L.all fun a => !(W.contains (f a))) = true) :
    ∀ a ∈ L, f a ∉ W := fun a ha hm => by
  have h1 := List.all_eq_true.mp h a ha
  rw [List.contains_iff_mem.mpr hm] at h1
  exact Bool.false_ne_true h1

theorem fst_not_mem {P : List (α × β)} {W : List α} (h : (P.all fun p => !(W.contains p.1)) = true) : ∀ p ∈ P, p.1 ∉ W :=
  image_not_mem Prod.fst h

theorem snd_not_mem {P : List (α × β)} {W : List β} (h : (P.all fun p => !(W.contains p.2)) = true) : ∀ p ∈ P, p.2 ∉ W :=
  image_not_mem Prod.snd h

theorem fst_ne {P : List (α × β)} {o : α} (h : o ∉ P.map Prod.fst) : ∀ p ∈ P, p.1 ≠ o :=
  fun p hp e => h (e ▸ List.mem_map_of_mem hp)

end Lists

section Writes

variable {τ : Topo} {sig : RefSig} {Val : EltTy → Type}

/-- `W` names every buffer the operations write. -/
def WritesIn (ops : List (HloOp τ sig Val)) (W : List (Ref sig .tc)) : Prop :=
  ∀ op ∈ ops, op.writes ⊆ (W.map (Proc.devRef (τ := τ) .tc)).toFinset

variable {ops l₁ l₂ : List (HloOp τ sig Val)} {W W₁ W₂ : List (Ref sig .tc)}

theorem WritesIn.of_forall (h : ops.Forall fun op => op.writes ⊆ (W.map (Proc.devRef (τ := τ) .tc)).toFinset) : WritesIn ops W :=
  List.forall_iff_forall_mem.mp h

theorem WritesIn.take (h : WritesIn ops W) (n : Nat) : WritesIn (ops.take n) W := fun op hop => h op (List.mem_of_mem_take hop)

theorem WritesIn.append (h₁ : WritesIn l₁ W₁) (h₂ : WritesIn l₂ W₂) : WritesIn (l₁ ++ l₂) (W₁ ++ W₂) := fun op hop x hx => by
  rw [List.mem_toFinset, List.map_append, List.mem_append]
  rcases List.mem_append.mp hop with h | h
  · exact Or.inl (List.mem_toFinset.mp (h₁ op h hx))
  · exact Or.inr (List.mem_toFinset.mp (h₂ op h hx))

/-- Operation by operation, each writes the one reference at its place in the list. -/
theorem WritesIn.of_forall₂ (h : List.Forall₂ (fun op r => op.writes = {Proc.devRef (τ := τ) .tc r}) ops W) : WritesIn ops W := by
  induction h with
  | nil => exact fun _ h => nomatch h
  | @cons op r _ _ hw _ ih =>
    refine WritesIn.append (l₁ := [op]) (W₁ := [r]) (fun o ho => ?_) ih
    rw [List.mem_singleton.mp ho, hw]; exact subset_of_eq (List.toFinset_cons.trans (by rfl)).symm

theorem WritesIn.not_mem (h : WritesIn ops W) {r : Ref sig .tc} (hr : r ∉ W) :
    ∀ op ∈ ops, Proc.devRef (τ := τ) .tc r ∉ op.writes := fun op hop hb => by
  obtain ⟨y, hy, he⟩ := List.mem_map.mp (List.mem_toFinset.mp (h op hop hb))
  exact hr (Proc.devRef_injective _ he ▸ hy)

theorem WritesIn.keep (h : WritesIn ops W) (V : Valuation τ sig Val)
    {r : Ref sig .tc} (hr : r ∉ W) : after ops V (Proc.devRef .tc r) = V (Proc.devRef .tc r) :=
  after_of_forall_not_mem ops V (h.not_mem hr)

end Writes

section Reference

open Cert.ReferenceIdeal Cert.ReferenceIdeal.ValueP

variable {F : FTy → Type} [FloatOps F]

abbrev opsL0_W : List (Ref sig .tc) := [main_cst, main_cst_0, main_call0_v0, main_call0_v1, main_call0_v2, main_call0_v3, main_call0_v4, main_v0]
theorem opsL0_in : WritesIn (τ := τ) (opsL0 (F := F)) opsL0_W := .of_forall₂ (by repeat' constructor)
abbrev opsL1_W : List (Ref sig .tc) := [main_cst_1, main_v1, main_cst_2, main_v2, main_v3, main_v4, main_cst_3, main_v5, main_v6, main_v7]
theorem opsL1_in : WritesIn (τ := τ) (opsL1 (F := F)) opsL1_W := .of_forall₂ (by repeat' constructor)
abbrev opsL2_W : List (Ref sig .tc) := [main_c, main_v8, main_v9, main_c_4, main_v10, main_v11, main_v12, main_v13, main_v14]
theorem opsL2_in : WritesIn (τ := τ) (opsL2 (F := F)) opsL2_W := .of_forall₂ (by repeat' constructor)
abbrev opsL3_W : List (Ref sig .tc) := [main_cst_5, main_v15, main_v16, main_v17, main_v18, main_v19]
theorem opsL3_in : WritesIn (τ := τ) (opsL3 (F := F)) opsL3_W := .of_forall₂ (by repeat' constructor)
abbrev opsL4_W : List (Ref sig .tc) := [main_v20]
theorem opsL4_in : WritesIn (τ := τ) (opsL4 (F := F)) opsL4_W := .of_forall₂ (by repeat' constructor)
abbrev opsL5_W : List (Ref sig .tc) := [main_c_6, main_v21, main_v22, main_c_7, main_v23, main_v24, main_v25, main_v26, main_v27]
theorem opsL5_in : WritesIn (τ := τ) (opsL5 (F := F)) opsL5_W := .of_forall₂ (by repeat' constructor)
abbrev opsL6_W : List (Ref sig .tc) := [main_cst_8, main_v28, main_v29, main_v30, main_v31]
theorem opsL6_in : WritesIn (τ := τ) (opsL6 (F := F)) opsL6_W := .of_forall₂ (by repeat' constructor)
abbrev opsL7_W : List (Ref sig .tc) := [main_v32, main_v33, main_cst_9, main_v34, main_v35, main_v36, main_v37, main_v38, main_v39, main_cst_10, main_v40, main_v41, main_v42, main_cst_11, main_v43, main_cst_12, main_v44, main_cst_13, main_v45, main_v46, main_v47, main_cst_14, main_v48, main_cst_15, main_v49, main_cst_16, main_v50, main_v51, main_cst_17, main_v52, main_cst_18, main_v53, main_cst_19, main_v54, main_cst_20, main_v55, main_v56, main_v57, main_cst_21, main_v58]
theorem opsL7_in : WritesIn (τ := τ) (opsL7 (F := F)) opsL7_W := .of_forall₂ (by repeat' constructor)
abbrev opsR0_W : List (Ref sig .tc) := [main_cst_22, main_cst_23, main_call1_v0, main_call1_v1, main_call1_v2, main_call1_v3, main_call1_v4, main_v59]
theorem opsR0_in : WritesIn (τ := τ) (opsR0 (F := F)) opsR0_W := .of_forall₂ (by repeat' constructor)
abbrev opsR1_W : List (Ref sig .tc) := [main_c_24, main_v60, main_v61, main_c_25, main_v62, main_v63, main_v64, main_v65, main_v66, main_cst_26, main_call2_v0, main_call2_v1, main_v67, main_v68, main_c_27, main_v69, main_v70, main_c_28, main_v71, main_v72, main_v73, main_v74, main_v75, main_c_29, main_v76, main_v77, main_c_30, main_v78, main_v79, main_v80, main_v81, main_v82, main_v83, main_call3_v0, main_call3_cst, main_call3_v1, main_call3_v2, main_v84, main_cst_31, main_v85, main_v86, main_v87, main_v88, main_c_32, main_v89, main_v90, main_c_33, main_v91, main_v92, main_v93, main_v94, main_c_34, main_v95, main_v96, main_v97, main_v98, main_c_35, main_v99, main_v100, main_c_36, main_v101, main_v102, main_v103, main_v104, main_v105, main_v106, main_v107, main_c_37, main_v108, main_v109, main_c_38, main_v110, main_v111, main_v112, main_v113, main_v114, main_v115, main_v116, main_v117]
theorem opsR1_in : WritesIn (τ := τ) (opsR1 (F := F)) opsR1_W := .of_forall₂ (by repeat' constructor)
abbrev opsR2_W : List (Ref sig .tc) := [main_v118, main_cst_39, main_v119, main_v120, main_cst_40, main_v121, main_v122, main_v123, main_v124, main_v125, main_v126, main_cst_41, main_v127, main_v128, main_v129, main_v130, main_v131, main_cst_42, main_v132, main_v133, main_cst_43, main_v134, main_v135]
theorem opsR2_in : WritesIn (τ := τ) (opsR2 (F := F)) opsR2_W := .of_forall₂ (by repeat' constructor)
abbrev opsR3_W : List (Ref sig .tc) := [main_cst_44, main_v136, main_c_45, main_v137, main_v138, main_c_46, main_v139, main_v140, main_v141, main_v142, main_v143]
theorem opsR3_in : WritesIn (τ := τ) (opsR3 (F := F)) opsR3_W := .of_forall₂ (by repeat' constructor)
abbrev opsR4_W : List (Ref sig .tc) := [main_c_47, main_v144, main_v145, main_c_48, main_v146, main_v147, main_v148, main_v149, main_v150, main_c_49, main_v151, main_v152, main_c_50, main_v153, main_v154, main_v155, main_v156, main_v157, main_v158, main_v159, main_cst_51, main_v160]
theorem opsR4_in : WritesIn (τ := τ) (opsR4 (F := F)) opsR4_W := .of_forall₂ (by repeat' constructor)
abbrev opsR5_W : List (Ref sig .tc) := [main_cst_52, main_v161, main_v162, main_v163, main_cst_53, main_v164, main_cst_54, main_v165, main_v166, main_v167, main_cst_55, main_v168, main_v169, main_cst_56, main_v170, main_v171, main_v172, main_v173, main_cst_57, main_call4_v0, main_call4_v1, main_v174, main_v175, main_v176, main_cst_58, main_v177, main_v178, main_v179, main_v180, main_cst_59, main_v181, main_v182, main_v183, main_cst_60, main_v184, main_cst_61, main_v185, main_v186, main_cst_62, main_v187, main_cst_63, main_v188, main_cst_64, main_v189, main_v190, main_cst_65, main_v191, main_cst_66, main_v192, main_cst_67, main_v193, main_cst_68, main_v194, main_v195, main_v196, main_cst_69, main_v197]
theorem opsR5_in : WritesIn (τ := τ) (opsR5 (F := F)) opsR5_W := .of_forall₂ (by repeat' constructor)
abbrev opsR6_W : List (Ref sig .tc) := [main_v198]
theorem opsR6_in : WritesIn (τ := τ) (opsR6 (F := F)) opsR6_W := .of_forall₂ (by repeat' constructor)
abbrev opsS0_W : List (Ref sig .tc) := [main_cst_70, main_cst_71, main_call5_v0, main_call5_v1, main_call5_v2, main_call5_v3, main_call5_v4, main_v199]
theorem opsS0_in : WritesIn (τ := τ) (opsS0 (F := F)) opsS0_W := .of_forall₂ (by repeat' constructor)
abbrev opsS1_W : List (Ref sig .tc) := [main_c_72, main_v200, main_v201, main_c_73, main_v202, main_v203, main_v204, main_v205, main_v206, main_cst_74, main_call6_v0, main_call6_v1, main_v207, main_v208, main_c_75, main_v209, main_v210, main_c_76, main_v211, main_v212, main_v213, main_v214, main_v215, main_c_77, main_v216, main_v217, main_c_78, main_v218, main_v219, main_v220, main_v221, main_v222, main_v223, main_call7_v0, main_call7_cst, main_call7_v1, main_call7_v2, main_v224, main_cst_79, main_v225, main_v226, main_v227, main_v228, main_c_80, main_v229, main_v230, main_c_81, main_v231, main_v232, main_v233, main_v234, main_c_82, main_v235, main_v236, main_v237, main_v238, main_c_83, main_v239, main_v240, main_c_84, main_v241, main_v242, main_v243, main_v244, main_v245, main_v246, main_v247, main_c_85, main_v248, main_v249, main_c_86, main_v250, main_v251, main_v252, main_v253, main_v254, main_v255, main_v256, main_v257]
theorem opsS1_in : WritesIn (τ := τ) (opsS1 (F := F)) opsS1_W := .of_forall₂ (by repeat' constructor)
abbrev opsS2_W : List (Ref sig .tc) := [main_v258, main_cst_87, main_v259, main_v260, main_cst_88, main_v261, main_v262, main_v263, main_v264, main_v265, main_v266, main_cst_89, main_v267, main_v268, main_v269, main_v270, main_v271, main_cst_90, main_v272, main_v273, main_cst_91, main_v274, main_v275]
theorem opsS2_in : WritesIn (τ := τ) (opsS2 (F := F)) opsS2_W := .of_forall₂ (by repeat' constructor)
abbrev opsS3_W : List (Ref sig .tc) := [main_cst_92, main_v276, main_c_93, main_v277, main_v278, main_c_94, main_v279, main_v280, main_v281, main_v282, main_v283]
theorem opsS3_in : WritesIn (τ := τ) (opsS3 (F := F)) opsS3_W := .of_forall₂ (by repeat' constructor)
abbrev opsS4_W : List (Ref sig .tc) := [main_c_95, main_v284, main_v285, main_c_96, main_v286, main_v287, main_v288, main_v289, main_v290, main_c_97, main_v291, main_v292, main_c_98, main_v293, main_v294, main_v295, main_v296, main_v297, main_v298, main_v299, main_cst_99, main_v300]
theorem opsS4_in : WritesIn (τ := τ) (opsS4 (F := F)) opsS4_W := .of_forall₂ (by repeat' constructor)
abbrev opsS5_W : List (Ref sig .tc) := [main_cst_100, main_v301, main_v302, main_v303, main_cst_101, main_v304, main_cst_102, main_v305, main_v306, main_v307, main_cst_103, main_v308, main_v309, main_cst_104, main_v310, main_v311, main_v312, main_v313, main_cst_105, main_call8_v0, main_call8_v1, main_v314, main_v315, main_v316, main_cst_106, main_v317, main_v318, main_v319, main_v320, main_cst_107, main_v321, main_v322, main_v323, main_cst_108, main_v324, main_cst_109, main_v325, main_v326, main_cst_110, main_v327, main_cst_111, main_v328, main_cst_112, main_v329, main_v330, main_cst_113, main_v331, main_cst_114, main_v332, main_cst_115, main_v333, main_cst_116, main_v334, main_v335, main_v336, main_cst_117, main_v337]
theorem opsS5_in : WritesIn (τ := τ) (opsS5 (F := F)) opsS5_W := .of_forall₂ (by repeat' constructor)
abbrev opsS6_W : List (Ref sig .tc) := [main_v338]
theorem opsS6_in : WritesIn (τ := τ) (opsS6 (F := F)) opsS6_W := .of_forall₂ (by repeat' constructor)
abbrev opsL16_W : List (Ref sig .tc) := opsL1_W ++ opsL2_W ++ opsL3_W ++ opsL4_W ++ opsL5_W ++ opsL6_W
theorem opsL16_in : WritesIn (τ := τ) ((opsL1 (F := F)) ++ opsL2 ++ opsL3 ++ opsL4 ++ opsL5 ++ opsL6) opsL16_W :=
  ((((opsL1_in.append opsL2_in).append opsL3_in).append opsL4_in).append opsL5_in).append opsL6_in
abbrev opsR34_W : List (Ref sig .tc) := opsR3_W ++ opsR4_W
theorem opsR34_in : WritesIn (τ := τ) ((opsR3 (F := F)) ++ opsR4) opsR34_W := opsR3_in.append opsR4_in
abbrev opsS34_W : List (Ref sig .tc) := opsS3_W ++ opsS4_W
theorem opsS34_in : WritesIn (τ := τ) ((opsS3 (F := F)) ++ opsS4) opsS34_W := opsS3_in.append opsS4_in

theorem after_ops (V : Valuation τ sig (Elt F)) :
    after (ops (F := F)) V = after opsS6 (after opsS5 (after (opsS3 ++ opsS4) (after opsS2 (after (opsR6 ++ opsS0 ++ opsS1) (after opsR5
      (after (opsR3 ++ opsR4) (after opsR2 (after opsR1 (after opsR0 (after opsL7 (after (opsL1 ++ opsL2 ++ opsL3 ++ opsL4 ++ opsL5 ++ opsL6)
        (after opsL0 V)))))))))))) := by
  rw [ops_blocks]
  simp only [StableHlo.after_append]

abbrev ops_W : List (Ref sig .tc) := opsL0_W ++ (opsL1_W ++ (opsL2_W ++ (opsL3_W ++ (opsL4_W ++ (opsL5_W ++ (opsL6_W ++ (opsL7_W ++ (opsR0_W ++ (opsR1_W ++ (opsR2_W ++ (opsR3_W ++ (opsR4_W ++ (opsR5_W ++ (opsR6_W ++ (opsS0_W ++ (opsS1_W ++ (opsS2_W ++ (opsS3_W ++ (opsS4_W ++ (opsS5_W ++ (opsS6_W)))))))))))))))))))))
theorem ops_in : WritesIn (τ := τ) (ops (F := F)) ops_W :=
  opsL0_in.append (opsL1_in.append (opsL2_in.append (opsL3_in.append (opsL4_in.append (opsL5_in.append (opsL6_in.append (opsL7_in.append (opsR0_in.append (opsR1_in.append (opsR2_in.append (opsR3_in.append (opsR4_in.append (opsR5_in.append (opsR6_in.append (opsS0_in.append (opsS1_in.append (opsS2_in.append (opsS3_in.append (opsS4_in.append (opsS5_in.append (opsS6_in)))))))))))))))))))))

set_option maxRecDepth 65536 in
theorem ref_after_arg (V : Valuation τ sig (Elt F)) (a : Ref sig .tc)
    (ha : a ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22] : List (Ref sig .tc))) :
    after (ops (F := F)) V (Proc.devRef .tc a) = V (Proc.devRef .tc a) :=
  ops_in.keep V (image_not_mem id (by decide) a ha)

end Reference

end Cert.Hand.Bridge

end
-- ==== Proof.LibAgree.lean ====
import Idealize.ShloMosaic.Lib.StableHlo.Run

namespace Idealize.ShloMosaic.StableHlo

variable {τ : Topo} {sig₁ sig₂ : RefSig} {Val : EltTy → Type}

theorem heq_app {A A' B B' : Type} (hA : A = A') (hB : B = B') {f : A → B} {f' : A' → B'} (hf : HEq f f')
    {a : A} {a' : A'} (ha : HEq a a') : HEq (f a) (f' a') := by
  subst hA hB; cases hf; cases ha; rfl

theorem result_of_ne {sig : RefSig} {op : HloOp τ sig Val} {y r : Ref sig .tc} (hw : op.writes = {Proc.devRef .tc y}) (hr : r ≠ y)
    (V : Valuation τ sig Val) : op.result V (Proc.devRef .tc r) = V (Proc.devRef .tc r) :=
  op.result_of_not_mem V (by rw [hw, Finset.mem_singleton]; exact devRef_ne_of_ne hr)

/-- Two valuations over two signatures agree on a list of paired buffers; contents are compared heterogeneously. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => nomatch h

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  exacts [h, t p hp]

theorem get (h : Agree P V₁ V₂) {a : Ref sig₁ .tc} {a' : Ref sig₂ .tc} (hin : (a, a') ∈ P) :
    HEq (V₁ (Proc.devRef .tc a)) (V₂ (Proc.devRef .tc a')) := h (a, a') hin

theorem mono (h : Agree P V₁ V₂) (hQ : Q ⊆ P) : Agree Q V₁ V₂ := fun p hp => h p (hQ hp)

theorem writeL (h : Agree P V₁ V₂) {op : HloOp τ sig₁ Val} {y : Ref sig₁ .tc}
    (hw : op.writes = {Proc.devRef .tc y}) (hy : y ∉ P.map Prod.fst) : Agree P (op.result V₁) V₂ := fun p hp => by
  rw [result_of_ne hw fun e => hy (e ▸ List.mem_map_of_mem hp)]; exact h p hp

theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  rw [result_of_ne hw' fun e => hy' (e ▸ List.mem_map_of_mem hp)]; exact h p hp

theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := cons hres ((h.writeL hw hy).writeR hw' hy')

end Agree

/-- Running `ops` on one side and `ops'` on the other carries agreement on `P` to agreement on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops : List (HloOp τ sig₁ Val)} {ops' : List (HloOp τ sig₂ Val)}

theorem done (hQ : Q ⊆ P) : Sim (τ := τ) (Val := Val) P [] [] Q := fun _ _ h => h.mono hQ

/-- Pairs that nothing later reads may be dropped before going on. -/
theorem keep (hP : P' ⊆ P) (k : Sim P' ops ops' Q) : Sim P ops ops' Q := fun V₁ V₂ h => k V₁ V₂ (h.mono hP)

theorem step {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : ∀ (V₁ : Valuation τ sig₁ Val) (V₂ : Valuation τ sig₂ Val), Agree P V₁ V₂ →
      HEq (op.result V₁ (Proc.devRef .tc y)) (op'.result V₂ (Proc.devRef .tc y')))
    (k : Sim ((y, y') :: P) ops ops' Q) : Sim P (op :: ops) (op' :: ops') Q :=
  fun V₁ V₂ h => k _ _ (h.write hw hw' hy hy' (hres V₁ V₂ h))

theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

section Builders

variable {x a b c y : Ref sig₁ .tc} {x' a' b' c' y' : Ref sig₂ .tc}

theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step rfl rfl hfy hfy' (fun _ _ _ => by rw [nullary_result, nullary_result]; exact hv) k

theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step rfl rfl hfy hfy' (fun _ _ h => by
    rw [unary_result, unary_result]
    exact heq_app (congrArg (BufTy.Contents Val) htx) (congrArg (BufTy.Contents Val) hty) hf (h.get hin)) k

theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step rfl rfl hfy hfy' (fun _ _ h => by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb)) k

theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step rfl rfl hfy hfy' (fun _ _ h => by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb)) k

end Builders

end Sim

end Idealize.ShloMosaic.StableHlo
-- ==== Proof.Lock1.lean ====
import proofs.«119071_j16140487098675_2_alg».proof.Proof.RefOps
import proofs.«119071_j16140487098675_2_alg».proof.Proof.Split
import proofs.«119071_j16140487098675_2_alg».proof.Proof.Gen.KernelIdeal.Launch
import proofs.«119071_j16140487098675_2_alg».proof.Proof.LibAgree
import Idealize.ShloMosaic.PureOps.Ideal

noncomputable section

namespace Cert.Hand.Lock

open Cert Idealize.ShloMosaic Idealize.ShloMosaic.StableHlo

abbrev ARGS : List (Ref KernelIdeal.sig .tc × Ref ReferenceIdeal.sig .tc) :=
  [(KernelIdeal.main_arg0, ReferenceIdeal.main_arg0),
   (KernelIdeal.main_arg1, ReferenceIdeal.main_arg1),
   (KernelIdeal.main_arg2, ReferenceIdeal.main_arg2),
   (KernelIdeal.main_arg3, ReferenceIdeal.main_arg3),
   (KernelIdeal.main_arg4, ReferenceIdeal.main_arg4),
   (KernelIdeal.main_arg5, ReferenceIdeal.main_arg5),
   (KernelIdeal.main_arg6, ReferenceIdeal.main_arg6),
   (KernelIdeal.main_arg7, ReferenceIdeal.main_arg7),
   (KernelIdeal.main_arg8, ReferenceIdeal.main_arg8),
   (KernelIdeal.main_arg9, ReferenceIdeal.main_arg9),
   (KernelIdeal.main_arg10, ReferenceIdeal.main_arg10),
   (KernelIdeal.main_arg11, ReferenceIdeal.main_arg11),
   (KernelIdeal.main_arg12, ReferenceIdeal.main_arg12),
   (KernelIdeal.main_arg13, ReferenceIdeal.main_arg13),
   (KernelIdeal.main_arg14, ReferenceIdeal.main_arg14),
   (KernelIdeal.main_arg15, ReferenceIdeal.main_arg15),
   (KernelIdeal.main_arg16, ReferenceIdeal.main_arg16),
   (KernelIdeal.main_arg17, ReferenceIdeal.main_arg17),
   (KernelIdeal.main_arg18, ReferenceIdeal.main_arg18),
   (KernelIdeal.main_arg19, ReferenceIdeal.main_arg19),
   (KernelIdeal.main_arg20, ReferenceIdeal.main_arg20),
   (KernelIdeal.main_arg21, ReferenceIdeal.main_arg21),
   (KernelIdeal.main_arg22, ReferenceIdeal.main_arg22)]

macro "lock_nullary" : tactic =>
  `(tactic| refine Sim.nullary HEq.rfl (by decide) (by decide) ?_)
macro "lock_unary" : tactic =>
  `(tactic| refine Sim.unary (by decide) rfl rfl HEq.rfl (by decide) (by decide) ?_)
macro "lock_binary" : tactic =>
  `(tactic| refine Sim.binary (by decide) (by decide) rfl rfl rfl HEq.rfl (by decide) (by decide) ?_)
macro "lock_ternary" : tactic =>
  `(tactic| refine Sim.ternary (by decide) (by decide) (by decide) rfl rfl rfl rfl HEq.rfl (by decide) (by decide) ?_)

/-- Both programs reach the predicted positions by the same operations on paired buffers; pairs nothing later reads are dropped on the way. -/
theorem lock_pred1 : Sim (τ := KernelIdeal.τ) (Val := Elt Ideal) ((KernelIdeal.main_v43, ReferenceIdeal.main_v58) :: ARGS)
    (KernelIdeal.Hand.hostOps1b (F := Ideal) ++ KernelIdeal.Gen.hostOps1_1 (F := Ideal) ++ KernelIdeal.Gen.hostOps1_2 (F := Ideal) ++ KernelIdeal.Gen.hostOps1_3 (F := Ideal) ++ KernelIdeal.Gen.hostOps1_4 (F := Ideal))
    (ReferenceIdeal.ValueP.opsR1 (F := Ideal))
    ((KernelIdeal.main_v101, ReferenceIdeal.main_v117) :: (KernelIdeal.main_v52, ReferenceIdeal.main_v68) :: (KernelIdeal.main_v43, ReferenceIdeal.main_v58) :: ARGS) := by
  lock_nullary; lock_unary; lock_binary; lock_nullary; lock_unary; lock_binary; lock_ternary; lock_unary
  lock_binary; lock_nullary
  lock_unary; lock_unary; lock_binary
  refine Sim.keep (P' := (KernelIdeal.main_v51, ReferenceIdeal.main_v67) :: (KernelIdeal.main_v43, ReferenceIdeal.main_v58) :: ARGS) (by decide) ?_
  lock_unary; lock_nullary; lock_unary; lock_binary; lock_nullary; lock_unary; lock_binary; lock_ternary
  lock_unary; lock_binary; lock_nullary; lock_unary; lock_binary; lock_nullary; lock_unary; lock_binary
  lock_ternary; lock_unary; lock_binary; lock_binary
  lock_binary; lock_nullary; lock_binary; lock_unary; lock_unary
  refine Sim.keep (P' := (KernelIdeal.main_v68, ReferenceIdeal.main_v84) :: (KernelIdeal.main_v67, ReferenceIdeal.main_v83) :: (KernelIdeal.main_v52, ReferenceIdeal.main_v68) :: (KernelIdeal.main_v43, ReferenceIdeal.main_v58) :: ARGS) (by decide) ?_
  lock_nullary; lock_unary; lock_binary; lock_unary; lock_binary; lock_nullary; lock_unary; lock_binary
  lock_nullary; lock_unary; lock_binary; lock_ternary; lock_unary; lock_nullary; lock_unary; lock_binary
  lock_binary; lock_unary
  refine Sim.keep (P' := (KernelIdeal.main_v82, ReferenceIdeal.main_v98) :: (KernelIdeal.main_v72, ReferenceIdeal.main_v88) :: (KernelIdeal.main_v52, ReferenceIdeal.main_v68) :: (KernelIdeal.main_v43, ReferenceIdeal.main_v58) :: ARGS) (by decide) ?_
  lock_nullary; lock_unary; lock_binary; lock_nullary; lock_unary; lock_binary; lock_ternary; lock_unary
  lock_binary; lock_unary; lock_binary; lock_nullary; lock_unary; lock_binary; lock_nullary; lock_unary
  lock_binary; lock_ternary; lock_unary; lock_binary; lock_unary; lock_binary; lock_binary
  exact Sim.done (by decide)

theorem lock_edges1 : Sim (τ := KernelIdeal.τ) (Val := Elt Ideal)
    ((KernelIdeal.main_v102, ReferenceIdeal.main_v135) :: (KernelIdeal.main_v52, ReferenceIdeal.main_v68) :: (KernelIdeal.main_v43, ReferenceIdeal.main_v58) :: ARGS)
    (KernelIdeal.Hand.hostOps2a (F := Ideal))
    (ReferenceIdeal.ValueP.opsR3 (F := Ideal) ++ ReferenceIdeal.ValueP.opsR4 (F := Ideal))
    ((KernelIdeal.main_v110, ReferenceIdeal.main_v143) :: (KernelIdeal.main_v127, ReferenceIdeal.main_v160) :: (KernelIdeal.main_v52, ReferenceIdeal.main_v68) :: (KernelIdeal.main_v43, ReferenceIdeal.main_v58) :: ARGS) := by
  lock_nullary; lock_unary; lock_nullary; lock_unary; lock_binary; lock_nullary; lock_unary; lock_binary
  lock_ternary; lock_unary; lock_ternary
  lock_nullary; lock_unary; lock_binary; lock_nullary; lock_unary; lock_binary; lock_ternary; lock_unary
  lock_binary; lock_nullary; lock_unary; lock_binary; lock_nullary; lock_unary; lock_binary; lock_ternary
  lock_unary; lock_binary; lock_binary; lock_binary; lock_nullary; lock_binary
  exact Sim.done (by decide)

end Cert.Hand.Lock

end
-- ==== Proof.Lock2.lean ====
import proofs.«119071_j16140487098675_2_alg».proof.Proof.Lock1

noncomputable section

namespace Cert.Hand.Lock

open Cert Idealize.ShloMosaic Idealize.ShloMosaic.StableHlo

/-- The second radar term repeats the first; before it the reference alone clips eight buffers that no pair names. -/
theorem lock_pred2 : Sim (τ := KernelIdeal.τ) (Val := Elt Ideal) ((KernelIdeal.main_v151, ReferenceIdeal.main_v197) :: (KernelIdeal.main_v43, ReferenceIdeal.main_v58) :: ARGS)
    (KernelIdeal.Hand.hostOps3b (F := Ideal) ++ KernelIdeal.Gen.hostOps3_1 (F := Ideal) ++ KernelIdeal.Gen.hostOps3_2 (F := Ideal) ++ KernelIdeal.Gen.hostOps3_3 (F := Ideal) ++ KernelIdeal.Gen.hostOps3_4 (F := Ideal))
    (ReferenceIdeal.ValueP.opsR6 (F := Ideal) ++ ReferenceIdeal.ValueP.opsS0 (F := Ideal) ++ ReferenceIdeal.ValueP.opsS1 (F := Ideal))
    ((KernelIdeal.main_v210, ReferenceIdeal.main_v257) :: (KernelIdeal.main_v161, ReferenceIdeal.main_v208) :: (KernelIdeal.main_v152, ReferenceIdeal.main_v198) :: ARGS) := by
  lock_binary
  iterate 8 refine Sim.skipR rfl (by decide) ?_
  lock_nullary; lock_unary; lock_binary; lock_nullary; lock_unary; lock_binary; lock_ternary; lock_unary
  lock_binary; lock_nullary
  lock_unary; lock_unary; lock_binary
  refine Sim.keep (P' := (KernelIdeal.main_v160, ReferenceIdeal.main_v207) :: (KernelIdeal.main_v152, ReferenceIdeal.main_v198) :: (KernelIdeal.main_v151, ReferenceIdeal.main_v197) :: (KernelIdeal.main_v43, ReferenceIdeal.main_v58) :: ARGS) (by decide) ?_
  lock_unary; lock_nullary; lock_unary; lock_binary; lock_nullary; lock_unary; lock_binary; lock_ternary
  lock_unary; lock_binary; lock_nullary; lock_unary; lock_binary; lock_nullary; lock_unary; lock_binary
  lock_ternary; lock_unary; lock_binary; lock_binary
  lock_binary; lock_nullary; lock_binary; lock_unary; lock_unary
  refine Sim.keep (P' := (KernelIdeal.main_v177, ReferenceIdeal.main_v224) :: (KernelIdeal.main_v176, ReferenceIdeal.main_v223) :: (KernelIdeal.main_v161, ReferenceIdeal.main_v208) :: (KernelIdeal.main_v152, ReferenceIdeal.main_v198) :: (KernelIdeal.main_v151, ReferenceIdeal.main_v197) :: (KernelIdeal.main_v43, ReferenceIdeal.main_v58) :: ARGS) (by decide) ?_
  lock_nullary; lock_unary; lock_binary; lock_unary; lock_binary; lock_nullary; lock_unary; lock_binary
  lock_nullary; lock_unary; lock_binary; lock_ternary; lock_unary; lock_nullary; lock_unary; lock_binary
  lock_binary; lock_unary
  refine Sim.keep (P' := (KernelIdeal.main_v191, ReferenceIdeal.main_v238) :: (KernelIdeal.main_v181, ReferenceIdeal.main_v228) :: (KernelIdeal.main_v161, ReferenceIdeal.main_v208) :: (KernelIdeal.main_v152, ReferenceIdeal.main_v198) :: (KernelIdeal.main_v151, ReferenceIdeal.main_v197) :: (KernelIdeal.main_v43, ReferenceIdeal.main_v58) :: ARGS) (by decide) ?_
  lock_nullary; lock_unary; lock_binary; lock_nullary; lock_unary; lock_binary; lock_ternary; lock_unary
  lock_binary; lock_unary; lock_binary; lock_nullary; lock_unary; lock_binary; lock_nullary; lock_unary
  lock_binary; lock_ternary; lock_unary; lock_binary; lock_unary; lock_binary; lock_binary
  exact Sim.done (by decide)

theorem lock_edges2 : Sim (τ := KernelIdeal.τ) (Val := Elt Ideal)
    ((KernelIdeal.main_v211, ReferenceIdeal.main_v275) :: (KernelIdeal.main_v161, ReferenceIdeal.main_v208) :: (KernelIdeal.main_v152, ReferenceIdeal.main_v198) :: ARGS)
    (KernelIdeal.Hand.hostOps4a (F := Ideal))
    (ReferenceIdeal.ValueP.opsS3 (F := Ideal) ++ ReferenceIdeal.ValueP.opsS4 (F := Ideal))
    ((KernelIdeal.main_v219, ReferenceIdeal.main_v283) :: (KernelIdeal.main_v236, ReferenceIdeal.main_v300) :: (KernelIdeal.main_v161, ReferenceIdeal.main_v208) :: (KernelIdeal.main_v152, ReferenceIdeal.main_v198) :: ARGS) := by
  lock_nullary; lock_unary; lock_nullary; lock_unary; lock_binary; lock_nullary; lock_unary; lock_binary
  lock_ternary; lock_unary; lock_ternary
  lock_nullary; lock_unary; lock_binary; lock_nullary; lock_unary; lock_binary; lock_ternary; lock_unary
  lock_binary; lock_nullary; lock_unary; lock_binary; lock_nullary; lock_unary; lock_binary; lock_ternary
  lock_unary; lock_binary; lock_binary; lock_binary; lock_nullary; lock_binary
  exact Sim.done (by decide)

end Cert.Hand.Lock

end
-- ==== Proof.Common.lean ====
import Mathlib.Data.EReal.Basic

namespace Cert.Hand

def RealValued {ι : Type} (x : ι → EReal) : Prop := ∀ i, ∃ r : ℝ, x i = (r : EReal)

end Cert.Hand
-- ==== Proof.BlockC.lean ====
import proofs.«119071_j16140487098675_2_alg».proof.Proof.KI.Reg1
import proofs.«119071_j16140487098675_2_alg».proof.Proof.KI.Reg3
import proofs.«119071_j16140487098675_2_alg».proof.Proof.RefOps
import proofs.«119071_j16140487098675_2_alg».proof.Proof.Common
import Idealize.ShloMosaic.Lib.Pipeline.Value
import Idealize.ShloMosaic.Lib.ValueIdx
import Idealize.ShloMosaic.Lib.ValueLayout
import Idealize.ShloMosaic.Lib.StackMember
import Idealize.ShloMosaic.Lib.IdealHost
import Idealize.ShloMosaic.PureOps.Ideal.Laws
import Idealize.ShloMosaic.Lib.StableHlo.Run
import Mathlib.Data.EReal.Basic
import Mathlib.Data.EReal.Operations
import Mathlib.Tactic.Ring
import Mathlib.Algebra.BigOperators.Fin

noncomputable section

namespace Cert.Hand.BlockC

open Idealize.ShloMosaic Idealize.ShloMosaic.ValueIdx

-- The squared distance of two points of three coordinates, the squares added one by one from 0.
def sqd (P Q : Fin 3 → EReal) : EReal :=
  ((0 + (P 0 - Q 0) * (P 0 - Q 0)) + (P 1 - Q 1) * (P 1 - Q 1)) + (P 2 - Q 2) * (P 2 - Q 2)

-- At real entries the square of a difference expands and a sum of squares is at least 0, so the maximum with 0 changes nothing.
theorem point_eq (P Q : Fin 3 → EReal) (hP : ∀ c, ∃ x : ℝ, P c = (x : EReal)) (hQ : ∀ c, ∃ x : ℝ, Q c = (x : EReal)) :
    max (((0 + ∑ c : Fin 3, P c * P c) + (0 + ∑ c : Fin 3, Q c * Q c)) - ∑ c : Fin 3, ((2 : EReal) * P c) * Q c) 0 = sqd P Q := by
  obtain ⟨a0, h0⟩ := hP 0
  obtain ⟨a1, h1⟩ := hP 1
  obtain ⟨a2, h2⟩ := hP 2
  obtain ⟨b0, k0⟩ := hQ 0
  obtain ⟨b1, k1⟩ := hQ 1
  obtain ⟨b2, k2⟩ := hQ 2
  have key : ∀ x y : ℝ, x = y → 0 ≤ y → max (x : EReal) 0 = (y : EReal) := fun x y h hy => by
    subst h; exact max_eq_left (EReal.coe_nonneg.mpr hy)
  unfold sqd
  simp only [Fin.sum_univ_three]
  rw [h0, h1, h2, k0, k1, k2, show (2 : EReal) = ((2 : ℝ) : EReal) by norm_cast]
  simp only [zero_add, ← EReal.coe_mul, ← EReal.coe_add, ← EReal.coe_sub]
  exact key _ _ (by ring) (add_nonneg (add_nonneg (mul_self_nonneg _) (mul_self_nonneg _)) (mul_self_nonneg _))

theorem lift_row {m n : ℕ} (h : (⟨2, ![m, n]⟩ : Shape).Reduces [1] ⟨1, ![m]⟩) (r : Fin m) (k : Fin ((⟨2, ![m, n]⟩ : Shape).size 1)) :
    h.lift (ix1 r) k = ix2 r (⟨k.val, k.isLt⟩ : Fin n) := by
  funext c; apply Fin.ext
  fin_cases c <;> rfl

theorem ofBits_inf_f32 : Ideal.ofBits .f32 0x7F800000#32 = (⊤ : EReal) := by simp [Ideal.ofBits, Ideal.ieee]

section KernelSide
open Cert.KernelIdeal Cert.KernelIdeal.Gen

variable {α : Type}

theorem bcast_col (v : S512x1.Idx → α) (h : S512x1.Broadcasts S512x2048) (r : Fin 512) (k : Fin 2048) :
    broadcastTo S512x2048 v h (ix2 r k) = v (ix2 r 0) :=
  broadcastTo_apply v h (ix2 r k) (ix2 r 0) fun a => by
    match a with
    | ⟨0, _⟩ => rfl
    | ⟨1, _⟩ => rfl

theorem cast_col (v : S512.Idx → α) (h : S512.ShapeCasts S512x1) (r : Fin 512) :
    shapeCast S512x1 v h (ix2 r 0) = v (ix1 r) :=
  shapeCast_apply v h (ix2 r 0) (ix1 r) (by
    rw [Shape.rowMajor_val_one, Shape.rowMajor_val_two]
    show r.val = r.val * 1 + 0
    omega)

theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem pay_apply (x0 : Vec Ideal S512x3 .f32) (x1 : Vec Ideal S2048x3 .f32) (r : Fin 512) :
    k1_pay1 x0 x1 (ix2 r 0) = (Finset.univ : Finset (Fin 2048)).fold min (⊤ : EReal) fun k =>
      sqd (fun c => x0 (ix2 r c)) (fun c => x1 (ix2 k c)) := by
  unfold k1_pay1
  refine (cast_col _ _ r).trans ?_
  refine (multiReduction_minimumf_single _ _ _ _ _ (ix1 r)).trans ?_
  rw [show (FloatOps.ofBits (F := Ideal) .f32 0x7F800000#32 : EReal) = (⊤ : EReal) from ofBits_inf_f32]
  refine Finset.fold_congr fun k _ => ?_
  simp only [Function.comp_apply, lift_row, addf_apply, mulf_apply, subf_apply, broadcast_apply, bcast_col, broadcastTo_1b_ab_apply,
    slice2_axis1_eq, slice2_axis0_eq, shapeCast_self]
  have t := fun c => transpose_ix2_apply x1 transposes_S2048x3_p1_0_S3x2048 c (⟨k.val, k.isLt⟩ : Fin 2048)
  rw [t, t, t]
  show Ideal.ofBits .f32 0x00000000#32 + _ + _ + _ = _
  rw [Ideal.ofBits_zero_f32]
  rfl

-- Row i of a region's result: the least squared distance from point i of p to the 2048 points of g.
def G (p : S32768x3.Idx → EReal) (g : S2048x3.Idx → EReal) : S32768x1.Idx → EReal := fun i =>
  (Finset.univ : Finset (Fin 2048)).fold min (⊤ : EReal) fun k => sqd (fun c => p (ix2 (i 0) c)) (fun c => g (ix2 k c))

-- A block whose rows are rows of p, against a block that is all of g, leaves rows of G.
theorem pay_G (p : S32768x3.Idx → EReal) (g : S2048x3.Idx → EReal) (x0 : Vec Ideal S512x3 .f32) (x1 : Vec Ideal S2048x3 .f32)
    (i : S32768x1.Idx) (j : S512x1.Idx) (h0 : ∀ cc, x0 (ix2 (j 0) cc) = p (ix2 (i 0) cc)) (h1 : ∀ k cc, x1 (ix2 k cc) = g (ix2 k cc)) :
    k1_pay1 x0 x1 j = G p g i := by
  obtain ⟨r, q, rfl⟩ : ∃ (r : Fin 512) (q : Fin 1), j = ix2 r q := ⟨j 0, j 1, eq_ix2 j⟩
  obtain rfl : q = 0 := Subsingleton.elim _ _
  have h0' : ∀ cc, x0 (ix2 r cc) = p (ix2 (i 0) cc) := h0
  exact (pay_apply x0 x1 r).trans (Finset.fold_congr fun k _ => by simp only [h0', h1])

-- Row i0 lies in the block of 512 rows numbered by its quotient by 512.
theorem in_block (i0 i1 x y : ℕ) (hx : x = i0 / 512) (hy : y = 0) (h1 : i1 < 1) :
    (x * 512 ≤ i0 ∧ i0 < x * 512 + 512) ∧ (y * 1 ≤ i1 ∧ i1 < y * 1 + 1) := by
  subst hx hy; omega

open Cert.KernelIdeal.Hand Idealize.ShloMosaic.TcCoe Idealize.SL.Sem
open Idealize.ShloMosaic.Pipeline (Dat)

theorem hz2 : (![0, 0] : Fin 2 → Nat) = fun _ => 0 := funext fun a => by fin_cases a <;> rfl

variable (V : (c : Dev nD) → (b : Ref sig .tc) → Buf (Elt Ideal) ((c : Thread nD τ).loc b))

theorem out_eq (x0 : Vec Ideal S512x3 .f32) (x1 : Vec Ideal S2048x3 .f32) : out1_2 x0 x1 = k1_pay1 x0 x1 := by
  unfold out1_2
  rw [View.canon_unit_zero hz2, View.ld_unit_zero (S := S512x3) hz2, View.ld_unit_zero (S := S2048x3) hz2]

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem arr1 (c : Dev nD) : (dat1 (F := Ideal) V c).arrAt 2 cfg1.N = G (V c main_v101) (V c main_arg9) :=
  (dat1 (F := Ideal) V c).arrAt_eq_of_cover 2 _
    (fun t _ => by
      show (cfg1.win 2).cut (grid1.coords t) ((dat1 V c).after 2 t) = _
      rw [after1_2, out_eq]
      obtain ⟨e0, e1, e2, e3, e4, e5⟩ := idx_facts1 t
      funext j
      show k1_pay1 (iblk1 V c 0 t) (iblk1 V c 1 t) j = G (V c main_v101) (V c main_arg9) (((cfg1.win 2).blk t).view.emb j)
      refine pay_G _ _ _ _ _ j (fun cc => ?_) (fun k cc => ?_)
      · show V c main_v101 (((cfg1.win 0).blk t).view.emb (ix2 (j 0) cc)) = _
        exact congrArg _ (Shape.idx_ext₂ (by show win1_0.index t (0 : Fin 2) * 512 + 1 * (j 0).val = win1_2.index t (0 : Fin 2) * 512 + 1 * (j 0).val; omega)
          (by show win1_0.index t (1 : Fin 2) * 3 + 1 * cc.val = cc.val; omega))
      · show V c main_arg9 (((cfg1.win 1).blk t).view.emb (ix2 k cc)) = _
        exact congrArg _ (Shape.idx_ext₂ (by show win1_1.index t (0 : Fin 2) * 2048 + 1 * k.val = k.val; omega)
          (by show win1_1.index t (1 : Fin 2) * 3 + 1 * cc.val = cc.val; omega)))
    (fun i => by
      have hi0 : (i 0).val < 32768 := idx2_lt0 i
      have hN : (i 0).val / 512 < cfg1.N := by show _ < grid1.N; rw [N_1]; omega
      obtain ⟨-, -, -, -, e4, e5⟩ := idx_facts1 ⟨(i 0).val / 512, hN⟩
      refine ⟨⟨(i 0).val / 512, hN⟩, flush1_2 _, ?_⟩
      show i ∈ ((View.whole main_v102).slice (win1_2.rect ⟨(i 0).val / 512, hN⟩)).set
      rw [View.set_slice_whole, Rect.mem_set_unit]
      exact Fin.forall_fin_two.mpr (in_block _ _ _ _ e4 e5 (idx2_lt1 i)))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 := idx_facts1

theorem arr3 (c : Dev nD) : (dat3 (F := Ideal) V c).arrAt 2 cfg3.N = G (V c main_v210) (V c main_arg9) :=
  (dat3 (F := Ideal) V c).arrAt_eq_of_cover 2 _
    (fun t _ => by
      show (cfg3.win 2).cut (grid3.coords t) ((dat3 V c).after 2 t) = _
      rw [after3_2, show out3_2 _ _ = _ from out_eq _ _]
      obtain ⟨e0, e1, e2, e3, e4, e5⟩ := idx_facts3 t
      funext j
      show k3_pay1 (iblk3 V c 0 t) (iblk3 V c 1 t) j = G (V c main_v210) (V c main_arg9) (((cfg3.win 2).blk t).view.emb j)
      refine pay_G _ _ _ _ _ j (fun cc => ?_) (fun k cc => ?_)
      · show V c main_v210 (((cfg3.win 0).blk t).view.emb (ix2 (j 0) cc)) = _
        exact congrArg _ (Shape.idx_ext₂ (by show win3_0.index t (0 : Fin 2) * 512 + 1 * (j 0).val = win3_2.index t (0 : Fin 2) * 512 + 1 * (j 0).val; omega)
          (by show win3_0.index t (1 : Fin 2) * 3 + 1 * cc.val = cc.val; omega))
      · show V c main_arg9 (((cfg3.win 1).blk t).view.emb (ix2 k cc)) = _
        exact congrArg _ (Shape.idx_ext₂ (by show win3_1.index t (0 : Fin 2) * 2048 + 1 * k.val = k.val; omega)
          (by show win3_1.index t (1 : Fin 2) * 3 + 1 * cc.val = cc.val; omega)))
    (fun i => by
      have hi0 : (i 0).val < 32768 := idx2_lt0 i
      have hN : (i 0).val / 512 < cfg3.N := by show _ < grid3.N; rw [N_3]; omega
      obtain ⟨-, -, -, -, e4, e5⟩ := idx_facts3 ⟨(i 0).val / 512, hN⟩
      refine ⟨⟨(i 0).val / 512, hN⟩, flush3_2 _, ?_⟩
      show i ∈ ((View.whole main_v211).slice (win3_2.rect ⟨(i 0).val / 512, hN⟩)).set
      rw [View.set_slice_whole, Rect.mem_set_unit]
      exact Fin.forall_fin_two.mpr (in_block _ _ _ _ e4 e5 (idx2_lt1 i)))

end KernelSide

section RefSide
open Cert.ReferenceIdeal Cert.ReferenceIdeal.Gen

-- The reference's 23 operations as one term of the two arrays they read.
def Rf (p : FVec Ideal S32768x3 .f32) (g : FVec Ideal S2048x3 .f32) : FVec Ideal S32768x1 .f32 :=
  have v118 : FVec Ideal S32768x3 .f32 := mulf p p
  have v119 : FVec Ideal S32768 .f32 := Host.reduceAdd v118 (constant (F := Ideal) S_ .f32 0x00000000#32) reducesTo_S32768x3_S32768_d1 h_S_
  have v120 : FVec Ideal S2048x3 .f32 := mulf g g
  have v121 : FVec Ideal S2048 .f32 := Host.reduceAdd v120 (constant (F := Ideal) S_ .f32 0x00000000#32) reducesTo_S2048x3_S2048_d1 h_S_
  have v122 : FVec Ideal S32768x1 .f32 := broadcastInDim S32768x1 ![0] bcast_S32768_S32768x1_0 v119
  have v123 : FVec Ideal S1x2048 .f32 := broadcastInDim S1x2048 ![1] bcast_S2048_S1x2048_1 v121
  have v124 : FVec Ideal S32768x2048 .f32 := broadcastInDim S32768x2048 ![0, 1] bcast_S32768x1_S32768x2048_0_1 v122
  have v125 : FVec Ideal S32768x2048 .f32 := broadcastInDim S32768x2048 ![0, 1] bcast_S1x2048_S32768x2048_0_1 v123
  have v126 : FVec Ideal S32768x2048 .f32 := addf v124 v125
  have v127 : FVec Ideal S32768x3 .f32 := broadcastInDim S32768x3 ![] bcast_S_S32768x3 (constant (F := Ideal) S_ .f32 0x40000000#32)
  have v128 : FVec Ideal S32768x3 .f32 := mulf v127 p
  have v129 : FVec Ideal S3x2048 .f32 := transpose S3x2048 [1, 0] g transposes_S2048x3_S3x2048_1_0
  have v130 : FVec Ideal S32768x2048 .f32 := Host.dotGeneral dot_S32768x3_S3x2048_S32768x2048_1_0_0_1_n_n none v128 v129
  have v131 : FVec Ideal S32768x2048 .f32 := subf v126 v130
  have v132 : FVec Ideal S32768x2048 .f32 := broadcastInDim S32768x2048 ![] bcast_S_S32768x2048 (constant (F := Ideal) S_ .f32 0x00000000#32)
  have v133 : FVec Ideal S32768x2048 .f32 := maximumf v131 v132
  have v134 : FVec Ideal S32768 .f32 := Host.reduce FloatOps.minimumf v133 (constant (F := Ideal) S_ .f32 0x7F800000#32) reducesTo_S32768x2048_S32768_d1 h_S_
  broadcastInDim S32768x1 ![0] bcast_S32768_S32768x1_0 v134

variable {α : Type}

theorem bid_col (v : S32768.Idx → α) (h : S32768.BroadcastsInDim S32768x1 (![0] : Fin 1 → Fin S32768x1.rank)) (r : Fin 32768) (q : Fin 1) :
    broadcastInDim S32768x1 (![0] : Fin 1 → Fin S32768x1.rank) h v (ix2 r q) = v (ix1 r) :=
  broadcastInDim_apply _ h v (ix2 r q) (ix1 r) fun a => by
    match a with
    | ⟨0, _⟩ => rfl

theorem bid_row (v : S2048.Idx → α) (h : S2048.BroadcastsInDim S1x2048 (![1] : Fin 1 → Fin S1x2048.rank)) (q : Fin 1) (k : Fin 2048) :
    broadcastInDim S1x2048 (![1] : Fin 1 → Fin S1x2048.rank) h v (ix2 q k) = v (ix1 k) :=
  broadcastInDim_apply _ h v (ix2 q k) (ix1 k) fun a => by
    match a with
    | ⟨0, _⟩ => rfl

theorem bid_col_full (v : S32768x1.Idx → α) (h : S32768x1.BroadcastsInDim S32768x2048 (![0, 1] : Fin 2 → Fin S32768x2048.rank)) (r : Fin 32768) (k : Fin 2048) :
    broadcastInDim S32768x2048 (![0, 1] : Fin 2 → Fin S32768x2048.rank) h v (ix2 r k) = v (ix2 r 0) :=
  broadcastInDim_apply _ h v (ix2 r k) (ix2 r 0) fun a => by
    match a with
    | ⟨0, _⟩ => rfl
    | ⟨1, _⟩ => rfl

theorem red_p : S32768x3.Reduces [1] S32768 := by decide
theorem red_g : S2048x3.Reduces [1] S2048 := by decide
theorem red_d : S32768x2048.Reduces [1] S32768 := by decide

theorem norm_apply {m : ℕ} (x : FVec Ideal ⟨2, ![m, 3]⟩ .f32) (h : (⟨2, ![m, 3]⟩ : Shape).ReducesTo [1] ⟨1, ![m]⟩)
    (hR : (⟨2, ![m, 3]⟩ : Shape).Reduces [1] ⟨1, ![m]⟩) (r : Fin m) :
    Host.reduceAdd (mulf x x) (constant (F := Ideal) S_ .f32 0x00000000#32) h h_S_ (ix1 r)
      = 0 + ∑ c : Fin 3, x (ix2 r c) * x (ix2 r c) := by
  show Ideal.hostReduceAdd h (mulf x x) (Ideal.ofBits .f32 0x00000000#32) (ix1 r) = _
  rw [Ideal.hostReduceAdd_single h hR, Ideal.ofBits_zero_f32]
  refine congrArg (0 + ·) (Finset.sum_congr rfl fun k _ => ?_)
  rw [lift_row]; rfl

theorem dot_apply (A : FVec Ideal S32768x3 .f32) (B : FVec Ideal S3x2048 .f32) (r : Fin 32768) (k : Fin 2048) :
    Host.dotGeneral dot_S32768x3_S3x2048_S32768x2048_1_0_0_1_n_n none A B (ix2 r k) = ∑ c : Fin 3, A (ix2 r c) * B (ix2 c k) :=
  StackMember.dotGeneral_plain_apply none A B r k

theorem ofBits_two_f32 : Ideal.ofBits .f32 0x40000000#32 = (2 : EReal) := by
  rw [show (2 : EReal) = ((2 : ℝ) : EReal) by norm_cast]
  simp [Ideal.ofBits, Ideal.ieee, -EReal.coe_mul]; norm_num

theorem Rf_apply (p : FVec Ideal S32768x3 .f32) (g : FVec Ideal S2048x3 .f32) (r : Fin 32768) (q : Fin 1) :
    Rf p g (ix2 r q) = (Finset.univ : Finset (Fin 2048)).fold min (⊤ : EReal) fun k =>
      max (((0 + ∑ c : Fin 3, p (ix2 r c) * p (ix2 r c)) + (0 + ∑ c : Fin 3, g (ix2 k c) * g (ix2 k c)))
        - ∑ c : Fin 3, ((2 : EReal) * p (ix2 r c)) * g (ix2 k c)) 0 := by
  unfold Rf
  refine (bid_col _ _ r q).trans ?_
  refine (Host.reduce_eq_fold_single FloatOps.minimumf _ _ reducesTo_S32768x2048_S32768_d1 red_d h_S_ (ix1 r)).trans ?_
  show Finset.fold min (Ideal.ofBits .f32 0x7F800000#32) _ _ = _
  rw [ofBits_inf_f32]
  refine Finset.fold_congr fun k _ => ?_
  simp only [Function.comp_apply, lift_row, maximumf_apply, subf_apply, addf_apply, mulf_apply, dot_apply]
  rw [bid_col_full _ _ r ⟨k.val, k.isLt⟩, broadcastInDim_oneRow_apply (n := 2048) _ _ r ⟨k.val, k.isLt⟩, bid_col _ _ r 0, bid_row _ _ 0 ⟨k.val, k.isLt⟩,
    broadcastInDim_scalar_apply, norm_apply _ _ red_p, norm_apply _ _ red_g]
  refine congrArg₂ max (congrArg₂ (· - ·) rfl (Finset.sum_congr rfl fun c _ => ?_)) Ideal.ofBits_zero_f32
  rw [broadcastInDim_scalar_apply, transpose_ix2_apply g _ c ⟨k.val, k.isLt⟩]
  show Ideal.ofBits .f32 0x40000000#32 * _ * _ = _
  rw [ofBits_two_f32]
  rfl

end RefSide

-- At real entries both minima run over the same 2048 rows, and each pair of rows contributes the same number.
theorem G_eq_Rf (p : KernelIdeal.S32768x3.Idx → EReal) (g : KernelIdeal.S2048x3.Idx → EReal)
    (hp : Cert.Hand.RealValued p) (hg : Cert.Hand.RealValued g) : G p g = Rf p g := by
  funext i
  obtain ⟨r, q, rfl⟩ : ∃ (r : Fin 32768) (q : Fin 1), i = ix2 r q := ⟨i 0, i 1, eq_ix2 i⟩
  refine Eq.trans ?_ (Rf_apply p g r q).symm
  exact Finset.fold_congr fun k _ => (point_eq _ _ (fun c => hp _) (fun c => hg _)).symm

open Idealize.ShloMosaic.TcCoe Idealize.SL.Sem Idealize.ShloMosaic.StableHlo

-- An array that is G of two real arrays is the reference's term of the same two arrays.
theorem meet {A : KernelIdeal.S32768x1.Idx → EReal} {p p' : KernelIdeal.S32768x3.Idx → EReal} {g g' : KernelIdeal.S2048x3.Idx → EReal}
    (hA : A = G p g) (hp : p = p') (hg : g = g') (hfp : Cert.Hand.RealValued p) (hfg : Cert.Hand.RealValued g) : A = Rf p' g' := by
  subst hp hg
  exact hA.trans (G_eq_Rf _ _ hfp hfg)

theorem blockC1 (V : (c : Dev KernelIdeal.nD) → (b : Ref KernelIdeal.sig .tc) → Buf (Elt Ideal) ((c : Thread KernelIdeal.nD KernelIdeal.τ).loc b))
    (c : Dev KernelIdeal.nD) (V₂ : Valuation ReferenceIdeal.τ ReferenceIdeal.sig (Elt Ideal))
    (hp : HEq (V c KernelIdeal.main_v101) (V₂ (Proc.devRef .tc ReferenceIdeal.main_v117)))
    (hg : HEq (V c KernelIdeal.main_arg9) (V₂ (Proc.devRef .tc ReferenceIdeal.main_arg9)))
    (hfp : Cert.Hand.RealValued (V c KernelIdeal.main_v101 : KernelIdeal.S32768x3.Idx → EReal))
    (hfg : Cert.Hand.RealValued (V c KernelIdeal.main_arg9 : KernelIdeal.S2048x3.Idx → EReal)) :
    HEq ((KernelIdeal.Hand.dat1 (F := Ideal) V c).arrAt 2 KernelIdeal.cfg1.N)
      (StableHlo.after (ReferenceIdeal.ValueP.opsR2 (F := Ideal)) V₂ (Proc.devRef .tc ReferenceIdeal.main_v135)) :=
  (heq_of_eq (meet (arr1 V c) (eq_of_heq hp) (eq_of_heq hg) hfp hfg)).trans (heq_of_eq (by after_results_simp; rfl))

theorem blockC3 (V : (c : Dev KernelIdeal.nD) → (b : Ref KernelIdeal.sig .tc) → Buf (Elt Ideal) ((c : Thread KernelIdeal.nD KernelIdeal.τ).loc b))
    (c : Dev KernelIdeal.nD) (V₂ : Valuation ReferenceIdeal.τ ReferenceIdeal.sig (Elt Ideal))
    (hp : HEq (V c KernelIdeal.main_v210) (V₂ (Proc.devRef .tc ReferenceIdeal.main_v257)))
    (hg : HEq (V c KernelIdeal.main_arg9) (V₂ (Proc.devRef .tc ReferenceIdeal.main_arg9)))
    (hfp : Cert.Hand.RealValued (V c KernelIdeal.main_v210 : KernelIdeal.S32768x3.Idx → EReal))
    (hfg : Cert.Hand.RealValued (V c KernelIdeal.main_arg9 : KernelIdeal.S2048x3.Idx → EReal)) :
    HEq ((KernelIdeal.Hand.dat3 (F := Ideal) V c).arrAt 2 KernelIdeal.cfg3.N)
      (StableHlo.after (ReferenceIdeal.ValueP.opsS2 (F := Ideal)) V₂ (Proc.devRef .tc ReferenceIdeal.main_v275)) :=
  (heq_of_eq (meet (arr3 V c) (eq_of_heq hp) (eq_of_heq hg) hfp hfg)).trans (heq_of_eq (by after_results_simp; rfl))

end Cert.Hand.BlockC
-- ==== Proof.Finite.lean ====
import proofs.«119071_j16140487098675_2_alg».proof.Defs
import proofs.«119071_j16140487098675_2_alg».proof.Proof.Gen.KernelIdeal.Launch
import proofs.«119071_j16140487098675_2_alg».proof.Proof.Common
import Idealize.ShloMosaic.Lib.ReduceAll
import Idealize.ShloMosaic.Lib.ValueIdx
import Idealize.ShloMosaic.Lib.StableHlo.Run
import Idealize.ShloMosaic.PureOps.Ideal.Laws
import Mathlib.Data.EReal.Operations
import Mathlib.Analysis.Real.Sqrt
import Mathlib.Algebra.BigOperators.Group.Finset.Defs
import Mathlib.Tactic.Positivity

noncomputable section

namespace Cert.Hand.Finite

open Idealize.ShloMosaic Idealize.SL.Sem Cert.Hand

def NonnegReal {ι : Type} (x : ι → EReal) : Prop := ∀ i, ∃ r : ℝ, 0 ≤ r ∧ x i = (r : EReal)

def PosReal {ι : Type} (x : ι → EReal) : Prop := ∀ i, ∃ r : ℝ, 0 < r ∧ x i = (r : EReal)

section Closure

variable {s t : Shape} {φ : FTy}

theorem real_addf {x y : FVec Ideal s φ} (hx : RealValued x) (hy : RealValued y) : RealValued (addf x y) := fun i => by
  obtain ⟨a, ha⟩ := hx i
  obtain ⟨b, hb⟩ := hy i
  exact ⟨a + b, by show x i + y i = _; rw [ha, hb, EReal.coe_add]⟩

theorem real_subf {x y : FVec Ideal s φ} (hx : RealValued x) (hy : RealValued y) : RealValued (subf x y) := fun i => by
  obtain ⟨a, ha⟩ := hx i
  obtain ⟨b, hb⟩ := hy i
  exact ⟨a - b, by show x i - y i = _; rw [ha, hb, EReal.coe_sub]⟩

theorem real_mulf {x y : FVec Ideal s φ} (hx : RealValued x) (hy : RealValued y) : RealValued (mulf x y) := fun i => by
  obtain ⟨a, ha⟩ := hx i
  obtain ⟨b, hb⟩ := hy i
  exact ⟨a * b, by show x i * y i = _; rw [ha, hb, EReal.coe_mul]⟩

theorem nonneg_mulf_self {x : FVec Ideal s φ} (hx : RealValued x) : NonnegReal (mulf x x) := fun i => by
  obtain ⟨a, ha⟩ := hx i
  exact ⟨a * a, mul_self_nonneg a, by show x i * x i = _; rw [ha, EReal.coe_mul]⟩

theorem real_maximumf {x y : FVec Ideal s φ} (hx : RealValued x) (hy : RealValued y) : RealValued (maximumf x y) := fun i => by
  obtain ⟨a, ha⟩ := hx i
  obtain ⟨b, hb⟩ := hy i
  exact ⟨max a b, by show max (x i) (y i) = _; rw [ha, hb, EReal.coe_strictMono.monotone.map_max]⟩

theorem real_absf {x : FVec Ideal s φ} (hx : RealValued x) : RealValued (Host.absf x) := fun i => by
  obtain ⟨a, ha⟩ := hx i
  exact ⟨max a (-a), by show max (x i) (-(x i)) = _; rw [ha, ← EReal.coe_neg, EReal.coe_strictMono.monotone.map_max]⟩

-- A broadcast and a gather read, at every index, one entry of their operand.
theorem real_broadcast {x : s.Idx → EReal} (hx : RealValued x) (dims : Fin s.rank → Fin t.rank) (h : s.BroadcastsInDim t dims) :
    RealValued (broadcastInDim t dims h x) := fun _ => hx _

theorem nonneg_broadcast {x : s.Idx → EReal} (hx : NonnegReal x) (dims : Fin s.rank → Fin t.rank) (h : s.BroadcastsInDim t dims) :
    NonnegReal (broadcastInDim t dims h x) := fun _ => hx _

theorem pos_broadcast {x : s.Idx → EReal} (hx : PosReal x) (dims : Fin s.rank → Fin t.rank) (h : s.BroadcastsInDim t dims) :
    PosReal (broadcastInDim t dims h x) := fun _ => hx _

theorem real_gather {si : Shape} {w : Nat} (d : GatherDims s si t) {x : s.Idx → EReal} (hx : RealValued x) (idx : IVec si w) :
    RealValued (Host.gather d x idx) := fun _ => hx _

theorem nonneg_reduceAdd {u : Shape} {axes : List (Fin s.rank)} {x : FVec Ideal s φ} {init : u.Idx → EReal}
    (hx : NonnegReal x) (hi : NonnegReal init) (h : s.ReducesTo axes t) (hu : 0 < u.numel) :
    NonnegReal (Host.reduceAdd x init h hu) := fun j => by
  show ∃ r : ℝ, 0 ≤ r ∧ init (Shape.Idx.first hu) + ∑ i ∈ Finset.univ.filter (fun i => h.drop i = j), x i = r
  obtain ⟨c, hc, ec⟩ := hi (Shape.Idx.first hu)
  obtain ⟨r, hr, er⟩ : ∃ r : ℝ, 0 ≤ r ∧ ∑ i ∈ Finset.univ.filter (fun i => h.drop i = j), x i = (r : EReal) := by
    refine Finset.sum_induction x (fun z => ∃ r : ℝ, 0 ≤ r ∧ z = (r : EReal)) ?_ ⟨0, le_rfl, rfl⟩ (fun i _ => hx i)
    rintro _ _ ⟨a, ha, rfl⟩ ⟨b, hb, rfl⟩
    exact ⟨a + b, add_nonneg ha hb, (EReal.coe_add a b).symm⟩
  exact ⟨c + r, add_nonneg hc hr, by rw [ec, er, EReal.coe_add]⟩

theorem nonneg_sqrt {x : FVec Ideal s φ} (hx : NonnegReal x) : NonnegReal (Host.sqrt x) := fun i => by
  obtain ⟨a, ha, ea⟩ := hx i
  refine ⟨Real.sqrt a, Real.sqrt_nonneg a, ?_⟩
  show Ideal.sqrt (x i) = _
  rw [ea]
  exact if_neg (not_lt.2 ha)

theorem pos_addf {x y : FVec Ideal s φ} (hx : NonnegReal x) (hy : PosReal y) : PosReal (addf x y) := fun i => by
  obtain ⟨a, ha, ea⟩ := hx i
  obtain ⟨b, hb, eb⟩ := hy i
  exact ⟨a + b, add_pos_of_nonneg_of_pos ha hb, by show x i + y i = _; rw [ea, eb, EReal.coe_add]⟩

theorem real_divf {x y : FVec Ideal s φ} (hx : RealValued x) (hy : PosReal y) : RealValued (Host.divf x y) := fun i => by
  obtain ⟨a, ea⟩ := hx i
  obtain ⟨b, hb, eb⟩ := hy i
  exact ⟨a * (1 / b), by show Ideal.div (x i) (y i) = _; rw [ea, eb, Ideal.div_coe (ne_of_gt hb), EReal.coe_mul]⟩

end Closure

-- A binary32 pattern whose exponent field is not all ones denotes a real number.
theorem real_constant (s : Shape) (b : BitVec 32) (h : (b.extractLsb' 23 8).toNat ≠ 2 ^ 8 - 1) :
    RealValued (constant (F := Ideal) s .f32 b) := fun _ => by
  show ∃ r : ℝ, Ideal.ieee 8 23 b = (r : EReal)
  simp only [Ideal.ieee, if_neg h]
  split <;> exact ⟨_, rfl⟩

-- With the sign bit clear and the exponent field not zero either, a positive one.
theorem pos_constant (s : Shape) (b : BitVec 32) (hs : (b.extractLsb' (8 + 23) 1 == 1#1) = false)
    (h : (b.extractLsb' 23 8).toNat ≠ 2 ^ 8 - 1) (h0 : (b.extractLsb' 23 8).toNat ≠ 0) :
    PosReal (constant (F := Ideal) s .f32 b) := fun _ => by
  show ∃ r : ℝ, 0 < r ∧ Ideal.ieee 8 23 b = (r : EReal)
  simp only [Ideal.ieee, if_neg h, if_neg h0, hs, Bool.false_eq_true, if_false]
  exact ⟨_, by positivity, rfl⟩

theorem nonneg_constant_zero (s : Shape) : NonnegReal (constant (F := Ideal) s .f32 0x00000000#32) := fun _ =>
  ⟨0, le_rfl, Ideal.ofBits_zero_f32⟩

-- An extended real whose absolute value is below +∞ is a real number.
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] bc (constant Cert.Pre_finite_inputs.S_ .f32 0x7F800000#32)))
          init hr hu ValueIdx.ix0 = 1#1) :
    RealValued x := fun i => by
  haveI : Subsingleton Cert.Pre_finite_inputs.S_.Idx := ⟨fun a b => funext fun d => d.elim0⟩
  exact real_of_abs_lt_inf (x i) (Host.reduce_andi_all _ init hr hu ValueIdx.ix0 e i)

section Args

variable [Cert.Pre_finite_inputs.Facts]

open Cert.KernelIdeal

variable (m : (ℓ : Loc nD τ sig) → Buf (Elt Ideal) ℓ) (h : Cert.Pre_KernelIdeal m) (c : Dev nD)
include h

-- The precondition's conjuncts for the six float arguments the radar terms read.
theorem args_real :
    RealValued (m ((c.tc : Thread nD τ).loc main_arg4) : S32768x3.Idx → EReal)
    ∧ RealValued (m ((c.tc : Thread nD τ).loc main_arg5) : S32768x4.Idx → EReal)
    ∧ RealValued (m ((c.tc : Thread nD τ).loc main_arg7) : S32768x3.Idx → EReal)
    ∧ RealValued (m ((c.tc : Thread nD τ).loc main_arg8) : S32768x4.Idx → EReal)
    ∧ RealValued (m ((c.tc : Thread nD τ).loc main_arg9) : S2048x3.Idx → EReal)
    ∧ RealValued (m ((c.tc : Thread nD τ).loc main_arg10) : S8.Idx → EReal) := by
  have h0 := congrFun (h c) ValueIdx.ix0
  dsimp only [Cert.Pre_finite_inputs.fn, Cert.Pre_finite_inputs.fn_part1, Cert.Pre_finite_inputs.fn_part2, Cert.Pre_finite_inputs.fn_part3] at h0
  obtain ⟨h48, h52⟩ := IntOp.andi_eq_one.1 h0
  obtain ⟨h43, h47⟩ := IntOp.andi_eq_one.1 h48
  obtain ⟨h38, h42⟩ := IntOp.andi_eq_one.1 h43
  obtain ⟨h33, h37⟩ := IntOp.andi_eq_one.1 h38
  obtain ⟨h28, -⟩ := IntOp.andi_eq_one.1 h33
  obtain ⟨h23, h27⟩ := IntOp.andi_eq_one.1 h28
  obtain ⟨-, h22⟩ := IntOp.andi_eq_one.1 h23
  exact ⟨real_of_all _ _ _ _ _ h22, real_of_all _ _ _ _ _ h27, real_of_all _ _ _ _ _ h37,
    real_of_all _ _ _ _ _ h42, real_of_all _ _ _ _ _ h47, real_of_all _ _ _ _ _ h52⟩

theorem arg_real_4 : RealValued (m ((c.tc : Thread nD τ).loc main_arg4) : S32768x3.Idx → EReal) := (args_real m h c).1

theorem arg_real_5 : RealValued (m ((c.tc : Thread nD τ).loc main_arg5) : S32768x4.Idx → EReal) := (args_real m h c).2.1

theorem arg_real_7 : RealValued (m ((c.tc : Thread nD τ).loc main_arg7) : S32768x3.Idx → EReal) := (args_real m h c).2.2.1

theorem arg_real_8 : RealValued (m ((c.tc : Thread nD τ).loc main_arg8) : S32768x4.Idx → EReal) := (args_real m h c).2.2.2.1

theorem arg_real_9 : RealValued (m ((c.tc : Thread nD τ).loc main_arg9) : S2048x3.Idx → EReal) := (args_real m h c).2.2.2.2.1

theorem arg_real_10 : RealValued (m ((c.tc : Thread nD τ).loc main_arg10) : S8.Idx → EReal) := (args_real m h c).2.2.2.2.2

end Args

open Cert.KernelIdeal Cert.KernelIdeal.Gen Idealize.ShloMosaic.StableHlo

-- The predicted point is position + |speed| · (move / (‖move‖ + ε)) · max(floor, dt) with move a difference of positions and ε > 0: real when the arguments are.
set_option maxHeartbeats 1600000 in
theorem pred1_real (V₁ : Valuation Cert.KernelIdeal.τ Cert.KernelIdeal.sig (Elt Ideal))
    (h4 : RealValued (V₁ (Proc.devRef .tc Cert.KernelIdeal.main_arg4) : Cert.KernelIdeal.S32768x3.Idx → EReal))
    (h5 : RealValued (V₁ (Proc.devRef .tc Cert.KernelIdeal.main_arg5) : Cert.KernelIdeal.S32768x4.Idx → EReal))
    (h10 : RealValued (V₁ (Proc.devRef .tc Cert.KernelIdeal.main_arg10) : Cert.KernelIdeal.S8.Idx → EReal)) :
    RealValued (StableHlo.after Cert.KernelIdeal.Gen.hostOps1_4 (StableHlo.after Cert.KernelIdeal.Gen.hostOps1_3 (StableHlo.after Cert.KernelIdeal.Gen.hostOps1_2
      (StableHlo.after Cert.KernelIdeal.Gen.hostOps1_1 (StableHlo.after Cert.KernelIdeal.Gen.hostOps1 V₁)))) (Proc.devRef .tc Cert.KernelIdeal.main_v101) :
      Cert.KernelIdeal.S32768x3.Idx → EReal) := by
  after_results_simp
  exact real_addf (real_gather _ h4 _) (real_mulf (real_mulf (real_broadcast (real_absf (real_gather _ h5 _)) _ _)
    (real_divf (real_subf (real_gather _ h4 _) (real_gather _ h4 _)) (pos_broadcast (pos_addf (nonneg_sqrt (nonneg_broadcast (nonneg_reduceAdd
      (nonneg_mulf_self (real_subf (real_gather _ h4 _) (real_gather _ h4 _))) (nonneg_constant_zero S_) reducesTo_S32768x3_S32768_d1 h_S_) ![0] bcast_S32768_S32768x1_0))
      (pos_broadcast (pos_constant S_ _ (by decide) (by decide) (by decide)) ![] bcast_S_S32768x1)) _ _)))
    (real_broadcast (real_gather _ (real_broadcast (real_maximumf (real_broadcast (real_constant S_ _ (by decide)) ![] bcast_S_S32768)
      (real_gather _ h10 _)) _ _) _) _ _))

set_option maxHeartbeats 1600000 in
theorem pred2_real (V₁ : Valuation Cert.KernelIdeal.τ Cert.KernelIdeal.sig (Elt Ideal))
    (h4 : RealValued (V₁ (Proc.devRef .tc Cert.KernelIdeal.main_arg7) : Cert.KernelIdeal.S32768x3.Idx → EReal))
    (h5 : RealValued (V₁ (Proc.devRef .tc Cert.KernelIdeal.main_arg8) : Cert.KernelIdeal.S32768x4.Idx → EReal))
    (h10 : RealValued (V₁ (Proc.devRef .tc Cert.KernelIdeal.main_arg10) : Cert.KernelIdeal.S8.Idx → EReal)) :
    RealValued (StableHlo.after Cert.KernelIdeal.Gen.hostOps3_4 (StableHlo.after Cert.KernelIdeal.Gen.hostOps3_3 (StableHlo.after Cert.KernelIdeal.Gen.hostOps3_2
      (StableHlo.after Cert.KernelIdeal.Gen.hostOps3_1 (StableHlo.after Cert.KernelIdeal.Gen.hostOps3 V₁)))) (Proc.devRef .tc Cert.KernelIdeal.main_v210) :
      Cert.KernelIdeal.S32768x3.Idx → EReal) := by
  after_results_simp
  exact real_addf (real_gather _ h4 _) (real_mulf (real_mulf (real_broadcast (real_absf (real_gather _ h5 _)) _ _)
    (real_divf (real_subf (real_gather _ h4 _) (real_gather _ h4 _)) (pos_broadcast (pos_addf (nonneg_sqrt (nonneg_broadcast (nonneg_reduceAdd
      (nonneg_mulf_self (real_subf (real_gather _ h4 _) (real_gather _ h4 _))) (nonneg_constant_zero S_) reducesTo_S32768x3_S32768_d1 h_S_) ![0] bcast_S32768_S32768x1_0))
      (pos_broadcast (pos_constant S_ _ (by decide) (by decide) (by decide)) ![] bcast_S_S32768x1)) _ _)))
    (real_broadcast (real_gather _ (real_broadcast (real_maximumf (real_broadcast (real_constant S_ _ (by decide)) ![] bcast_S_S32768)
      (real_gather _ h10 _)) _ _) _) _ _))

end Cert.Hand.Finite
-- ==== Proof.LibScatterCols.lean ====
import Idealize.ShloMosaic.PureOps.Ideal
import Idealize.ShloMosaic.Lib.ValueIdx
import Idealize.ShloMosaic.Lib.ValueIdxRank1

namespace Idealize.ShloMosaic.ScatterCols

open Idealize.ShloMosaic Idealize.ShloMosaic.ValueIdx

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    refine ⟨?_, fun hi => funext fun a => Fin.ext ?_⟩
    · rintro rfl a
      simp only [Int.toNat_of_nonneg (h a).1]
    · have := hi a
      have := (h a).1
      simp only
      omega
  · exact ⟨nofun, fun hi => absurd (fun a => ⟨by rw [hi a]; exact Int.natCast_nonneg _, by rw [hi a]; exact_mod_cast (i a).isLt⟩) h⟩

abbrev colsDims (n E C : Nat) (wf : ScatterDims.WF ⟨2, ![n, C]⟩ ⟨2, ![E, 1]⟩ ⟨2, ![E, C]⟩ [1] [0] [0] 1) :
    ScatterDims ⟨2, ![n, C]⟩ ⟨2, ![E, 1]⟩ ⟨2, ![E, C]⟩ where
  updateWindowDims := [1]
  insertedWindowDims := [0]
  scatterDimsToOperandDims := [0]
  indexVectorDim := 1
  wf := wf

abbrev flatDims (n E : Nat) (wf : ScatterDims.WF ⟨1, ![n]⟩ ⟨2, ![E, 1]⟩ ⟨1, ![E]⟩ [] [0] [0] 1) :
    ScatterDims ⟨1, ![n]⟩ ⟨2, ![E, 1]⟩ ⟨1, ![E]⟩ where
  updateWindowDims := []
  insertedWindowDims := [0]
  scatterDimsToOperandDims := [0]
  indexVectorDim := 1
  wf := wf

section Cols

variable {n E C w : Nat} (wf : ScatterDims.WF ⟨2, ![n, C]⟩ ⟨2, ![E, 1]⟩ ⟨2, ![E, C]⟩ [1] [0] [0] 1)

theorem cols_start0 (e : Fin E) (c : Fin C) (idx : IVec ⟨2, ![E, 1]⟩ w) :
    (colsDims n E C wf).start (ix2 e c) idx 0 = (idx (ix2 e 0)).toInt := by
  unfold ScatterDims.start
  rw [dif_pos (show (0 : Fin 2) ∈ (colsDims n E C wf).scatterDimsToOperandDims from List.mem_singleton.mpr rfl)]
  congr 2
  funext b
  refine Fin.ext ?_
  match b with
  | ⟨0, _⟩ => rfl
  | ⟨1, _⟩ => rfl

theorem cols_start1 (e : Fin E) (c : Fin C) (idx : IVec ⟨2, ![E, 1]⟩ w) :
    (colsDims n E C wf).start (ix2 e c) idx 1 = 0 := by
  unfold ScatterDims.start
  exact dif_neg (by decide : ¬ (1 : Fin 2) ∈ ([0] : List (Fin 2)))

theorem cols_window0 (e : Fin E) (c : Fin C) : (colsDims n E C wf).window (ix2 e c) 0 = 0 := by
  unfold ScatterDims.window
  exact dif_neg (by decide : ¬ (0 : Fin 2) ∈ (List.finRange 2).filter (fun a => a ∉ ([0] : List (Fin 2))))

theorem cols_window1 (e : Fin E) (c : Fin C) : (colsDims n E C wf).window (ix2 e c) 1 = c.val := by
  unfold ScatterDims.window
  exact dif_pos (by decide : (1 : Fin 2) ∈ (List.finRange 2).filter (fun a => a ∉ ([0] : List (Fin 2))))

theorem cols_resultIdx (e : Fin E) (c : Fin C) (idx : IVec ⟨2, ![E, 1]⟩ w) (i : Fin n) (c' : Fin C) :
    (colsDims n E C wf).resultIdx? (ix2 e c) idx = some (ix2 i c') ↔ (idx (ix2 e 0)).toInt = (i.val : ℤ) ∧ c = c' := by
  rw [resultIdx?_eq_some_iff]
  show (∀ a : Fin 2, _) ↔ _
  rw [Fin.forall_fin_two]
  rw [cols_start0, cols_start1, cols_window0, cols_window1]
  show ((idx (ix2 e 0)).toInt + ((0 : ℕ) : ℤ) = ((i.val : ℕ) : ℤ) ∧ (0 : ℤ) + ((c.val : ℕ) : ℤ) = ((c'.val : ℕ) : ℤ)) ↔ _
  constructor
  · rintro ⟨h1, h2⟩
    exact ⟨by omega, Fin.ext (by omega)⟩
  · rintro ⟨h1, rfl⟩
    exact ⟨by omega, by omega⟩

theorem cols_apply (x : (⟨2, ![n, C]⟩ : Shape).Idx → EReal) (idx : IVec ⟨2, ![E, 1]⟩ w)
    (upd : (⟨2, ![E, C]⟩ : Shape).Idx → EReal) (i : Fin n) (c : Fin C) :
    Ideal.hostScatterAdd (colsDims n E C wf) x idx upd (ix2 i c)
      = x (ix2 i c) + ∑ e ∈ Finset.univ.filter (fun e : Fin E => (idx (ix2 e 0)).toInt = (i.val : ℤ)), upd (ix2 e c) := by
  unfold Ideal.hostScatterAdd
  congr 1
  rw [Finset.sum_filter, sum_idx2, Finset.sum_filter]
  refine Finset.sum_congr rfl fun e _ => ?_
  simp only [cols_resultIdx]
  by_cases h : (idx (ix2 e 0)).toInt = (i.val : ℤ)
  · simp only [h, true_and, if_true]
    rw [Finset.sum_ite_eq' Finset.univ c (fun c' => upd (ix2 e c'))]
    simp only [Finset.mem_univ, if_true]
  · simp only [h, false_and, if_false, Finset.sum_const_zero]

end Cols

section Flat

variable {n E w : Nat} (wf : ScatterDims.WF ⟨1, ![n]⟩ ⟨2, ![E, 1]⟩ ⟨1, ![E]⟩ [] [0] [0] 1)

theorem flat_start0 (e : Fin E) (idx : IVec ⟨2, ![E, 1]⟩ w) :
    (flatDims n E wf).start (ix1 e) idx 0 = (idx (ix2 e 0)).toInt := by
  unfold ScatterDims.start
  rw [dif_pos (show (0 : Fin 1) ∈ (flatDims n E wf).scatterDimsToOperandDims from List.mem_singleton.mpr rfl)]
  congr 2
  funext b
  refine Fin.ext ?_
  match b with
  | ⟨0, _⟩ => rfl
  | ⟨1, _⟩ => rfl

theorem flat_window0 (e : Fin E) : (flatDims n E wf).window (ix1 e) 0 = 0 := by
  unfold ScatterDims.window
  exact dif_neg (by decide : ¬ (0 : Fin 1) ∈ (List.finRange 1).filter (fun a => a ∉ ([0] : List (Fin 1))))

theorem flat_resultIdx (e : Fin E) (idx : IVec ⟨2, ![E, 1]⟩ w) (i : Fin n) :
    (flatDims n E wf).resultIdx? (ix1 e) idx = some (ix1 i) ↔ (idx (ix2 e 0)).toInt = (i.val : ℤ) := by
  rw [resultIdx?_eq_some_iff]
  show (∀ a : Fin 1, _) ↔ _
  rw [Fin.forall_fin_one]
  rw [flat_start0, flat_window0]
  show ((idx (ix2 e 0)).toInt + ((0 : ℕ) : ℤ) = ((i.val : ℕ) : ℤ)) ↔ _
  constructor <;> intro h <;> omega

theorem sum_idx1 {M : Type*} [AddCommMonoid M] {m : Nat} (f : (⟨1, ![m]⟩ : Shape).Idx → M) :
    ∑ j, f j = ∑ a : Fin m, f (ix1 a) :=
  (Equiv.sum_comp (idxEquiv1 (n := m)).symm f).symm

theorem flat_apply (x : (⟨1, ![n]⟩ : Shape).Idx → EReal) (idx : IVec ⟨2, ![E, 1]⟩ w)
    (upd : (⟨1, ![E]⟩ : Shape).Idx → EReal) (i : Fin n) :
    Ideal.hostScatterAdd (flatDims n E wf) x idx upd (ix1 i)
      = x (ix1 i) + ∑ e ∈ Finset.univ.filter (fun e : Fin E => (idx (ix2 e 0)).toInt = (i.val : ℤ)), upd (ix1 e) := by
  unfold Ideal.hostScatterAdd
  congr 1
  rw [Finset.sum_filter, sum_idx1, Finset.sum_filter]
  refine Finset.sum_congr rfl fun e _ => ?_
  simp only [flat_resultIdx]

end Flat

section Law

variable {n E C C' w : Nat}

theorem cols_eq_flat (wfP : ScatterDims.WF ⟨2, ![n, C]⟩ ⟨2, ![E, 1]⟩ ⟨2, ![E, C]⟩ [1] [0] [0] 1)
    (wfF : ScatterDims.WF ⟨1, ![n]⟩ ⟨2, ![E, 1]⟩ ⟨1, ![E]⟩ [] [0] [0] 1)
    (xP : (⟨2, ![n, C]⟩ : Shape).Idx → EReal) (xF : (⟨1, ![n]⟩ : Shape).Idx → EReal) (idx : IVec ⟨2, ![E, 1]⟩ w)
    (updP : (⟨2, ![E, C]⟩ : Shape).Idx → EReal) (updF : (⟨1, ![E]⟩ : Shape).Idx → EReal) (i : Fin n) (k : Fin C)
    (hx : xP (ix2 i k) = xF (ix1 i)) (hu : ∀ e, updP (ix2 e k) = updF (ix1 e)) :
    Ideal.hostScatterAdd (colsDims n E C wfP) xP idx updP (ix2 i k)
      = Ideal.hostScatterAdd (flatDims n E wfF) xF idx updF (ix1 i) := by
  rw [cols_apply, flat_apply, hx]
  exact congrArg _ (Finset.sum_congr rfl fun e _ => hu e)

theorem cols_eq_cols (wfP : ScatterDims.WF ⟨2, ![n, C]⟩ ⟨2, ![E, 1]⟩ ⟨2, ![E, C]⟩ [1] [0] [0] 1)
    (wfQ : ScatterDims.WF ⟨2, ![n, C']⟩ ⟨2, ![E, 1]⟩ ⟨2, ![E, C']⟩ [1] [0] [0] 1)
    (xP : (⟨2, ![n, C]⟩ : Shape).Idx → EReal) (xQ : (⟨2, ![n, C']⟩ : Shape).Idx → EReal) (idx : IVec ⟨2, ![E, 1]⟩ w)
    (updP : (⟨2, ![E, C]⟩ : Shape).Idx → EReal) (updQ : (⟨2, ![E, C']⟩ : Shape).Idx → EReal) (i : Fin n) (k : Fin C) (k' : Fin C')
    (hx : xP (ix2 i k) = xQ (ix2 i k')) (hu : ∀ e, updP (ix2 e k) = updQ (ix2 e k')) :
    Ideal.hostScatterAdd (colsDims n E C wfP) xP idx updP (ix2 i k)
      = Ideal.hostScatterAdd (colsDims n E C' wfQ) xQ idx updQ (ix2 i k') := by
  rw [cols_apply, cols_apply, hx]
  exact congrArg _ (Finset.sum_congr rfl fun e _ => hu e)

end Law

end Idealize.ShloMosaic.ScatterCols
-- ==== Proof.BlockA.lean ====
import proofs.«119071_j16140487098675_2_alg».proof.Proof.RefOps
import proofs.«119071_j16140487098675_2_alg».proof.Proof.Gen.KernelIdeal.Launch
import proofs.«119071_j16140487098675_2_alg».proof.Proof.LibAgree
import proofs.«119071_j16140487098675_2_alg».proof.Proof.Common
import proofs.«119071_j16140487098675_2_alg».proof.Proof.LibScatterCols
import Idealize.ShloMosaic.Lib.Pipeline.Value
import Idealize.ShloMosaic.Lib.ValueLayout
import Idealize.ShloMosaic.Lib.IdealHost

open Idealize.ShloMosaic Idealize.ShloMosaic.StableHlo Idealize.ShloMosaic.ValueIdx Idealize.ShloMosaic.ScatterCols Idealize.SL.Sem

noncomputable section

namespace Cert.Hand.BlockA

section Pointwise
variable {α : Type}

theorem bcast_col_apply {n c : Nat} (hn : n ≠ 1) (x : (⟨2, ![n, 1]⟩ : Shape).Idx → α)
    (h : (⟨2, ![n, 1]⟩ : Shape).BroadcastsInDim ⟨2, ![n, c]⟩ ![0, 1]) (i : Fin n) (k : Fin c) :
    broadcastInDim ⟨2, ![n, c]⟩ ![0, 1] h x (ix2 i k) = x (ix2 i 0) :=
  broadcastInDim_apply _ h x _ _ fun a => by
    match a with
    | ⟨0, _⟩ => exact (if_neg hn).symm
    | ⟨1, _⟩ => rfl

theorem bcast_flat_apply {n : Nat} (hn : n ≠ 1) (x : (⟨1, ![n]⟩ : Shape).Idx → α)
    (h : (⟨1, ![n]⟩ : Shape).BroadcastsInDim ⟨2, ![n, 1]⟩ ![0]) (i : Fin n) :
    broadcastInDim ⟨2, ![n, 1]⟩ ![0] h x (ix2 i 0) = x (ix1 i) :=
  broadcastInDim_apply _ h x _ _ fun a => by
    match a with
    | ⟨0, _⟩ => exact (if_neg hn).symm

variable {E : Nat} (x0 : (⟨2, ![E, 1]⟩ : Shape).Idx → α) (x1 : (⟨2, ![E, 3]⟩ : Shape).Idx → α)
  (x2 : (⟨2, ![E, 1]⟩ : Shape).Idx → α)
  (h : Shape.Concatenates ([(⟨⟨2, ![E, 1]⟩, x0⟩ : (s : Shape) × (s.Idx → α)), ⟨⟨2, ![E, 3]⟩, x1⟩, ⟨⟨2, ![E, 1]⟩, x2⟩].map (·.1)) ⟨2, ![E, 5]⟩ 1)

-- Column c of [x0 | x1 | x2] is column c of x0, c - 1 of x1, or c - 4 of x2.
theorem concat131_apply0 (e : Fin E) :
    concatenate ⟨2, ![E, 5]⟩ 1 [⟨⟨2, ![E, 1]⟩, x0⟩, ⟨⟨2, ![E, 3]⟩, x1⟩, ⟨⟨2, ![E, 1]⟩, x2⟩] h (ix2 e 0) = x0 (ix2 e 0) :=
  concatenate_apply_piece (t := ⟨2, ![E, 5]⟩) (1 : Fin 2) _ h _ 0 (show (0 : Nat) < 3 by decide) _ x0 rfl rfl 0 rfl (ix2 e 0)
    (fun b hb => by match b with | ⟨0, _⟩ => rfl | ⟨1, _⟩ => exact absurd (Fin.ext rfl) hb) rfl

theorem concat131_apply1 (e : Fin E) (k : Fin 3) (hk : 1 + k.val < 5) :
    concatenate ⟨2, ![E, 5]⟩ 1 [⟨⟨2, ![E, 1]⟩, x0⟩, ⟨⟨2, ![E, 3]⟩, x1⟩, ⟨⟨2, ![E, 1]⟩, x2⟩] h (ix2 e ⟨1 + k.val, hk⟩) = x1 (ix2 e k) :=
  concatenate_apply_piece (t := ⟨2, ![E, 5]⟩) (1 : Fin 2) _ h _ 1 (show (1 : Nat) < 3 by decide) _ x1 rfl rfl 1 rfl (ix2 e k)
    (fun b hb => by match b with | ⟨0, _⟩ => rfl | ⟨1, _⟩ => exact absurd (Fin.ext rfl) hb) rfl

theorem concat131_apply2 (e : Fin E) :
    concatenate ⟨2, ![E, 5]⟩ 1 [⟨⟨2, ![E, 1]⟩, x0⟩, ⟨⟨2, ![E, 3]⟩, x1⟩, ⟨⟨2, ![E, 1]⟩, x2⟩] h (ix2 e 4) = x2 (ix2 e 0) :=
  concatenate_apply_piece (t := ⟨2, ![E, 5]⟩) (1 : Fin 2) _ h _ 2 (show (2 : Nat) < 3 by decide) _ x2 rfl rfl 4 rfl (ix2 e 0)
    (fun b hb => by match b with | ⟨0, _⟩ => rfl | ⟨1, _⟩ => exact absurd (Fin.ext rfl) hb) rfl

end Pointwise

section Kernel
open Cert.KernelIdeal Cert.KernelIdeal.Gen

def kRows (src : IVec S2097152 32) : IVec S2097152x1 32 :=
  broadcastInDim S2097152x1 ![0] bcast_S2097152_S2097152x1_0
    (select (cmpi .slt src (broadcastInDim S2097152 ![] bcast_S_S2097152 (constantI S_ 32 0#32)))
      (addi src (broadcastInDim S2097152 ![] bcast_S_S2097152 (constantI S_ 32 131072#32))) src)
def kPosE (pos : FVec Ideal S131072x3 .f32) (src : IVec S2097152 32) : FVec Ideal S2097152x3 .f32 :=
  Host.gather gather_S131072x3_S2097152x1_S2097152x3_1_0_n_n_0_1_13 pos (kRows src)
def kInt (x : FVec Ideal S131072x4 .f32) : FVec Ideal S131072x1 .f32 :=
  extractStridedSlice S131072x1 ![0, 2] x slices_S131072x4_S131072x1_0_2
def kIntE (x : FVec Ideal S131072x4 .f32) (src : IVec S2097152 32) : FVec Ideal S2097152x1 .f32 :=
  Host.gather gather_S131072x1_S2097152x1_S2097152x1_1_0_n_n_0_1_11 (kInt x) (kRows src)
-- One scatter-add of the packed payload [1 | pos[src] | intensity[src]] at the rows dst.
def kSum (posE : FVec Ideal S2097152x3 .f32) (intE : FVec Ideal S2097152x1 .f32) (dst : IVec S2097152 32) : FVec Ideal S131072x5 .f32 :=
  Host.scatterAdd (F := Ideal) scatter_S131072x5_S2097152x1_S2097152x5_1_0_0_1
    (broadcastInDim S131072x5 ![] bcast_S_S131072x5 (constant (F := Ideal) S_ .f32 0x00000000#32))
    (broadcastInDim S2097152x1 ![0] bcast_S2097152_S2097152x1_0 dst)
    (concatenate S2097152x5 1 [⟨S2097152x1, broadcastInDim S2097152x1 ![] bcast_S_S2097152x1 (constant (F := Ideal) S_ .f32 0x3F800000#32)⟩,
      ⟨S2097152x3, posE⟩, ⟨S2097152x1, intE⟩] concatenates_S2097152x1_S2097152x3_S2097152x1_S2097152x5_d1)
def kCount (s : FVec Ideal S131072x5 .f32) : FVec Ideal S131072x1 .f32 :=
  maximumf (extractStridedSlice S131072x1 ![0, 0] s slices_S131072x5_S131072x1_0_0)
    (broadcastInDim S131072x1 ![] bcast_S_S131072x1 (constant (F := Ideal) S_ .f32 0x3F800000#32))
def kMeanPos (s : FVec Ideal S131072x5 .f32) : FVec Ideal S131072x3 .f32 :=
  Host.divf (extractStridedSlice S131072x3 ![0, 1] s slices_S131072x5_S131072x3_0_1)
    (broadcastInDim S131072x3 ![0, 1] bcast_S131072x1_S131072x3_0_1 (kCount s))
def kMeanInt (s : FVec Ideal S131072x5 .f32) : FVec Ideal S131072x1 .f32 :=
  Host.divf (extractStridedSlice S131072x1 ![0, 4] s slices_S131072x5_S131072x1_0_4) (kCount s)

theorem kernel_results (V : Valuation τ sig (Elt Ideal)) :
    after (hostOps0 (F := Ideal)) V (Proc.devRef .tc main_v25)
        = kMeanPos (kSum (kPosE (V (Proc.devRef .tc main_arg1)) (V (Proc.devRef .tc main_arg11)))
            (kIntE (V (Proc.devRef .tc main_arg2)) (V (Proc.devRef .tc main_arg11))) (V (Proc.devRef .tc main_arg12)))
    ∧ after (hostOps0 (F := Ideal)) V (Proc.devRef .tc main_v0) = kInt (V (Proc.devRef .tc main_arg2))
    ∧ after (hostOps0 (F := Ideal)) V (Proc.devRef .tc main_v27)
        = kMeanInt (kSum (kPosE (V (Proc.devRef .tc main_arg1)) (V (Proc.devRef .tc main_arg11)))
            (kIntE (V (Proc.devRef .tc main_arg2)) (V (Proc.devRef .tc main_arg11))) (V (Proc.devRef .tc main_arg12))) := by
  after_results_simp
  exact ⟨rfl, rfl, rfl⟩

end Kernel

section Reference
open Cert.ReferenceIdeal Cert.ReferenceIdeal.Gen Cert.ReferenceIdeal.ValueP

def rCnt (dst : IVec S2097152 32) : FVec Ideal S131072 .f32 :=
  Host.scatterAdd (F := Ideal) scatter_S131072_S2097152x1_S2097152_n_0_0_1
    (broadcastInDim S131072 ![] bcast_S_S131072 (constant (F := Ideal) S_ .f32 0x00000000#32))
    (broadcastInDim S2097152x1 ![0] bcast_S2097152_S2097152x1_0 dst)
    (broadcastInDim S2097152 ![] bcast_S_S2097152 (constant (F := Ideal) S_ .f32 0x3F800000#32))
def rCount (dst : IVec S2097152 32) : FVec Ideal S131072x1 .f32 :=
  broadcastInDim S131072x1 ![0] bcast_S131072_S131072x1_0
    (maximumf (rCnt dst) (broadcastInDim S131072 ![] bcast_S_S131072 (constant (F := Ideal) S_ .f32 0x3F800000#32)))
def rSum3 (posE : FVec Ideal S2097152x3 .f32) (dst : IVec S2097152 32) : FVec Ideal S131072x3 .f32 :=
  Host.scatterAdd (F := Ideal) scatter_S131072x3_S2097152x1_S2097152x3_1_0_0_1
    (broadcastInDim S131072x3 ![] bcast_S_S131072x3 (constant (F := Ideal) S_ .f32 0x00000000#32))
    (broadcastInDim S2097152x1 ![0] bcast_S2097152_S2097152x1_0 dst) posE
def rMeanPos (posE : FVec Ideal S2097152x3 .f32) (dst : IVec S2097152 32) : FVec Ideal S131072x3 .f32 :=
  Host.divf (rSum3 posE dst) (broadcastInDim S131072x3 ![0, 1] bcast_S131072x1_S131072x3_0_1 (rCount dst))
def rSum1 (intE : FVec Ideal S2097152x1 .f32) (dst : IVec S2097152 32) : FVec Ideal S131072x1 .f32 :=
  Host.scatterAdd (F := Ideal) scatter_S131072x1_S2097152x1_S2097152x1_1_0_0_1
    (broadcastInDim S131072x1 ![] bcast_S_S131072x1 (constant (F := Ideal) S_ .f32 0x00000000#32))
    (broadcastInDim S2097152x1 ![0] bcast_S2097152_S2097152x1_0 dst) intE
def rMeanInt (intE : FVec Ideal S2097152x1 .f32) (dst : IVec S2097152 32) : FVec Ideal S131072x1 .f32 :=
  Host.divf (rSum1 intE dst) (rCount dst)

abbrev refAfter (V : Valuation τ sig (Elt Ideal)) : Valuation τ sig (Elt Ideal) :=
  after (opsL6 (F := Ideal)) (after (opsL5 (F := Ideal)) (after (opsL4 (F := Ideal)) (after (opsL3 (F := Ideal))
    (after (opsL2 (F := Ideal)) (after (opsL1 (F := Ideal)) V)))))

-- The reference gathers the same positions and intensities as the kernel: its results in the kernel's terms.
theorem reference_results (V : Valuation τ sig (Elt Ideal)) :
    refAfter V (Proc.devRef .tc main_v19)
        = rMeanPos (kPosE (V (Proc.devRef .tc main_arg1)) (V (Proc.devRef .tc main_arg11))) (V (Proc.devRef .tc main_arg12))
    ∧ refAfter V (Proc.devRef .tc main_v20) = kInt (V (Proc.devRef .tc main_arg2))
    ∧ refAfter V (Proc.devRef .tc main_v31)
        = rMeanInt (kIntE (V (Proc.devRef .tc main_arg2)) (V (Proc.devRef .tc main_arg11))) (V (Proc.devRef .tc main_arg12)) := by
  after_results_simp
  exact ⟨rfl, rfl, rfl⟩

end Reference

section Value

theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

attribute [local irreducible] Ideal.hostScatterAdd

variable (posE : FVec Ideal ⟨2, ![2097152, 3]⟩ .f32) (intE : FVec Ideal ⟨2, ![2097152, 1]⟩ .f32) (dst : IVec ⟨1, ![2097152]⟩ 32)

-- Which edges land on a row does not depend on the column: the packed sum is, column by column, the three separate sums.
theorem sum_count (i : Fin 131072) : kSum posE intE dst (ix2 i 0) = rCnt dst (ix1 i) := by
  unfold kSum rCnt
  rw [scatterAdd_ideal, scatterAdd_ideal]
  exact cols_eq_flat (n := 131072) (E := 2097152) (C := 5) _ _ _ _ _ _ _ i 0 rfl fun e => concat131_apply0 _ _ _ _ e

theorem sum_pos (i : Fin 131072) (k : Fin 3) (hk : 1 + k.val < 5) :
    kSum posE intE dst (ix2 i ⟨1 + k.val, hk⟩) = rSum3 posE dst (ix2 i k) := by
  unfold kSum rSum3
  rw [scatterAdd_ideal, scatterAdd_ideal]
  exact cols_eq_cols (n := 131072) (E := 2097152) (C := 5) (C' := 3) _ _ _ _ _ _ _ i _ k rfl fun e => concat131_apply1 _ _ _ _ e k _

theorem sum_int (i : Fin 131072) : kSum posE intE dst (ix2 i 4) = rSum1 intE dst (ix2 i 0) := by
  unfold kSum rSum1
  rw [scatterAdd_ideal, scatterAdd_ideal]
  exact cols_eq_cols (n := 131072) (E := 2097152) (C := 5) (C' := 1) _ _ _ _ _ _ _ i 4 0 rfl fun e => concat131_apply2 _ _ _ _ e

theorem count_eq (i : Fin 131072) : kCount (kSum posE intE dst) (ix2 i 0) = rCount dst (ix2 i 0) := by
  unfold kCount rCount
  rw [bcast_flat_apply (n := 131072) (by omega), maximumf_apply, maximumf_apply,
    slice2_axis1_apply (n0 := 131072) (n1 := 5) (m := 1) 0 _ _ i 0 0 rfl, sum_count]
  rfl

theorem meanPos_eq : kMeanPos (kSum posE intE dst) = rMeanPos posE dst := by
  funext j
  obtain ⟨i, k, rfl⟩ : ∃ (i : Fin 131072) (k : Fin 3), j = ix2 i k := ⟨j 0, j 1, eq_ix2 j⟩
  have hk : 1 + k.val < 5 := by have := k.isLt; omega
  unfold kMeanPos rMeanPos
  rw [hostDivf_apply, hostDivf_apply, slice2_axis1_apply (n0 := 131072) (n1 := 5) (m := 3) 1 _ _ i k ⟨1 + k.val, hk⟩ rfl,
    bcast_col_apply (n := 131072) (c := 3) (by omega), bcast_col_apply (n := 131072) (c := 3) (by omega),
    sum_pos posE intE dst i k hk, count_eq]

theorem meanInt_eq : kMeanInt (kSum posE intE dst) = rMeanInt intE dst := by
  funext j
  obtain ⟨i, k, rfl⟩ : ∃ (i : Fin 131072) (k : Fin 1), j = ix2 i k := ⟨j 0, j 1, eq_ix2 j⟩
  obtain rfl : k = 0 := Subsingleton.elim _ _
  unfold kMeanInt rMeanInt
  rw [hostDivf_apply, hostDivf_apply, slice2_axis1_apply (n0 := 131072) (n1 := 5) (m := 1) 4 _ _ i 0 4 rfl, sum_int, count_eq]

theorem after_two {τ : Topo} {sig : RefSig} {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

variable (V₁ : Valuation Cert.KernelIdeal.τ Cert.KernelIdeal.sig (Elt Ideal))
  (V₂ : Valuation Cert.ReferenceIdeal.τ Cert.ReferenceIdeal.sig (Elt Ideal))

theorem blockA
    (h1 : HEq (V₁ (Proc.devRef .tc Cert.KernelIdeal.main_arg1)) (V₂ (Proc.devRef .tc Cert.ReferenceIdeal.main_arg1)))
    (h2 : HEq (V₁ (Proc.devRef .tc Cert.KernelIdeal.main_arg2)) (V₂ (Proc.devRef .tc Cert.ReferenceIdeal.main_arg2)))
    (h11 : HEq (V₁ (Proc.devRef .tc Cert.KernelIdeal.main_arg11)) (V₂ (Proc.devRef .tc Cert.ReferenceIdeal.main_arg11)))
    (h12 : HEq (V₁ (Proc.devRef .tc Cert.KernelIdeal.main_arg12)) (V₂ (Proc.devRef .tc Cert.ReferenceIdeal.main_arg12))) :
    HEq (after Cert.KernelIdeal.Gen.hostOps0 V₁ (Proc.devRef .tc Cert.KernelIdeal.main_v25))
      (after (Cert.ReferenceIdeal.ValueP.opsL1 ++ Cert.ReferenceIdeal.ValueP.opsL2 ++ Cert.ReferenceIdeal.ValueP.opsL3 ++ Cert.ReferenceIdeal.ValueP.opsL4 ++ Cert.ReferenceIdeal.ValueP.opsL5 ++ Cert.ReferenceIdeal.ValueP.opsL6) V₂ (Proc.devRef .tc Cert.ReferenceIdeal.main_v19))
    ∧ HEq (after Cert.KernelIdeal.Gen.hostOps0 V₁ (Proc.devRef .tc Cert.KernelIdeal.main_v0))
      (after (Cert.ReferenceIdeal.ValueP.opsL1 ++ Cert.ReferenceIdeal.ValueP.opsL2 ++ Cert.ReferenceIdeal.ValueP.opsL3 ++ Cert.ReferenceIdeal.ValueP.opsL4 ++ Cert.ReferenceIdeal.ValueP.opsL5 ++ Cert.ReferenceIdeal.ValueP.opsL6) V₂ (Proc.devRef .tc Cert.ReferenceIdeal.main_v20))
    ∧ HEq (after Cert.KernelIdeal.Gen.hostOps0 V₁ (Proc.devRef .tc Cert.KernelIdeal.main_v27))
      (after (Cert.ReferenceIdeal.ValueP.opsL1 ++ Cert.ReferenceIdeal.ValueP.opsL2 ++ Cert.ReferenceIdeal.ValueP.opsL3 ++ Cert.ReferenceIdeal.ValueP.opsL4 ++ Cert.ReferenceIdeal.ValueP.opsL5 ++ Cert.ReferenceIdeal.ValueP.opsL6) V₂ (Proc.devRef .tc Cert.ReferenceIdeal.main_v31)) := by
  rw [after_two, after_two, after_two, after_two, after_two]
  obtain ⟨k25, k0, k27⟩ := kernel_results V₁
  obtain ⟨r19, r20, r31⟩ := reference_results V₂
  refine ⟨(heq_of_eq k25).trans (.trans (heq_of_eq ?_) (heq_of_eq r19.symm)),
    (heq_of_eq k0).trans (.trans (heq_of_eq ?_) (heq_of_eq r20.symm)),
    (heq_of_eq k27).trans (.trans (heq_of_eq ?_) (heq_of_eq r31.symm))⟩
  · rw [eq_of_heq h1, eq_of_heq h2, eq_of_heq h11, eq_of_heq h12]; exact meanPos_eq _ _ _
  · rw [eq_of_heq h2]
  · rw [eq_of_heq h1, eq_of_heq h2, eq_of_heq h11, eq_of_heq h12]; exact meanInt_eq _ _ _

end Value

end Cert.Hand.BlockA
-- ==== Proof.LibTileSum.lean ====
import Mathlib.Algebra.BigOperators.Fin
import Mathlib.Logic.Equiv.Fin.Basic
import Idealize.ShloMosaic.Lib.ValueIdx

namespace Cert.Hand.TileSum

open Idealize.ShloMosaic Idealize.ShloMosaic.ValueIdx

variable {M : Type*} [AddCommMonoid M]

def rowOf {n b : ℕ} (t : Fin n) (p : Fin b) : Fin (n * b) :=
  ⟨t.val * b + p.val,
    calc t.val * b + p.val < t.val * b + b := Nat.add_lt_add_left p.isLt _
      _ = (t.val + 1) * b := (Nat.succ_mul _ _).symm
      _ ≤ n * b := Nat.mul_le_mul_right b t.isLt⟩

@[simp] theorem rowOf_val {n b : ℕ} (t : Fin n) (p : Fin b) : (rowOf t p).val = t.val * b + p.val := rfl

theorem sum_rows_eq_sum_blocks {n b : ℕ} (f : Fin (n * b) → M) :
    ∑ r : Fin (n * b), f r = ∑ t : Fin n, ∑ p : Fin b, f (rowOf t p) := by
  rw [← Equiv.sum_comp finProdFinEquiv f, Fintype.sum_prod_type]
  refine Fintype.sum_congr _ _ fun t => Fintype.sum_congr _ _ fun p => congrArg f (Fin.ext ?_)
  show p.val + b * t.val = t.val * b + p.val
  rw [Nat.add_comm, Nat.mul_comm]

theorem sum_idx_col {n : ℕ} (g : (⟨2, ![n, 1]⟩ : Shape).Idx → M) :
    ∑ i, g i = ∑ p : Fin n, g (ix2 p 0) := by
  rw [sum_idx2]
  exact Fintype.sum_congr _ _ fun p => Fin.sum_univ_one _

theorem running_sum {ι : Type*} {N : ℕ} (acc C : (n : ℕ) → n < N → ι → M) (z : ι → M)
    (h0 : ∀ (h : 0 < N) (j : ι), acc 0 h j = z j + C 0 h j)
    (hs : ∀ (n : ℕ) (h : n + 1 < N) (j : ι), acc (n + 1) h j = acc n (Nat.lt_of_succ_lt h) j + C (n + 1) h j) :
    ∀ (n : ℕ) (h : n < N) (j : ι),
      acc n h j = z j + ∑ s : Fin (n + 1), C s.val (lt_of_le_of_lt (Nat.le_of_lt_succ s.isLt) h) j
  | 0, h, j => by rw [h0 h j, Fin.sum_univ_one]; rfl
  | n + 1, h, j => by
    rw [hs n h j, running_sum acc C z h0 hs n (Nat.lt_of_succ_lt h) j, add_assoc]
    congr 1
    exact (Fin.sum_univ_castSucc
      (fun s : Fin (n + 1 + 1) => C s.val (lt_of_le_of_lt (Nat.le_of_lt_succ s.isLt) h) j)).symm

end Cert.Hand.TileSum
-- ==== Proof.BlockB.lean ====
import proofs.«119071_j16140487098675_2_alg».proof.Proof.KI.Run
import proofs.«119071_j16140487098675_2_alg».proof.Proof.Split
import proofs.«119071_j16140487098675_2_alg».proof.Proof.RefOps
import proofs.«119071_j16140487098675_2_alg».proof.Proof.Common
import proofs.«119071_j16140487098675_2_alg».proof.Proof.LibTileSum
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.Hand.BlockB

open Idealize.ShloMosaic Idealize.ShloMosaic.ValueIdx Idealize.ShloMosaic.StableHlo

abbrev half : EReal := Ideal.ofBits .f32 0x3F000000#32

def clip1 (x : EReal) : EReal := min (Ideal.ofBits .f32 0xC0BFBA14#32) (max (Ideal.ofBits .f32 0xC139E47F#32) x)

def clipL (lv : Cert.ReferenceIdeal.S131072x1.Idx → EReal) : Cert.ReferenceIdeal.S131072x1.Idx → EReal :=
  fun i => clip1 (lv i)

def weight (cl : (⟨2, ![131072, 1]⟩ : Shape).Idx → EReal) (r : Fin 131072) : EReal :=
  half * Ideal.exp (-(cl (ix2 r 0)))

-- Row r's three contributions to the three sums, over the clipped log-variance cl.
def rowTerm (cl : (⟨2, ![131072, 1]⟩ : Shape).Idx → EReal) (pos mp : (⟨2, ![131072, 3]⟩ : Shape).Idx → EReal)
    (inten mi : (⟨2, ![131072, 1]⟩ : Shape).Idx → EReal) (k : Fin 3) (r : Fin 131072) : EReal :=
  match k with
  | 0 => weight cl r * ∑ d : Fin 3, (pos (ix2 r d) - mp (ix2 r d)) * (pos (ix2 r d) - mp (ix2 r d))
  | 1 => weight cl r * ((inten (ix2 r 0) - mi (ix2 r 0)) * (inten (ix2 r 0) - mi (ix2 r 0)))
  | 2 => half * cl (ix2 r 0)

def comb (a b c : EReal) : EReal :=
  ((Ideal.ofBits .f32 0x3F800000#32 * Ideal.div a (Ideal.ofBits .f32 0x48000000#32)
      + Ideal.ofBits .f32 0x3F800000#32 * Ideal.div b (Ideal.ofBits .f32 0x48000000#32))
    + Ideal.div c (Ideal.ofBits .f32 0x48000000#32)) * Ideal.ofBits .f32 0x3F800000#32

-- The tail's last step on the three sums over all rows.
def comb3 (T : Fin 3 → Fin 131072 → EReal) : EReal := comb (∑ r, T 0 r) (∑ r, T 1 r) (∑ r, T 2 r)

theorem lift_row {m n : ℕ} (h : (⟨2, ![m, n]⟩ : Shape).Reduces [1] ⟨1, ![m]⟩) (r : Fin m) (d : Fin ((⟨2, ![m, n]⟩ : Shape).size 1)) :
    h.lift (ix1 r) d = ix2 r (⟨d.val, d.isLt⟩ : Fin n) := by
  funext a; apply Fin.ext
  match a with
  | ⟨0, _⟩ => rfl
  | ⟨1, _⟩ => rfl

section Payloads
open Cert.KernelIdeal Cert.KernelIdeal.Gen

theorem mask_word (a p : ℕ) (ha : a < 64) (hp : p < 2048) :
    (BitVec.ofNat 32 a * 2048#32 + BitVec.ofNat 32 p).slt 131072#32 = true := by
  have e : BitVec.ofNat 32 a * 2048#32 + BitVec.ofNat 32 p = BitVec.ofNat 32 (a * 2048 + p) := by
    apply BitVec.eq_of_toNat_eq
    simp only [BitVec.toNat_add, BitVec.toNat_mul, BitVec.toNat_ofNat]
    omega
  rw [e]
  simp only [BitVec.slt, decide_eq_true_eq, BitVec.toInt_eq_toNat_cond, BitVec.toNat_ofNat]
  omega

theorem pay5_apply (v15 v17 : Vec Ideal S2048x1 .f32) (x : S2048x1.Idx) :
    k0_pay5 (F := Ideal) v15 v17 x = (v15 x - v17 x) * (v15 x - v17 x) := by
  unfold k0_pay5
  simp only [shapeCast_self]
  rfl

theorem pay6_apply (v11 : Vec Ideal S2048x1 .f32) (x : S2048x1.Idx) :
    k0_pay6 (F := Ideal) v11 x = Ideal.exp (-(clip1 (v11 x))) := by
  show Ideal.exp (Ideal.ofBits .f32 0x00000000#32 - clip1 (v11 x)) = _
  rw [Ideal.ofBits_zero_f32, sub_eq_add_neg, zero_add]

-- Every row of every block is a row of the array, so the row mask is one.
theorem pay3_apply (i : grid0.Coords) (x : S2048x1.Idx) : k0_pay3 (F := Ideal) i x = 1 := by
  unfold k0_pay3
  dsimp only
  rw [sitofp_apply, extui_apply]
  have hw : cmpi CmpIPredicate.slt
      (addi (broadcast S2048x1 (Scalar.muli (BitVec.ofNat 32 (i 0).val) 2048#32)) (iota Kind.tc S2048x1 32 [0] iota_S2048x1_d0_w32))
      (broadcast S2048x1 131072#32) x = 1#1 := by
    show BitVec.ofBool ((BitVec.ofNat 32 (i 0).val * 2048#32 + iota Kind.tc S2048x1 32 [0] iota_S2048x1_d0_w32 x).slt 131072#32) = 1#1
    rw [iota_single_apply, mask_word _ _ (i 0).isLt (x 0).isLt]; rfl
  rw [hw]
  show (((((1#1 : BitVec 1).setWidth 32).toInt : ℝ)) : EReal) = 1
  norm_num

theorem colsum_apply (v : Vec Ideal S2048x1 .f32) :
    shapeCast S1x1 (multiReduction (F := Ideal) .add [0] S1 v 0x00000000#32 reduces_S2048x1_S1 (.inl rfl) rfl) shapeCasts_S1_S1x1 (ix2 0 0)
      = ∑ p : Fin 2048, v (ix2 p 0) := by
  rw [shapeCast_a_1a_apply]
  exact (Ideal.multiReduction_add_total v _ reduces_S2048x1_S1 (fun b => by fin_cases b; rfl) _ _ (ix1 0)).trans (TileSum.sum_idx_col v)

theorem concat3_apply (a b c : Vec Ideal S1x1 .f32)
    (h : Shape.Concatenates (([⟨S1x1, a⟩, ⟨S1x1, b⟩, ⟨S1x1, c⟩] : List ((s : Shape) × (s.Idx → Elt Ideal .f32))).map (·.1)) S1x3 1) (k : Fin 3) :
    concatenate S1x3 1 [⟨S1x1, a⟩, ⟨S1x1, b⟩, ⟨S1x1, c⟩] h (ix2 0 k)
      = (match k with | 0 => a | 1 => b | 2 => c) (ix2 0 0) := by
  have H := concatenate_ofFn_unit_apply (t := S1x3) 1 ![a, b, c] h rfl rfl (ix2 0 k) k rfl (ix2 0 0) fun b hb => by
    match b with
    | ⟨0, _⟩ => rfl
    | ⟨1, _⟩ => exact absurd rfl hb
  fin_cases k <;> exact H

theorem pay7_apply (i : grid0.Coords) (v11 : Vec Ideal S2048x1 .f32) (v12 v13 : Vec Ideal S2048x3 .f32) (p : Fin 2048) :
    k0_pay7 (F := Ideal) i v11 v12 v13 (ix2 p 0) =
      (half * Ideal.exp (-(clip1 (v11 (ix2 p 0))))) * ∑ d : Fin 3, (v12 (ix2 p d) - v13 (ix2 p d)) * (v12 (ix2 p d) - v13 (ix2 p d)) := by
  unfold k0_pay7
  dsimp only
  simp only [shapeCast_self]
  rw [mulf_apply, pay3_apply, mul_one, mulf_apply, mulf_apply, pay6_apply]
  congr 1
  rw [shapeCast_apply _ _ (ix2 p 0) (ix1 p) (by rw [Shape.rowMajor_val_one, Shape.rowMajor_val_two]; show p.val = p.val * 1 + 0; omega)]
  refine (Ideal.multiReduction_add_single (mulf (subf v12 v13) (subf v12 v13)) _ reduces_S2048x3_S2048 _ _ (ix1 p)).trans ?_
  exact Fintype.sum_congr _ _ fun d => by rw [lift_row]; rfl

theorem pay1_apply (v10 v22 v28 v35 v37 : Vec Ideal S2048x1 .f32) (v49 : Vec Ideal S1x3 .f32) (k : Fin 3) :
    k0_pay1 (F := Ideal) v10 v22 v28 v35 v37 v49 (ix2 0 k) = v49 (ix2 0 k) + ∑ p : Fin 2048,
      (match k with
       | 0 => v35 (ix2 p 0)
       | 1 => (v37 (ix2 p 0) * v28 (ix2 p 0)) * v10 (ix2 p 0)
       | 2 => (half * v22 (ix2 p 0)) * v10 (ix2 p 0)) := by
  unfold k0_pay1
  dsimp only
  rw [addf_apply, shapeCast_self, concat3_apply]
  congr 1
  fin_cases k <;> exact colsum_apply _

end Payloads

section Kernel
open Cert.KernelIdeal Cert.KernelIdeal.Gen Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := by decide +kernel

theorem N64 : cfg0.N = 64 := N_0

def rowAt (n : ℕ) (hn : n < cfg0.N) (p : Fin 2048) : Fin 131072 :=
  ⟨n * 2048 + p.val, by have := p.isLt; have := lt_of_lt_of_eq hn N64; omega⟩

-- Row r's k-th term over the five arrays the region reads.
abbrev term0 (c : Dev nD) (k : Fin 3) (r : Fin 131072) : EReal :=
  rowTerm (clipL (V c main_arg0)) (V c main_arg1) (V c main_v25) (V c main_v0) (V c main_v27) k r

-- One grid point adds to column k of the running block the sum over its 2048 rows of their k-th terms.
theorem step_apply (c : Dev nD) (t : Fin cfg0.N) (a : Vec Ideal S1x3 .f32) (k : Fin 3) :
    k0_pay1 (F := Ideal) (k0_pay3 (grid0.coords t)) (k0_pay4 (iblk0 V c 0 t)) (k0_pay5 (iblk0 V c 3 t) (iblk0 V c 4 t))
        (k0_pay7 (grid0.coords t) (iblk0 V c 0 t) (iblk0 V c 1 t) (iblk0 V c 2 t)) (k0_pay8 (iblk0 V c 0 t)) a (ix2 0 k)
      = a (ix2 0 k) + ∑ p : Fin 2048, term0 V c k (rowAt t.val t.isLt p) := by
  obtain ⟨⟨a0, b0⟩, ⟨a1, b1⟩, ⟨a2, b2⟩, ⟨a3, b3⟩, ⟨a4, b4⟩⟩ := idx0 t
  rw [pay1_apply]
  congr 1
  refine Fintype.sum_congr _ _ fun p => ?_
  have e0 : iblk0 V c 0 t (ix2 p 0) = V c main_arg0 (ix2 (rowAt t.val t.isLt p) 0) :=
    congrArg (V c main_arg0) (Shape.idx_ext₂ (by show win0_0.index t 0 * 2048 + 1 * p.val = t.val * 2048 + p.val; omega)
      (by show win0_0.index t 1 * 1 + 1 * 0 = 0; omega))
  have e1 : ∀ d : Fin 3, iblk0 V c 1 t (ix2 p d) = V c main_arg1 (ix2 (rowAt t.val t.isLt p) d) :=
    fun d => congrArg (V c main_arg1) (Shape.idx_ext₂ (by show win0_1.index t 0 * 2048 + 1 * p.val = t.val * 2048 + p.val; omega)
      (by show win0_1.index t 1 * 3 + 1 * d.val = d.val; omega))
  have e2 : ∀ d : Fin 3, iblk0 V c 2 t (ix2 p d) = V c main_v25 (ix2 (rowAt t.val t.isLt p) d) :=
    fun d => congrArg (V c main_v25) (Shape.idx_ext₂ (by show win0_2.index t 0 * 2048 + 1 * p.val = t.val * 2048 + p.val; omega)
      (by show win0_2.index t 1 * 3 + 1 * d.val = d.val; omega))
  have e3 : iblk0 V c 3 t (ix2 p 0) = V c main_v0 (ix2 (rowAt t.val t.isLt p) 0) :=
    congrArg (V c main_v0) (Shape.idx_ext₂ (by show win0_3.index t 0 * 2048 + 1 * p.val = t.val * 2048 + p.val; omega)
      (by show win0_3.index t 1 * 1 + 1 * 0 = 0; omega))
  have e4 : iblk0 V c 4 t (ix2 p 0) = V c main_v27 (ix2 (rowAt t.val t.isLt p) 0) :=
    congrArg (V c main_v27) (Shape.idx_ext₂ (by show win0_4.index t 0 * 2048 + 1 * p.val = t.val * 2048 + p.val; omega)
      (by show win0_4.index t 1 * 1 + 1 * 0 = 0; omega))
  fin_cases k
  · show k0_pay7 (F := Ideal) (grid0.coords t) (iblk0 V c 0 t) (iblk0 V c 1 t) (iblk0 V c 2 t) (ix2 p 0) = _
    rw [pay7_apply]
    simp only [e0, e1, e2]
    rfl
  · show (half * k0_pay6 (F := Ideal) (iblk0 V c 0 t) (ix2 p 0) * k0_pay5 (F := Ideal) (iblk0 V c 3 t) (iblk0 V c 4 t) (ix2 p 0))
        * k0_pay3 (F := Ideal) (grid0.coords t) (ix2 p 0) = _
    rw [pay6_apply, pay5_apply, pay3_apply, mul_one, e0, e3, e4]
    rfl
  · show (half * clip1 (iblk0 V c 0 t (ix2 p 0))) * k0_pay3 (F := Ideal) (grid0.coords t) (ix2 p 0) = _
    rw [pay3_apply, mul_one, e0]
    rfl

def t63 : Fin cfg0.N := ⟨63, by rw [N64]; decide⟩

theorem arrAt5 (c : Dev nD) : (dat0 V c).arrAt 5 cfg0.N = outsAt0 V c 63 t63.isLt :=
  (dat0 V c).arrAt_eq_of_cover 5 _
    (fun t hf => by
      have hN : t.val < 64 := lt_of_lt_of_eq t.isLt N64
      obtain rfl : t = t63 := Fin.ext (by have := (flush0_5 t).mp hf; show t.val = 63; omega)
      show (cfg0.win 5).cut (grid0.coords t63) ((dat0 V c).after 5 t63) = _
      rw [after0_5]
      have hz' : (fun a => win0_5.index t63 a * main_v28.ty.shape.size a) = fun _ => 0 := funext fun a => by fin_cases a <;> decide +kernel
      exact (Memref.read_access_unit_zero (Elt Ideal) main_v28 hz' (fun a => by rw [congrFun hz' a]; simp) (outsAt0 V c 63 t63.isLt)).symm)
    fun i => ⟨t63, (flush0_5 t63).mpr rfl, (by decide +kernel : ∀ i : S1x3.Idx, i ∈ ((View.whole main_v28).slice (win0_5.rect t63)).set) i⟩

-- Column k of the region's result is the sum of the k-th terms over all rows: zero plus the blocks' sums, and rows split into blocks.
theorem arrAt5_apply (c : Dev nD) (k : Fin 3) :
    ((dat0 (F := Ideal) V c).arrAt 5 cfg0.N : S1x3.Idx → EReal) (ix2 0 k) = ∑ r : Fin 131072, term0 V c k r := by
  have H := TileSum.running_sum (N := cfg0.N) (fun n hn k => outsAt0 V c n hn (ix2 0 k))
    (fun n hn k => ∑ p : Fin 2048, term0 V c k (rowAt n hn p)) (fun _ => 0)
    (fun h k => by
      show outsAt0 V c 0 h (ix2 0 k) = _
      rw [outsAt0_zero, step_apply V c ⟨0, h⟩]
      exact congrArg (· + _) Ideal.ofBits_zero_f32)
    (fun n h k => by
      show outsAt0 V c (n + 1) h (ix2 0 k) = _
      rw [outsAt0_succ, step_apply V c ⟨n + 1, h⟩])
    63 t63.isLt k
  rw [arrAt5]
  refine H.trans ?_
  rw [TileSum.sum_rows_eq_sum_blocks (n := 64) (b := 2048)]
  exact (zero_add _).trans (Fintype.sum_congr _ _ fun s => Fintype.sum_congr _ _ fun p => congrArg _ (Fin.ext rfl))

end Kernel

section Reference
open Cert.ReferenceIdeal Cert.ReferenceIdeal.Gen

theorem clipL_spec (V₂ : Valuation τ sig (Elt Ideal)) :
    (StableHlo.after (ValueP.opsL0 (F := Ideal)) V₂ (Proc.devRef .tc main_v0) : S131072x1.Idx → EReal)
      = clipL (V₂ (Proc.devRef .tc main_arg0)) := by
  after_results; rfl

variable (cl : S131072x1.Idx → EReal) (pos mp : S131072x3.Idx → EReal) (inten mi : S131072x1.Idx → EReal)

theorem sq3_apply (r : Fin 131072) :
    broadcastInDim S131072x1 ![0] bcast_S131072_S131072x1_0
        (Host.reduceAdd (F := Ideal) (mulf (subf pos mp) (subf pos mp)) (constant S_ .f32 0x00000000#32) reducesTo_S131072x3_S131072_d1 h_S_) (ix2 r 0)
      = ∑ d : Fin 3, (pos (ix2 r d) - mp (ix2 r d)) * (pos (ix2 r d) - mp (ix2 r d)) := by
  rw [broadcastInDim_apply _ _ _ (ix2 r 0) (ix1 r) (fun a => by match a with | ⟨0, _⟩ => rfl)]
  have hR : S131072x3.Reduces [1] S131072 := by decide
  show Ideal.hostReduceAdd reducesTo_S131072x3_S131072_d1 _ (Ideal.ofBits .f32 0x00000000#32) (ix1 r) = _
  rw [Ideal.hostReduceAdd_single _ hR, Ideal.ofBits_zero_f32, zero_add]
  exact Fintype.sum_congr _ _ fun d => by rw [lift_row]; rfl

theorem total_apply (X : S131072x1.Idx → EReal) (j : S_.Idx) :
    Host.reduceAdd (F := Ideal) X (constant S_ .f32 0x00000000#32) reducesTo_S131072x1_S_d0_1 h_S_ j
      = ∑ r : Fin 131072, X (ix2 r 0) := by
  show Ideal.hostReduceAdd reducesTo_S131072x1_S_d0_1 X (Ideal.ofBits .f32 0x00000000#32) j = _
  rw [Ideal.hostReduceAdd_total _ (fun b => b.elim0), Ideal.ofBits_zero_f32, zero_add, TileSum.sum_idx_col]

theorem row0_apply (r : Fin 131072) : rowTerm cl pos mp inten mi 0 r =
    mulf (mulf (broadcastInDim S131072x1 ![] bcast_S_S131072x1 (constant (F := Ideal) S_ .f32 0x3F000000#32)) (Host.exp (Host.negf cl)))
        (broadcastInDim S131072x1 ![0] bcast_S131072_S131072x1_0
          (Host.reduceAdd (F := Ideal) (mulf (subf pos mp) (subf pos mp)) (constant S_ .f32 0x00000000#32) reducesTo_S131072x3_S131072_d1 h_S_)) (ix2 r 0) := by
  rw [mulf_apply, sq3_apply]; rfl

theorem row1_apply (r : Fin 131072) : rowTerm cl pos mp inten mi 1 r =
    mulf (mulf (broadcastInDim S131072x1 ![] bcast_S_S131072x1 (constant (F := Ideal) S_ .f32 0x3F000000#32)) (Host.exp (Host.negf cl)))
        (mulf (subf inten mi) (subf inten mi)) (ix2 r 0) := rfl

theorem row2_apply (r : Fin 131072) : rowTerm cl pos mp inten mi 2 r =
    mulf (broadcastInDim S131072x1 ![] bcast_S_S131072x1 (constant (F := Ideal) S_ .f32 0x3F000000#32)) cl (ix2 r 0) := rfl

theorem refL7 (V₂ : Valuation τ sig (Elt Ideal)) :
    (StableHlo.after (ValueP.opsL7 (F := Ideal)) V₂ (Proc.devRef .tc main_v58) : S_.Idx → EReal) = fun _ =>
      comb3 (rowTerm (V₂ (Proc.devRef .tc main_v0)) (V₂ (Proc.devRef .tc main_arg1)) (V₂ (Proc.devRef .tc main_v19)) (V₂ (Proc.devRef .tc main_v20)) (V₂ (Proc.devRef .tc main_v31))) := by
  after_results_simp
  funext j
  unfold comb3 comb
  simp only [mulf_apply, addf_apply, hostDivf_apply, constant_apply]
  rw [total_apply, total_apply, total_apply]
  simp only [row0_apply, row1_apply, row2_apply]

end Reference

section KernelTail
open Cert.KernelIdeal Cert.KernelIdeal.Gen Cert.KernelIdeal.Hand

theorem pick_apply (v : S1x3.Idx → EReal) (k : Fin 3) (h2 : S3.Slices ![k.val] S1) (j : S_.Idx) :
    shapeCast S_ (extractStridedSlice S1 ![k.val] (shapeCast S3 v shapeCasts_S1x3_S3) h2) shapeCasts_S1_S_ j = v (ix2 0 k) := by
  have hj : (S_.rowMajor j).val = 0 := by
    have h := (S_.rowMajor j).isLt
    have h1 : S_.numel = 1 := Shape.numel_eq_one (fun a => a.elim0)
    omega
  rw [shapeCast_apply _ _ j (ix1 0) (by rw [Shape.rowMajor_val_one, hj]; rfl)]
  rw [extractStridedSlice_apply _ _ _ (ix1 0) (ix1 k) (fun a => by match a with | ⟨0, _⟩ => show k.val = k.val + 0; omega)]
  exact shapeCast_1a_a_apply v _ k

theorem kTail (W : Valuation τ sig (Elt Ideal)) :
    (StableHlo.after (hostOps1a (F := Ideal)) W (Proc.devRef .tc main_v43) : S_.Idx → EReal) = fun _ =>
      comb ((W (Proc.devRef .tc main_v28) : S1x3.Idx → EReal) (ix2 0 0)) ((W (Proc.devRef .tc main_v28) : S1x3.Idx → EReal) (ix2 0 1))
        ((W (Proc.devRef .tc main_v28) : S1x3.Idx → EReal) (ix2 0 2)) := by
  dsimp only [hostOps1a, hostOps1, List.take_succ_cons, List.take_zero]
  after_results_simp
  funext j
  unfold comb
  rw [← pick_apply (W (Proc.devRef .tc main_v28)) 0 slices_S3_S1_0 j, ← pick_apply (W (Proc.devRef .tc main_v28)) 1 slices_S3_S1_1 j,
    ← pick_apply (W (Proc.devRef .tc main_v28)) 2 slices_S3_S1_2 j]
  rfl

end KernelTail

-- The lidar term's tail agrees: both sides are the one combination of the same three sums.
theorem blockB (m : (ℓ : Loc Cert.KernelIdeal.nD Cert.KernelIdeal.τ Cert.KernelIdeal.sig) → Buf (Elt Ideal) ℓ) (c : Dev Cert.KernelIdeal.nD)
    (V₂ : Valuation Cert.ReferenceIdeal.τ Cert.ReferenceIdeal.sig (Elt Ideal)) :
    HEq (Cert.KernelIdeal.Hand.W1 m c (Proc.devRef .tc Cert.KernelIdeal.main_arg0)) (V₂ (Proc.devRef .tc Cert.ReferenceIdeal.main_arg0)) →
    HEq (Cert.KernelIdeal.Hand.W1 m c (Proc.devRef .tc Cert.KernelIdeal.main_arg1)) (V₂ (Proc.devRef .tc Cert.ReferenceIdeal.main_arg1)) →
    HEq (Cert.KernelIdeal.Hand.W1 m c (Proc.devRef .tc Cert.KernelIdeal.main_v25)) (V₂ (Proc.devRef .tc Cert.ReferenceIdeal.main_v19)) →
    HEq (Cert.KernelIdeal.Hand.W1 m c (Proc.devRef .tc Cert.KernelIdeal.main_v0)) (V₂ (Proc.devRef .tc Cert.ReferenceIdeal.main_v20)) →
    HEq (Cert.KernelIdeal.Hand.W1 m c (Proc.devRef .tc Cert.KernelIdeal.main_v27)) (V₂ (Proc.devRef .tc Cert.ReferenceIdeal.main_v31)) →
    (V₂ (Proc.devRef .tc Cert.ReferenceIdeal.main_v0) : Cert.ReferenceIdeal.S131072x1.Idx → EReal) = clipL (V₂ (Proc.devRef .tc Cert.ReferenceIdeal.main_arg0)) →
    HEq (StableHlo.after (Cert.KernelIdeal.Hand.hostOps1a (F := Ideal)) (Cert.KernelIdeal.Hand.W2 m c) (Proc.devRef .tc Cert.KernelIdeal.main_v43))
      (StableHlo.after (Cert.ReferenceIdeal.ValueP.opsL7 (F := Ideal)) V₂ (Proc.devRef .tc Cert.ReferenceIdeal.main_v58)) := by
  intro h0 h1 h2 h3 h4 hcl
  open KernelIdeal KernelIdeal.Hand in
  have hK : ∀ k : Fin 3, (W2 m c (Proc.devRef .tc main_v28) : S1x3.Idx → EReal) (ix2 0 k)
      = ∑ r : Fin 131072, rowTerm (clipL (W1 m c (Proc.devRef .tc main_arg0))) (W1 m c (Proc.devRef .tc main_arg1))
          (W1 m c (Proc.devRef .tc main_v25)) (W1 m c (Proc.devRef .tc main_v0)) (W1 m c (Proc.devRef .tc main_v27)) k r :=
    fun k => (congrFun (W2_arr m c 5) _).trans (arrAt5_apply (Vt1 m) c k)
  refine HEq.trans (heq_of_eq (kTail _)) (HEq.trans (heq_of_eq ?_) (heq_of_eq (refL7 V₂)).symm)
  funext _
  rw [hK, hK, hK, eq_of_heq h0, eq_of_heq h1, eq_of_heq h2, eq_of_heq h3, eq_of_heq h4, hcl]
  rfl

end Cert.Hand.BlockB

end
-- ==== Proof.BlockD.lean ====
import proofs.«119071_j16140487098675_2_alg».proof.Proof.KI.Run
import proofs.«119071_j16140487098675_2_alg».proof.Proof.RefOps
import proofs.«119071_j16140487098675_2_alg».proof.Proof.Split
import proofs.«119071_j16140487098675_2_alg».proof.Proof.LibAgree
import proofs.«119071_j16140487098675_2_alg».proof.Proof.LibScatterCols
import proofs.«119071_j16140487098675_2_alg».proof.Proof.Common
import proofs.«119071_j16140487098675_2_alg».proof.Proof.LibTileSum
import Idealize.ShloMosaic.PureOps.Ideal.Laws
import Idealize.ShloMosaic.Lib.Pipeline.Value
import Idealize.ShloMosaic.Lib.Affine
import Idealize.ShloMosaic.Lib.IdealHost
import Idealize.ShloMosaic.Lib.StableHlo.Run
import Mathlib.Algebra.BigOperators.Fin

noncomputable section

namespace Cert.Hand.BlockD

open Idealize.ShloMosaic Idealize.ShloMosaic.TcCoe Idealize.SL.Sem

def lvS (x : EReal) : EReal := min (Ideal.ofBits .f32 0x31097060#32) (max (Ideal.ofBits .f32 0xC0FA5E96#32) x)

def denS (lv dt : EReal) : EReal :=
  (Ideal.ofBits .f32 0x40000000#32 * Ideal.exp lv) * (dt * dt) + Ideal.ofBits .f32 0x3089705F#32

def spatS (sd cn : EReal) : EReal :=
  Scalar.select (Ideal.cmp .ogt cn (Ideal.ofBits .f32 0x00000000#32))
    (Ideal.div sd (max cn (Ideal.ofBits .f32 0x3F800000#32) * max cn (Ideal.ofBits .f32 0x3F800000#32)))
    (Ideal.ofBits .f32 0x3B6BEDFA#32)

def colS (k : ℕ) (x0 x1 x2 x3 x4 : EReal) : EReal :=
  if k = 0 then Ideal.div x1 (denS (lvS x0) x4)
  else if k = 1 then Ideal.div (spatS x2 x3) (denS (lvS x0) x4)
  else Ideal.ofBits .f32 0x3F000000#32 * lvS x0

def i11 : Cert.KernelIdeal.S1x1.Idx := fun a => ⟨0, by revert a; decide⟩

section Rows
open Cert.KernelIdeal

def rowOf (t : ℕ) (ht : t < 16) (q : S2048x1.Idx) : S32768x1.Idx := fun a => match a with
  | ⟨0, _⟩ => ⟨2048 * t + (q 0).val, by have h : (q 0).val < 2048 := (q 0).isLt; show _ < 32768; omega⟩
  | ⟨1, _⟩ => q 1

theorem sum_rows (f : S32768x1.Idx → EReal) :
    ∑ r, f r = ∑ t ∈ Finset.range 16, if h : t < 16 then ∑ q : S2048x1.Idx, f (rowOf t h q) else 0 := by
  rw [TileSum.sum_idx_col, TileSum.sum_rows_eq_sum_blocks (n := 16) (b := 2048), Finset.sum_range]
  refine Finset.sum_congr rfl fun t _ => ?_
  rw [dif_pos t.isLt, TileSum.sum_idx_col]
  exact Finset.sum_congr rfl fun p _ => congrArg f (Shape.idx_ext₂ (by show t.val * 2048 + p.val = 2048 * t.val + p.val; omega) rfl)

end Rows

def G2 (a0 a1 a2 a3 a4 : Cert.KernelIdeal.S32768x1.Idx → EReal) : Cert.KernelIdeal.S1x3.Idx → EReal :=
  fun j => ∑ r : Cert.KernelIdeal.S32768x1.Idx, colS (j 1).val (a0 r) (a1 r) (a2 r) (a3 r) (a4 r)

section Kernel2
open Cert.KernelIdeal Cert.KernelIdeal.Gen

theorem mask2 (i : grid2.Coords) (q : S2048x1.Idx) : k2_pay3 (F := Ideal) i q = 1 := by
  have hi : (i 0).val < 16 := (i 0).isLt
  have hq : (q 0).val < 2048 := (q 0).isLt
  unfold k2_pay3
  dsimp only
  unfold sitofp extui cmpi addi broadcast
  rw [iota_single_apply]
  have hb : IntOp.cmpi .slt (IntOp.addi (Scalar.muli (BitVec.ofNat 32 (i 0).val) 2048#32) (BitVec.ofNat 32 (q 0).val)) 32768#32 = 1#1 := by
    rw [IntOp.cmpi_slt]
    simp only [Scalar.muli, IntOp.addi, IntOp.muli, BitVec.toInt_eq_toNat_cond, BitVec.toNat_add, BitVec.toNat_mul, BitVec.toNat_ofNat]
    omega
  rw [hb]
  show (((BitVec.setWidth 32 (1#1 : BitVec 1)).toInt : ℝ) : EReal) = 1
  have h1 : (BitVec.setWidth 32 (1#1 : BitVec 1)).toInt = 1 := by decide
  rw [h1]; simp

theorem k2pay4_apply (b : Vec Ideal S2048x1 .f32) (q : S2048x1.Idx) : k2_pay4 (F := Ideal) b q = b q := by
  unfold k2_pay4; rw [shapeCast_self]

theorem k2pay5_apply (b : Vec Ideal S2048x1 .f32) (q : S2048x1.Idx) : k2_pay5 (F := Ideal) b q = lvS (b q) := by
  unfold k2_pay5; rfl

theorem k2pay6_apply (b2 b3 : Vec Ideal S2048x1 .f32) (q : S2048x1.Idx) : k2_pay6 (F := Ideal) b2 b3 q = spatS (b2 q) (b3 q) := by
  unfold k2_pay6; rw [shapeCast_self, shapeCast_self]; rfl

theorem k2pay7_apply (b0 b4 : Vec Ideal S2048x1 .f32) (q : S2048x1.Idx) :
    k2_pay7 (F := Ideal) b0 b4 q = (Ideal.ofBits .f32 0x40000000#32 * Ideal.exp (lvS (b0 q))) * (b4 q * b4 q) := by
  unfold k2_pay7; rw [shapeCast_self]
  unfold mulf exp broadcast
  rw [k2pay5_apply]; rfl

def pt (i : grid2.Coords) (b0 b1 b2 b3 b4 : Vec Ideal S2048x1 .f32) (acc : Vec Ideal S1x3 .f32) : Vec Ideal S1x3 .f32 :=
  k2_pay1 (k2_pay3 i) (k2_pay4 b1) (k2_pay5 b0) (k2_pay6 b2 b3) (k2_pay7 b0 b4) (Scalar.ofBits .f32 0x3089705F#32) acc

theorem k2pay1_apply (i : grid2.Coords) (b0 b1 b2 b3 b4 : Vec Ideal S2048x1 .f32) (acc : Vec Ideal S1x3 .f32) (j : S1x3.Idx) :
    pt i b0 b1 b2 b3 b4 acc j = acc j + ∑ q : S2048x1.Idx, colS (j 1).val (b0 q) (b1 q) (b2 q) (b3 q) (b4 q) := by
  unfold pt k2_pay1
  dsimp only
  rw [shapeCast_self]
  show acc j + concatenate S1x3 1 _ _ j = _
  congr 1
  have hj0 : (j 0).val = 0 := by have h : (j 0).val < 1 := (j 0).isLt; omega
  have hj1 : (j 1).val < 3 := (j 1).isLt
  have hi : ∀ b : Fin S1x1.rank, b.cast (rfl : S1x1.rank = S1x3.rank) ≠ (1 : Fin S1x3.rank) → (i11 b).val = (j (b.cast rfl)).val :=
    fun b hb => by
      match b, hb with
      | ⟨0, _⟩, _ => exact hj0.symm
      | ⟨1, _⟩, hb => exact absurd rfl hb
  have red : ∀ v : FVec Ideal S2048x1 .f32,
      shapeCast S1x1 (multiReduction .add [0] S1 v 0x00000000#32 reduces_S2048x1_S1 (.inl rfl) rfl) shapeCasts_S1_S1x1 i11 = ∑ q, v q :=
    fun v => Ideal.multiReduction_add_total (φ := .f32) _ _ reduces_S2048x1_S1 (by decide) _ _ _
  rcases (by omega : (j 1).val = 0 ∨ (j 1).val = 1 ∨ (j 1).val = 2) with h | h | h
  · rw [concatenate_apply_piece (1 : Fin S1x3.rank) _ _ j 0 (by simp) S1x1 _ rfl rfl 0 rfl i11 hi (by rw [h]; rfl), red, h]
    refine Finset.sum_congr rfl fun q _ => ?_
    unfold mulf divf addf broadcast
    rw [mask2, k2pay4_apply, k2pay7_apply]
    show Ideal.div (b1 q) _ * 1 = _
    rw [mul_one]; rfl
  · rw [concatenate_apply_piece (1 : Fin S1x3.rank) _ _ j 1 (by simp) S1x1 _ rfl rfl 1 rfl i11 hi (by rw [h]; rfl), red, h]
    refine Finset.sum_congr rfl fun q _ => ?_
    unfold mulf divf addf broadcast
    rw [mask2, k2pay6_apply, k2pay7_apply]
    show Ideal.div (spatS (b2 q) (b3 q)) _ * 1 = _
    rw [mul_one]; rfl
  · rw [concatenate_apply_piece (1 : Fin S1x3.rank) _ _ j 2 (by simp) S1x1 _ rfl rfl 2 rfl i11 hi (by rw [h]; rfl), red, h]
    refine Finset.sum_congr rfl fun q _ => ?_
    unfold mulf broadcast
    rw [mask2, k2pay5_apply]
    show (_ * lvS (b0 q)) * 1 = _
    rw [mul_one]; rfl

theorem k2pay2_apply (j : S1x3.Idx) : k2_pay2 (F := Ideal) j = 0 := Ideal.ofBits_zero_f32

end Kernel2

section Fold
open Cert.KernelIdeal Cert.KernelIdeal.Gen

theorem lt2 (t : Fin grid2.N) : t.val < 16 := lt_of_lt_of_eq t.isLt N_2

-- In the whole array, the point whose row is `2048 t + q₀` is row `q` of block `t`.
theorem rows_eq (X : S32768x1.Idx → EReal) {e : S32768x1.Idx} {t : ℕ} (ht : t < 16) {q : S2048x1.Idx} {i0 i1 : ℕ}
    (h0 : (e 0 : ℕ) = i0 * 2048 + (q 0 : ℕ)) (h1 : (e 1 : ℕ) = i1 * 1 + (q 1 : ℕ)) (hi : i0 = t ∧ i1 = 0) :
    X e = X (rowOf t ht q) :=
  congrArg X (Shape.idx_ext₂ (by rw [h0, hi.1]; show _ = 2048 * t + (q 0 : ℕ); omega) (by rw [h1, hi.2]; show _ = (q 1 : ℕ); omega))

def blockSum (a0 a1 a2 a3 a4 : S32768x1.Idx → EReal) (k t : ℕ) : EReal :=
  if h : t < 16 then ∑ q : S2048x1.Idx, colS k (a0 (rowOf t h q)) (a1 (rowOf t h q)) (a2 (rowOf t h q)) (a3 (rowOf t h q)) (a4 (rowOf t h q)) else 0

-- A block that starts at zero and at each of the 16 points adds the column sums of that point's rows ends at `G2`.
theorem fold_G2 (b0 b1 b2 b3 b4 : Fin grid2.N → Vec Ideal S2048x1 .f32) (a0 a1 a2 a3 a4 : S32768x1.Idx → EReal)
    (hb : ∀ t q, b0 t q = a0 (rowOf t.val (lt2 t) q) ∧ b1 t q = a1 (rowOf t.val (lt2 t) q) ∧ b2 t q = a2 (rowOf t.val (lt2 t) q)
      ∧ b3 t q = a3 (rowOf t.val (lt2 t) q) ∧ b4 t q = a4 (rowOf t.val (lt2 t) q))
    (o : (n : ℕ) → n < grid2.N → Vec Ideal S1x3 .f32)
    (hz : ∀ h, o 0 h = pt (grid2.coords ⟨0, h⟩) (b0 ⟨0, h⟩) (b1 ⟨0, h⟩) (b2 ⟨0, h⟩) (b3 ⟨0, h⟩) (b4 ⟨0, h⟩) (k2_pay2 (F := Ideal)))
    (hs : ∀ n h, o (n + 1) h = pt (grid2.coords ⟨n + 1, h⟩) (b0 ⟨n + 1, h⟩) (b1 ⟨n + 1, h⟩) (b2 ⟨n + 1, h⟩) (b3 ⟨n + 1, h⟩) (b4 ⟨n + 1, h⟩)
      (o n (Nat.lt_of_succ_lt h))) :
    o 15 (by rw [N_2]; decide) = G2 a0 a1 a2 a3 a4 := by
  have step : ∀ (t : Fin grid2.N) (acc : Vec Ideal S1x3 .f32) (j : S1x3.Idx),
      pt (grid2.coords t) (b0 t) (b1 t) (b2 t) (b3 t) (b4 t) acc j = acc j + blockSum a0 a1 a2 a3 a4 (j 1).val t.val := fun t acc j => by
    refine (k2pay1_apply (grid2.coords t) (b0 t) (b1 t) (b2 t) (b3 t) (b4 t) acc j).trans ?_
    congr 1
    unfold blockSum
    rw [dif_pos (lt2 t)]
    refine Finset.sum_congr rfl fun q _ => ?_
    obtain ⟨e0, e1, e2, e3, e4⟩ := hb t q
    rw [e0, e1, e2, e3, e4]
  have hsum : ∀ (n : ℕ) (h : n < grid2.N) (j : S1x3.Idx),
      o n h j = ∑ t ∈ Finset.range (n + 1), blockSum a0 a1 a2 a3 a4 (j 1).val t := by
    intro n
    induction n with
    | zero =>
      intro h j
      refine (congrFun (hz h) j).trans ((step ⟨0, h⟩ _ j).trans ?_)
      rw [k2pay2_apply, zero_add, Finset.sum_range_one]
    | succ n ih =>
      intro h j
      refine (congrFun (hs n h) j).trans ((step ⟨n + 1, h⟩ _ j).trans ?_)
      rw [ih _ j]
      exact (Finset.sum_range_succ _ (n + 1)).symm
  funext j
  refine (hsum 15 _ j).trans ?_
  unfold G2
  rw [sum_rows]
  rfl

end Fold

section Region2
open Cert.KernelIdeal Cert.KernelIdeal.Gen Cert.KernelIdeal.Hand
open Idealize.ShloMosaic.Pipeline (Dat)

variable (V : (c : Dev nD) → (b : Ref sig .tc) → Buf (Elt Ideal) ((c : Thread nD τ).loc b))

theorem index2_in : ∀ t : Fin grid2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = t.val ∧ win2_3.index t 1 = 0)
    ∧ (win2_4.index t 0 = t.val ∧ win2_4.index t 1 = 0) := by decide +kernel

theorem off2 : (fun a => win2_5.index t2_15 a * main_v136.ty.shape.size a) = fun _ => 0 := funext fun a => by fin_cases a <;> decide

theorem final2 (c : Dev nD) : (dat2 V c).arrAt 5 cfg2.N = outsAt2 V c 15 t2_15.isLt :=
  (dat2 V c).arrAt_eq_of_cover 5 _ (fun t hf => by
      obtain rfl : t = t2_15 := Fin.ext (show t.val = 15 by have := (flush2_5 t).mp hf; have := lt2 t; omega)
      show (cfg2.win 5).cut (grid2.coords t2_15) ((dat2 V c).after 5 t2_15) = _
      rw [after2_5]
      exact (Memref.read_access_unit_zero (Elt Ideal) main_v136 off2 (fun a => by rw [congrFun off2 a]; simp) _).symm)
    fun i => ⟨t2_15, (flush2_5 t2_15).mpr rfl, by
      show i ∈ ((View.whole main_v136).slice (win2_5.rect t2_15)).set
      rw [View.set_slice_whole]
      exact View.mem_set_unit_zero off2 _ i⟩

theorem arr2_final (c : Dev nD) :
    ((dat2 V c).arrAt 5 cfg2.N : S1x3.Idx → EReal)
      = G2 (V c main_arg3) (V c main_v110) (V c main_v134) (V c main_v135) (V c main_v52) := by
  rw [final2]
  exact fold_G2 (fun t => iblk2 V c 0 t) (fun t => iblk2 V c 1 t) (fun t => iblk2 V c 2 t) (fun t => iblk2 V c 3 t)
    (fun t => iblk2 V c 4 t) _ _ _ _ _
    (fun t q => ⟨rows_eq (V c main_arg3) (lt2 t) (win2_0.rect_emb_val t q 0) (win2_0.rect_emb_val t q 1) (index2_in t).1,
      rows_eq (V c main_v110) (lt2 t) (win2_1.rect_emb_val t q 0) (win2_1.rect_emb_val t q 1) (index2_in t).2.1,
      rows_eq (V c main_v134) (lt2 t) (win2_2.rect_emb_val t q 0) (win2_2.rect_emb_val t q 1) (index2_in t).2.2.1,
      rows_eq (V c main_v135) (lt2 t) (win2_3.rect_emb_val t q 0) (win2_3.rect_emb_val t q 1) (index2_in t).2.2.2.1,
      rows_eq (V c main_v52) (lt2 t) (win2_4.rect_emb_val t q 0) (win2_4.rect_emb_val t q 1) (index2_in t).2.2.2.2⟩)
    (outsAt2 V c) (fun _ => rfl) (fun _ _ => rfl)

end Region2

section Region4
open Cert.KernelIdeal Cert.KernelIdeal.Gen Cert.KernelIdeal.Hand
open Idealize.ShloMosaic.Pipeline (Dat)

variable (V : (c : Dev nD) → (b : Ref sig .tc) → Buf (Elt Ideal) ((c : Thread nD τ).loc b))

theorem off4 : (fun a => win4_5.index t4_15 a * main_v245.ty.shape.size a) = fun _ => 0 := funext fun a => by fin_cases a <;> decide

theorem final4 (c : Dev nD) : (dat4 V c).arrAt 5 cfg4.N = outsAt4 V c 15 t4_15.isLt :=
  (dat4 V c).arrAt_eq_of_cover 5 _ (fun t hf => by
      obtain rfl : t = t4_15 := Fin.ext (show t.val = 15 by have := (flush4_5 t).mp hf; have := lt2 t; omega)
      show (cfg4.win 5).cut (grid4.coords t4_15) ((dat4 V c).after 5 t4_15) = _
      rw [after4_5]
      exact (Memref.read_access_unit_zero (Elt Ideal) main_v245 off4 (fun a => by rw [congrFun off4 a]; simp) _).symm)
    fun i => ⟨t4_15, (flush4_5 t4_15).mpr rfl, by
      show i ∈ ((View.whole main_v245).slice (win4_5.rect t4_15)).set
      rw [View.set_slice_whole]
      exact View.mem_set_unit_zero off4 _ i⟩

theorem arr4_final (c : Dev nD) :
    ((dat4 V c).arrAt 5 cfg4.N : S1x3.Idx → EReal)
      = G2 (V c main_arg6) (V c main_v219) (V c main_v243) (V c main_v244) (V c main_v161) := by
  rw [final4]
  exact fold_G2 (fun t => iblk4 V c 0 t) (fun t => iblk4 V c 1 t) (fun t => iblk4 V c 2 t) (fun t => iblk4 V c 3 t)
    (fun t => iblk4 V c 4 t) _ _ _ _ _
    (fun t q => ⟨rows_eq (V c main_arg6) (lt2 t) (win4_0.rect_emb_val t q 0) (win4_0.rect_emb_val t q 1) (index2_in t).1,
      rows_eq (V c main_v219) (lt2 t) (win4_1.rect_emb_val t q 0) (win4_1.rect_emb_val t q 1) (index2_in t).2.1,
      rows_eq (V c main_v243) (lt2 t) (win4_2.rect_emb_val t q 0) (win4_2.rect_emb_val t q 1) (index2_in t).2.2.1,
      rows_eq (V c main_v244) (lt2 t) (win4_3.rect_emb_val t q 0) (win4_3.rect_emb_val t q 1) (index2_in t).2.2.2.1,
      rows_eq (V c main_v161) (lt2 t) (win4_4.rect_emb_val t q 0) (win4_4.rect_emb_val t q 1) (index2_in t).2.2.2.2⟩)
    (outsAt4 V c) (fun _ => rfl) (fun _ _ => rfl)

end Region4

section RefClip
open Cert.ReferenceIdeal Cert.ReferenceIdeal.ValueP Idealize.ShloMosaic.StableHlo

def clipR (x : S32768x1.Idx → EReal) : S32768x1.Idx → EReal := fun i => lvS (x i)

theorem clipR_spec (V₂ : Valuation τ sig (Elt Ideal)) :
    (StableHlo.after (opsR0 (F := Ideal)) V₂ (Proc.devRef .tc main_v59) : S32768x1.Idx → EReal)
      = clipR (V₂ (Proc.devRef .tc main_arg3)) := by
  after_results
  rfl

theorem clipR_spec' (V₂ : Valuation τ sig (Elt Ideal)) :
    (StableHlo.after (opsS0 (F := Ideal)) V₂ (Proc.devRef .tc main_v199) : S32768x1.Idx → EReal)
      = clipR (V₂ (Proc.devRef .tc main_arg6)) := by
  after_results
  rfl

end RefClip

def comb (o0 o1 o2 : EReal) : EReal :=
  ((Ideal.ofBits .f32 0x3F800000#32 * Ideal.div o0 (Ideal.ofBits .f32 0x47000000#32)
      + Ideal.ofBits .f32 0x3F800000#32 * Ideal.div o1 (Ideal.ofBits .f32 0x47000000#32))
    + Ideal.div o2 (Ideal.ofBits .f32 0x47000000#32)) * Ideal.ofBits .f32 0x3F800000#32

theorem comb_congr {a a' b b' c c' : EReal} (ha : a = a') (hb : b = b') (hc : c = c') : comb a b c = comb a' b' c' := by
  subst ha hb hc; rfl

section Bcast
open Idealize.ShloMosaic.StableHlo

-- A value at a row, spread over the row's one entry.
theorem bcast_col {α : Type} {n : ℕ} (h : (⟨1, ![n]⟩ : Shape).BroadcastsInDim ⟨2, ![n, 1]⟩ ![0]) (x : (⟨1, ![n]⟩ : Shape).Idx → α)
    (r : (⟨2, ![n, 1]⟩ : Shape).Idx) : broadcastInDim ⟨2, ![n, 1]⟩ ![0] h x r = x (ValueIdx.ix1 (r 0)) :=
  broadcastInDim_apply ![0] h x r _ fun a => by
    obtain rfl : a = (0 : Fin 1) := Subsingleton.elim _ _
    have hr : (r 0).val < n := (r 0).isLt
    show (r 0).val = if n = 1 then 0 else (r 0).val
    split
    · omega
    · rfl

end Bcast

section RSide
open Cert.ReferenceIdeal Cert.ReferenceIdeal.ValueP Cert.ReferenceIdeal.Gen Idealize.ShloMosaic.StableHlo

def sdF (idx : S262144.Idx → BitVec 32) (dsq : S262144.Idx → EReal) : S32768.Idx → EReal :=
  Host.scatterAdd (F := Ideal) scatter_S32768_S262144x1_S262144_n_0_0_1
    (broadcastInDim S32768 ![] bcast_S_S32768 (constant S_ .f32 0x00000000#32))
    (broadcastInDim S262144x1 ![0] bcast_S262144_S262144x1_0 idx) dsq

def cnF (idx : S262144.Idx → BitVec 32) : S32768.Idx → EReal :=
  Host.scatterAdd (F := Ideal) scatter_S32768_S262144x1_S262144_n_0_0_1
    (broadcastInDim S32768 ![] bcast_S_S32768 (constant S_ .f32 0x00000000#32))
    (broadcastInDim S262144x1 ![0] bcast_S262144_S262144x1_0 idx)
    (broadcastInDim S262144 ![] bcast_S_S262144 (constant S_ .f32 0x3F800000#32))

def refTerm (pr lv dt : S32768x1.Idx → EReal) (idx : S262144.Idx → BitVec 32) (dsq : S262144.Idx → EReal) : EReal :=
  comb (Ideal.ofBits .f32 0x00000000#32 + ∑ r : S32768x1.Idx, Ideal.div (pr r) (denS (lv r) (dt r)))
    (Ideal.ofBits .f32 0x00000000#32 + ∑ r : S32768x1.Idx,
      Ideal.div (spatS (sdF idx dsq (ValueIdx.ix1 (r 0))) (cnF idx (ValueIdx.ix1 (r 0)))) (denS (lv r) (dt r)))
    (Ideal.ofBits .f32 0x00000000#32 + ∑ r : S32768x1.Idx, Ideal.ofBits .f32 0x3F000000#32 * lv r)

theorem spat_pt (cn sd : S32768.Idx → EReal) (p : S32768.Idx) :
    ((TRef.of (T := ⟨S32768, .f32⟩) main_v174).toBuf (Val := Elt Ideal)
      (select
        ((TRef.of (T := ⟨S32768, .i1⟩) main_v169).ofBuf (Val := Elt Ideal)
          (cmpf (F := Ideal) (φ := .f32) .ogt cn (broadcastInDim S32768 ![] bcast_S_S32768 (constant S_ .f32 0x00000000#32))))
        ((TRef.of (T := ⟨S32768, .f32⟩) main_v173).ofBuf (Val := Elt Ideal)
          (Host.divf (F := Ideal) (φ := .f32) sd
            (mulf (maximumf cn (broadcastInDim S32768 ![] bcast_S_S32768 (constant S_ .f32 0x3F800000#32)))
              (maximumf cn (broadcastInDim S32768 ![] bcast_S_S32768 (constant S_ .f32 0x3F800000#32))))))
        ((TRef.of (T := ⟨S32768, .f32⟩) main_call4_v1).ofBuf (Val := Elt Ideal)
          ((TRef.of (T := ⟨S32768, .f32⟩) main_call4_v1).toBuf (Val := Elt Ideal)
            (broadcastInDim S32768 ![] bcast_S_S32768
              ((TRef.of (T := ⟨S_, .f32⟩) main_call4_v0).ofBuf (Val := Elt Ideal)
                ((TRef.of (T := ⟨S_, .f32⟩) main_call4_v0).toBuf (Val := Elt Ideal)
                  (id ((TRef.of (T := ⟨S_, .f32⟩) main_cst_57).ofBuf (Val := Elt Ideal) (constant (F := Ideal) S_ .f32 0x3B6BEDFA#32)))))))))
        : S32768.Idx → EReal) p
      = spatS (sd p) (cn p) := rfl

theorem spat_pt' (cn sd : S32768.Idx → EReal) (p : S32768.Idx) :
    ((TRef.of (T := ⟨S32768, .f32⟩) main_v314).toBuf (Val := Elt Ideal)
      (select
        ((TRef.of (T := ⟨S32768, .i1⟩) main_v309).ofBuf (Val := Elt Ideal)
          (cmpf (F := Ideal) (φ := .f32) .ogt cn (broadcastInDim S32768 ![] bcast_S_S32768 (constant S_ .f32 0x00000000#32))))
        ((TRef.of (T := ⟨S32768, .f32⟩) main_v313).ofBuf (Val := Elt Ideal)
          (Host.divf (F := Ideal) (φ := .f32) sd
            (mulf (maximumf cn (broadcastInDim S32768 ![] bcast_S_S32768 (constant S_ .f32 0x3F800000#32)))
              (maximumf cn (broadcastInDim S32768 ![] bcast_S_S32768 (constant S_ .f32 0x3F800000#32))))))
        ((TRef.of (T := ⟨S32768, .f32⟩) main_call8_v1).ofBuf (Val := Elt Ideal)
          ((TRef.of (T := ⟨S32768, .f32⟩) main_call8_v1).toBuf (Val := Elt Ideal)
            (broadcastInDim S32768 ![] bcast_S_S32768
              ((TRef.of (T := ⟨S_, .f32⟩) main_call8_v0).ofBuf (Val := Elt Ideal)
                ((TRef.of (T := ⟨S_, .f32⟩) main_call8_v0).toBuf (Val := Elt Ideal)
                  (id ((TRef.of (T := ⟨S_, .f32⟩) main_cst_105).ofBuf (Val := Elt Ideal) (constant (F := Ideal) S_ .f32 0x3B6BEDFA#32)))))))))
        : S32768.Idx → EReal) p
      = spatS (sd p) (cn p) := rfl

abbrev tot (X : S32768x1.Idx → EReal) (i : S_.Idx) : EReal :=
  Host.reduceAdd (F := Ideal) X (constant S_ .f32 0x00000000#32) reducesTo_S32768x1_S_d0_1 h_S_ i

theorem reduce_total (X f : S32768x1.Idx → EReal) (hX : ∀ r, X r = f r) (i : S_.Idx) :
    tot X i = Ideal.ofBits .f32 0x00000000#32 + ∑ r : S32768x1.Idx, f r :=
  (Ideal.hostReduceAdd_total reducesTo_S32768x1_S_d0_1 (fun b => b.elim0) X (Ideal.ofBits .f32 0x00000000#32) i).trans
    (congrArg (fun z => Ideal.ofBits .f32 0x00000000#32 + z) (Finset.sum_congr rfl fun r _ => hX r))

theorem r5_apply (V₂ : Valuation τ sig (Elt Ideal)) (i : S_.Idx) :
    (StableHlo.after (opsR5 (F := Ideal)) V₂ (Proc.devRef .tc main_v197) : S_.Idx → EReal) i
      = refTerm (V₂ (Proc.devRef .tc main_v143)) (V₂ (Proc.devRef .tc main_v59)) (V₂ (Proc.devRef .tc main_v68))
          (V₂ (Proc.devRef .tc main_arg16)) (V₂ (Proc.devRef .tc main_v160)) := by
  unfold refTerm
  after_results_simp
  show comb (tot _ i) (tot _ i) (tot _ i) = _
  refine comb_congr (reduce_total _ _ ?_ i) (reduce_total _ _ ?_ i) (reduce_total _ _ ?_ i)
  · exact fun _ => rfl
  · intro r
    refine congrArg₂ Ideal.div ((bcast_col _ _ r).trans ?_) rfl
    exact spat_pt (cnF (V₂ (Proc.devRef .tc main_arg16))) (sdF (V₂ (Proc.devRef .tc main_arg16)) (V₂ (Proc.devRef .tc main_v160))) _
  · exact fun _ => rfl

theorem s5_apply (V₂ : Valuation τ sig (Elt Ideal)) (i : S_.Idx) :
    (StableHlo.after (opsS5 (F := Ideal)) V₂ (Proc.devRef .tc main_v337) : S_.Idx → EReal) i
      = refTerm (V₂ (Proc.devRef .tc main_v283)) (V₂ (Proc.devRef .tc main_v199)) (V₂ (Proc.devRef .tc main_v208))
          (V₂ (Proc.devRef .tc main_arg21)) (V₂ (Proc.devRef .tc main_v300)) := by
  unfold refTerm
  after_results_simp
  show comb (tot _ i) (tot _ i) (tot _ i) = _
  refine comb_congr (reduce_total _ _ ?_ i) (reduce_total _ _ ?_ i) (reduce_total _ _ ?_ i)
  · exact fun _ => rfl
  · intro r
    refine congrArg₂ Ideal.div ((bcast_col _ _ r).trans ?_) rfl
    exact spat_pt' (cnF (V₂ (Proc.devRef .tc main_arg21))) (sdF (V₂ (Proc.devRef .tc main_arg21)) (V₂ (Proc.devRef .tc main_v300))) _
  · exact fun _ => rfl

end RSide

section KSide
open Cert.KernelIdeal Cert.KernelIdeal.Gen Cert.KernelIdeal.Hand Idealize.ShloMosaic.StableHlo
variable (m : (ℓ : Loc nD τ sig) → Buf (Elt Ideal) ℓ) (c : Dev nD)

theorem out_col (o : S1x3.Idx → EReal) (k : ℕ) (hk : S3.Slices ![k] S1) (i : S_.Idx) (j : S1x3.Idx) (hj : (j 1).val = k) :
    shapeCast S_ (extractStridedSlice S1 ![k] (shapeCast S3 o shapeCasts_S1x3_S3) hk) shapeCasts_S1_S_ i = o j := by
  unfold shapeCast extractStridedSlice
  dsimp only
  congr 1
  apply Shape.reshapeEquiv_eq_of_rowMajor
  rw [Shape.rowMajor_val_two, Shape.rowMajor_val_one]
  have h0 : (j 0).val = 0 := by have h : (j 0).val < 1 := (j 0).isLt; omega
  have hz : ∀ (y : S1.Idx), (y 0).val = 0 := fun y => by have h : (y 0).val < 1 := (y 0).isLt; omega
  show (j 0).val * 3 + (j 1).val = k + ((Shape.reshapeEquiv shapeCasts_S1_S_ i) 0).val
  rw [h0, hj, hz]; omega

theorem k3a_apply (Y : Valuation τ sig (Elt Ideal)) (i : S_.Idx) :
    (StableHlo.after (hostOps3a (F := Ideal)) Y (Proc.devRef .tc main_v151) : S_.Idx → EReal) i
      = comb ((Y (Proc.devRef .tc main_v136) : S1x3.Idx → EReal) (ValueIdx.ix2 0 0))
          ((Y (Proc.devRef .tc main_v136) : S1x3.Idx → EReal) (ValueIdx.ix2 0 1))
          ((Y (Proc.devRef .tc main_v136) : S1x3.Idx → EReal) (ValueIdx.ix2 0 2)) := by
  simp only [hostOps3a, hostOps3, List.take_succ_cons, List.take_zero]
  after_results
  exact comb_congr (out_col (Y (Proc.devRef .tc main_v136)) 0 slices_S3_S1_0 i (ValueIdx.ix2 0 0) rfl)
    (out_col (Y (Proc.devRef .tc main_v136)) 1 slices_S3_S1_1 i (ValueIdx.ix2 0 1) rfl)
    (out_col (Y (Proc.devRef .tc main_v136)) 2 slices_S3_S1_2 i (ValueIdx.ix2 0 2) rfl)

end KSide

section KScatter
open Idealize.ShloMosaic.StableHlo Idealize.ShloMosaic.ValueIdx

theorem scatter_col (k : Fin 2)
    (xP : Cert.KernelIdeal.S32768x2.Idx → EReal) (idxB : Cert.KernelIdeal.S262144x1.Idx → BitVec 32)
    (updP : Cert.KernelIdeal.S262144x2.Idx → EReal)
    (xF : Cert.ReferenceIdeal.S32768.Idx → EReal) (updF : Cert.ReferenceIdeal.S262144.Idx → EReal) (i : Fin 32768)
    (hx : xP (ix2 i k) = xF (ix1 i)) (hu : ∀ e, updP (ix2 e k) = updF (ix1 e)) :
    Host.scatterAdd (F := Ideal) (φ := .f32) Cert.KernelIdeal.scatter_S32768x2_S262144x1_S262144x2_1_0_0_1 xP idxB updP (ix2 i k)
      = Host.scatterAdd (F := Ideal) (φ := .f32) Cert.ReferenceIdeal.scatter_S32768_S262144x1_S262144_n_0_0_1 xF idxB updF (ix1 i) :=
  ScatterCols.cols_eq_flat (n := 32768) (E := 262144) (C := 2) (w := 32)
    Cert.KernelIdeal.Facts₀.scatter_S32768x2_S262144x1_S262144x2_1_0_0_1_wf
    Cert.ReferenceIdeal.Facts₀.scatter_S32768_S262144x1_S262144_n_0_0_1_wf xP xF idxB updP updF i k hx hu

section
open Cert.KernelIdeal Cert.KernelIdeal.Gen Cert.KernelIdeal.Hand

theorem upd_col0 (dsq : S262144.Idx → EReal) (one : S262144x1.Idx → EReal) (e : Fin 262144) :
    concatenate S262144x2 1
        [⟨S262144x1, broadcastInDim (s := S262144) (α := EReal) S262144x1 ![0] bcast_S262144_S262144x1_0 dsq⟩, ⟨S262144x1, one⟩]
        concatenates_S262144x1_S262144x1_S262144x2_d1 (ix2 e 0) = dsq (ix1 e) :=
  (concatenate_pair_apply_left (t := S262144x2) (s₁ := S262144x1) (s₂ := S262144x1) (1 : Fin 2) _ _ _ (ix2 e 0 : S262144x2.Idx) rfl (ix2 e 0 : S262144x1.Idx)
    (fun b => by match b with | ⟨0, _⟩ => rfl | ⟨1, _⟩ => rfl)).trans (bcast_col _ dsq (ix2 e 0))

theorem upd_col1 (a : S262144x1.Idx → EReal) (e : Fin 262144) :
    concatenate S262144x2 1
        [⟨S262144x1, a⟩, ⟨S262144x1, broadcastInDim (s := S_) (α := EReal) S262144x1 ![] bcast_S_S262144x1 (constant (F := Ideal) S_ .f32 0x3F800000#32)⟩]
        concatenates_S262144x1_S262144x1_S262144x2_d1 (ix2 e 1) = Ideal.ofBits .f32 0x3F800000#32 :=
  concatenate_pair_apply_right (t := S262144x2) (s₁ := S262144x1) (s₂ := S262144x1) (1 : Fin 2) _ _ _
    (ix2 e 1 : S262144x2.Idx) rfl rfl (ix2 e 0 : S262144x1.Idx)
    (fun b hb => by match b, hb with | ⟨0, _⟩, _ => rfl | ⟨1, _⟩, hb => exact absurd rfl hb) rfl

def scP (idx : S262144.Idx → BitVec 32) (dsq : S262144.Idx → EReal) : S32768x2.Idx → EReal :=
  Host.scatterAdd (F := Ideal) (φ := .f32) scatter_S32768x2_S262144x1_S262144x2_1_0_0_1
    (broadcastInDim (s := S_) (α := EReal) S32768x2 ![] bcast_S_S32768x2 (constant (F := Ideal) S_ .f32 0x00000000#32))
    (broadcastInDim (s := S262144) (α := BitVec 32) S262144x1 ![0] bcast_S262144_S262144x1_0 idx)
    (concatenate S262144x2 1
      [⟨S262144x1, broadcastInDim (s := S262144) (α := EReal) S262144x1 ![0] bcast_S262144_S262144x1_0 dsq⟩,
        ⟨S262144x1, broadcastInDim (s := S_) (α := EReal) S262144x1 ![] bcast_S_S262144x1 (constant (F := Ideal) S_ .f32 0x3F800000#32)⟩]
      concatenates_S262144x1_S262144x1_S262144x2_d1)

theorem scP_col0 (idx : S262144.Idx → BitVec 32) (dsq : S262144.Idx → EReal) (i : Fin 32768) :
    scP idx dsq (ix2 i 0) = sdF idx dsq (ix1 i) := by
  unfold scP sdF
  refine scatter_col 0 _ _ _ _ _ i ?_ ?_
  · rfl
  · exact fun e => upd_col0 dsq _ e

theorem scP_col1 (idx : S262144.Idx → BitVec 32) (dsq : S262144.Idx → EReal) (i : Fin 32768) :
    scP idx dsq (ix2 i 1) = cnF idx (ix1 i) := by
  unfold scP cnF
  refine scatter_col 1 _ _ _ _ _ i ?_ ?_
  · rfl
  · exact fun e => upd_col1 _ e
end

end KScatter

section Assemble
open Cert.KernelIdeal Cert.KernelIdeal.Gen Cert.KernelIdeal.Hand Idealize.ShloMosaic.StableHlo Idealize.ShloMosaic.ValueIdx

theorem slice_col (k : ℕ) (hk : k < 2) (z : S32768x2.Idx → EReal) (hs : S32768x2.Slices ![0, k] S32768x1) (r : S32768x1.Idx) :
    extractStridedSlice S32768x1 ![0, k] z hs r = z (ix2 (r 0) ⟨k, hk⟩) := by
  unfold extractStridedSlice
  congr 1
  funext a
  have h1 : (r 1).val < 1 := (r 1).isLt
  match a with
  | ⟨0, _⟩ => exact Fin.ext (by show 0 + (r 0).val = (r 0).val; omega)
  | ⟨1, _⟩ => exact Fin.ext (by show k + (r 1).val = k; omega)

theorem k2b_keep (X : Valuation τ sig (Elt Ideal)) (b : Ref sig .tc) (hb : b = main_arg3 ∨ b = main_v110 ∨ b = main_v52) :
    StableHlo.after (hostOps2b (F := Ideal)) X (Proc.devRef .tc b) = X (Proc.devRef .tc b) := by
  simp only [hostOps2b, hostOps2, List.drop_succ_cons, List.drop_zero]
  rcases hb with rfl | rfl | rfl <;> after_results

theorem k2b_v134 (X : Valuation τ sig (Elt Ideal)) :
    (StableHlo.after (hostOps2b (F := Ideal)) X (Proc.devRef .tc main_v134) : S32768x1.Idx → EReal)
      = extractStridedSlice S32768x1 ![0, 0] (scP (X (Proc.devRef .tc main_arg16)) (X (Proc.devRef .tc main_v127))) slices_S32768x2_S32768x1_0_0 := by
  simp only [hostOps2b, hostOps2, List.drop_succ_cons, List.drop_zero]
  after_results
  rfl

theorem k2b_v135 (X : Valuation τ sig (Elt Ideal)) :
    (StableHlo.after (hostOps2b (F := Ideal)) X (Proc.devRef .tc main_v135) : S32768x1.Idx → EReal)
      = extractStridedSlice S32768x1 ![0, 1] (scP (X (Proc.devRef .tc main_arg16)) (X (Proc.devRef .tc main_v127))) slices_S32768x2_S32768x1_0_1 := by
  simp only [hostOps2b, hostOps2, List.drop_succ_cons, List.drop_zero]
  after_results
  rfl

end Assemble

section Term
open Cert.KernelIdeal Idealize.ShloMosaic.ValueIdx

-- The kernel's column sums, over arrays that agree row by row with the reference's, are the reference's three sums.
theorem term_eq {o : S1x3.Idx → EReal} {a0 a1 a2 a3 a4 x pr dt lv : S32768x1.Idx → EReal}
    {idx : Cert.ReferenceIdeal.S262144.Idx → BitVec 32} {dsq : Cert.ReferenceIdeal.S262144.Idx → EReal}
    (hG : o = G2 a0 a1 a2 a3 a4) (h0 : a0 = x) (h1 : a1 = pr) (h4 : a4 = dt)
    (h2 : ∀ r, a2 r = sdF idx dsq (ix1 (r 0))) (h3 : ∀ r, a3 r = cnF idx (ix1 (r 0))) (hclip : lv = clipR x) :
    comb (o (ix2 0 0)) (o (ix2 0 1)) (o (ix2 0 2)) = refTerm pr lv dt idx dsq := by
  subst hG h0 h1 h4 hclip
  unfold refTerm
  refine comb_congr ?_ ?_ ?_ <;> rw [Ideal.ofBits_zero_f32, zero_add]
  · exact Finset.sum_congr rfl fun r _ => rfl
  · exact Finset.sum_congr rfl fun r _ => by
      show Ideal.div (spatS (a2 r) (a3 r)) _ = _
      rw [h2, h3]; rfl
  · exact Finset.sum_congr rfl fun r _ => rfl

end Term

section BlockD1
open Cert.KernelIdeal Cert.KernelIdeal.Gen Cert.KernelIdeal.Hand Idealize.ShloMosaic.StableHlo Idealize.ShloMosaic.ValueIdx

theorem blockD1 (m : (ℓ : Loc nD τ sig) → Buf (Elt Ideal) ℓ) (c : Dev nD)
    (V₂ : Valuation Cert.ReferenceIdeal.τ Cert.ReferenceIdeal.sig (Elt Ideal))
    (h3 : HEq (StableHlo.after (hostOps2a (F := Ideal)) (W8 m c) (Proc.devRef .tc main_arg3)) (V₂ (Proc.devRef .tc Cert.ReferenceIdeal.main_arg3)))
    (h16 : HEq (StableHlo.after (hostOps2a (F := Ideal)) (W8 m c) (Proc.devRef .tc main_arg16)) (V₂ (Proc.devRef .tc Cert.ReferenceIdeal.main_arg16)))
    (h110 : HEq (StableHlo.after (hostOps2a (F := Ideal)) (W8 m c) (Proc.devRef .tc main_v110)) (V₂ (Proc.devRef .tc Cert.ReferenceIdeal.main_v143)))
    (h127 : HEq (StableHlo.after (hostOps2a (F := Ideal)) (W8 m c) (Proc.devRef .tc main_v127)) (V₂ (Proc.devRef .tc Cert.ReferenceIdeal.main_v160)))
    (h52 : HEq (StableHlo.after (hostOps2a (F := Ideal)) (W8 m c) (Proc.devRef .tc main_v52)) (V₂ (Proc.devRef .tc Cert.ReferenceIdeal.main_v68)))
    (hclip : (V₂ (Proc.devRef .tc Cert.ReferenceIdeal.main_v59) : Cert.ReferenceIdeal.S32768x1.Idx → EReal)
      = clipR (V₂ (Proc.devRef .tc Cert.ReferenceIdeal.main_arg3))) :
    HEq (StableHlo.after (hostOps3a (F := Ideal)) (W10 m c) (Proc.devRef .tc main_v151))
      (StableHlo.after (Cert.ReferenceIdeal.ValueP.opsR5 (F := Ideal)) V₂ (Proc.devRef .tc Cert.ReferenceIdeal.main_v197)) := by
  have hsplit : ∀ b : Ref sig .tc, Vt9 m c b
      = StableHlo.after (hostOps2b (F := Ideal)) (StableHlo.after (hostOps2a (F := Ideal)) (W8 m c)) (Proc.devRef .tc b) := fun b => by
    show StableHlo.after hostOps2 (W8 m c) (Proc.devRef .tc b) = _
    rw [hostOps2_split, StableHlo.after_append]
  have key : ∀ i : S_.Idx,
      (StableHlo.after (hostOps3a (F := Ideal)) (W10 m c) (Proc.devRef .tc main_v151) : S_.Idx → EReal) i
        = (StableHlo.after (Cert.ReferenceIdeal.ValueP.opsR5 (F := Ideal)) V₂ (Proc.devRef .tc Cert.ReferenceIdeal.main_v197) : S_.Idx → EReal) i := fun i => by
    rw [k3a_apply (W10 m c) i, r5_apply V₂ i]
    exact term_eq ((W10_arr m c 5).trans (arr2_final (Vt9 m) c)) (by rw [hsplit, k2b_keep _ _ (.inl rfl)]; exact eq_of_heq h3) (by rw [hsplit, k2b_keep _ _ (.inr (.inl rfl))]; exact eq_of_heq h110)
      (by rw [hsplit, k2b_keep _ _ (.inr (.inr rfl))]; exact eq_of_heq h52)
      (fun r => by rw [hsplit, k2b_v134, slice_col 0 (by omega), eq_of_heq h16, eq_of_heq h127]; exact scP_col0 _ _ (r 0))
      (fun r => by rw [hsplit, k2b_v135, slice_col 1 (by omega), eq_of_heq h16, eq_of_heq h127]; exact scP_col1 _ _ (r 0)) hclip
  exact heq_of_eq (funext key)
end BlockD1

section KSide2
open Cert.KernelIdeal Cert.KernelIdeal.Gen Cert.KernelIdeal.Hand Idealize.ShloMosaic.StableHlo
theorem k5a_apply (Y : Valuation τ sig (Elt Ideal)) (i : S_.Idx) :
    (StableHlo.after (hostOps5a (F := Ideal)) Y (Proc.devRef .tc main_v260) : S_.Idx → EReal) i
      = comb ((Y (Proc.devRef .tc main_v245) : S1x3.Idx → EReal) (ValueIdx.ix2 0 0))
          ((Y (Proc.devRef .tc main_v245) : S1x3.Idx → EReal) (ValueIdx.ix2 0 1))
          ((Y (Proc.devRef .tc main_v245) : S1x3.Idx → EReal) (ValueIdx.ix2 0 2)) := by
  simp only [hostOps5a, hostOps5, List.take_succ_cons, List.take_zero]
  after_results
  exact comb_congr (out_col (Y (Proc.devRef .tc main_v245)) 0 slices_S3_S1_0 i (ValueIdx.ix2 0 0) rfl)
    (out_col (Y (Proc.devRef .tc main_v245)) 1 slices_S3_S1_1 i (ValueIdx.ix2 0 1) rfl)
    (out_col (Y (Proc.devRef .tc main_v245)) 2 slices_S3_S1_2 i (ValueIdx.ix2 0 2) rfl)

end KSide2

section Assemble2
open Cert.KernelIdeal Cert.KernelIdeal.Gen Cert.KernelIdeal.Hand Idealize.ShloMosaic.StableHlo Idealize.ShloMosaic.ValueIdx
theorem k4b_keep (X : Valuation τ sig (Elt Ideal)) (b : Ref sig .tc) (hb : b = main_arg6 ∨ b = main_v219 ∨ b = main_v161) :
    StableHlo.after (hostOps4b (F := Ideal)) X (Proc.devRef .tc b) = X (Proc.devRef .tc b) := by
  simp only [hostOps4b, hostOps4, List.drop_succ_cons, List.drop_zero]
  rcases hb with rfl | rfl | rfl <;> after_results

theorem k4b_v243 (X : Valuation τ sig (Elt Ideal)) :
    (StableHlo.after (hostOps4b (F := Ideal)) X (Proc.devRef .tc main_v243) : S32768x1.Idx → EReal)
      = extractStridedSlice S32768x1 ![0, 0] (scP (X (Proc.devRef .tc main_arg21)) (X (Proc.devRef .tc main_v236))) slices_S32768x2_S32768x1_0_0 := by
  simp only [hostOps4b, hostOps4, List.drop_succ_cons, List.drop_zero]
  after_results
  rfl

theorem k4b_v244 (X : Valuation τ sig (Elt Ideal)) :
    (StableHlo.after (hostOps4b (F := Ideal)) X (Proc.devRef .tc main_v244) : S32768x1.Idx → EReal)
      = extractStridedSlice S32768x1 ![0, 1] (scP (X (Proc.devRef .tc main_arg21)) (X (Proc.devRef .tc main_v236))) slices_S32768x2_S32768x1_0_1 := by
  simp only [hostOps4b, hostOps4, List.drop_succ_cons, List.drop_zero]
  after_results
  rfl

end Assemble2

section BlockD2
open Cert.KernelIdeal Cert.KernelIdeal.Gen Cert.KernelIdeal.Hand Idealize.ShloMosaic.StableHlo Idealize.ShloMosaic.ValueIdx

theorem blockD2 (m : (ℓ : Loc nD τ sig) → Buf (Elt Ideal) ℓ) (c : Dev nD)
    (V₂ : Valuation Cert.ReferenceIdeal.τ Cert.ReferenceIdeal.sig (Elt Ideal))
    (h3 : HEq (StableHlo.after (hostOps4a (F := Ideal)) (W16 m c) (Proc.devRef .tc main_arg6)) (V₂ (Proc.devRef .tc Cert.ReferenceIdeal.main_arg6)))
    (h16 : HEq (StableHlo.after (hostOps4a (F := Ideal)) (W16 m c) (Proc.devRef .tc main_arg21)) (V₂ (Proc.devRef .tc Cert.ReferenceIdeal.main_arg21)))
    (h110 : HEq (StableHlo.after (hostOps4a (F := Ideal)) (W16 m c) (Proc.devRef .tc main_v219)) (V₂ (Proc.devRef .tc Cert.ReferenceIdeal.main_v283)))
    (h127 : HEq (StableHlo.after (hostOps4a (F := Ideal)) (W16 m c) (Proc.devRef .tc main_v236)) (V₂ (Proc.devRef .tc Cert.ReferenceIdeal.main_v300)))
    (h52 : HEq (StableHlo.after (hostOps4a (F := Ideal)) (W16 m c) (Proc.devRef .tc main_v161)) (V₂ (Proc.devRef .tc Cert.ReferenceIdeal.main_v208)))
    (hclip : (V₂ (Proc.devRef .tc Cert.ReferenceIdeal.main_v199) : Cert.ReferenceIdeal.S32768x1.Idx → EReal)
      = clipR (V₂ (Proc.devRef .tc Cert.ReferenceIdeal.main_arg6))) :
    HEq (StableHlo.after (hostOps5a (F := Ideal)) (W18 m c) (Proc.devRef .tc main_v260))
      (StableHlo.after (Cert.ReferenceIdeal.ValueP.opsS5 (F := Ideal)) V₂ (Proc.devRef .tc Cert.ReferenceIdeal.main_v337)) := by
  have hsplit : ∀ b : Ref sig .tc, Vt17 m c b
      = StableHlo.after (hostOps4b (F := Ideal)) (StableHlo.after (hostOps4a (F := Ideal)) (W16 m c)) (Proc.devRef .tc b) := fun b => by
    show StableHlo.after hostOps4 (W16 m c) (Proc.devRef .tc b) = _
    rw [hostOps4_split, StableHlo.after_append]
  have key : ∀ i : S_.Idx,
      (StableHlo.after (hostOps5a (F := Ideal)) (W18 m c) (Proc.devRef .tc main_v260) : S_.Idx → EReal) i
        = (StableHlo.after (Cert.ReferenceIdeal.ValueP.opsS5 (F := Ideal)) V₂ (Proc.devRef .tc Cert.ReferenceIdeal.main_v337) : S_.Idx → EReal) i := fun i => by
    rw [k5a_apply (W18 m c) i, s5_apply V₂ i]
    exact term_eq ((W18_arr m c 5).trans (arr4_final (Vt17 m) c)) (by rw [hsplit, k4b_keep _ _ (.inl rfl)]; exact eq_of_heq h3) (by rw [hsplit, k4b_keep _ _ (.inr (.inl rfl))]; exact eq_of_heq h110)
      (by rw [hsplit, k4b_keep _ _ (.inr (.inr rfl))]; exact eq_of_heq h52)
      (fun r => by rw [hsplit, k4b_v243, slice_col 0 (by omega), eq_of_heq h16, eq_of_heq h127]; exact scP_col0 _ _ (r 0))
      (fun r => by rw [hsplit, k4b_v244, slice_col 1 (by omega), eq_of_heq h16, eq_of_heq h127]; exact scP_col1 _ _ (r 0)) hclip
  exact heq_of_eq (funext key)
end BlockD2

end Cert.Hand.BlockD
end
-- ==== Proof.Bridge.lean ====
import proofs.«119071_j16140487098675_2_alg».proof.Proof.KI.Run
import proofs.«119071_j16140487098675_2_alg».proof.Proof.Split
import proofs.«119071_j16140487098675_2_alg».proof.Proof.RefOps
import proofs.«119071_j16140487098675_2_alg».proof.Proof.RefWrites
import proofs.«119071_j16140487098675_2_alg».proof.Proof.Lock1
import proofs.«119071_j16140487098675_2_alg».proof.Proof.Lock2
import proofs.«119071_j16140487098675_2_alg».proof.Proof.BlockC
import proofs.«119071_j16140487098675_2_alg».proof.Proof.Finite
import proofs.«119071_j16140487098675_2_alg».proof.Proof.BlockA
import proofs.«119071_j16140487098675_2_alg».proof.Proof.BlockB
import proofs.«119071_j16140487098675_2_alg».proof.Proof.BlockD

noncomputable section

namespace Cert.Hand.Bridge

open Idealize.ShloMosaic Idealize.ShloMosaic.TcCoe Idealize.ShloMosaic.StableHlo

section Carry

variable {τ : Topo} {sig sig₁ sig₂ : RefSig} {Val : EltTy → Type}

/-- `V'` holds what `V` holds at every buffer outside the list `S`. -/
def Keeps (S : List (Ref sig .tc)) (V V' : Valuation τ sig Val) : Prop :=
  ∀ r, r ∉ S → V' (Proc.devRef .tc r) = V (Proc.devRef .tc r)

theorem Keeps.trans {S S' : List (Ref sig .tc)} {V V' V'' : Valuation τ sig Val} (h : Keeps S V V') (h' : Keeps S' V' V'') :
    Keeps (S ++ S') V V'' :=
  fun r hr => (h' r fun e => hr (List.mem_append_right _ e)).trans (h r fun e => hr (List.mem_append_left _ e))

theorem WritesIn.keeps {ops : List (HloOp τ sig Val)} {W : List (Ref sig .tc)} (h : WritesIn ops W) (V : Valuation τ sig Val) :
    Keeps W V (after ops V) := fun _ hr => h.keep V hr

variable {P : List (Ref sig₁ .tc × Ref sig₂ .tc)} {V₁ V₁' : Valuation τ sig₁ Val} {V₂ V₂' : Valuation τ sig₂ Val}

/-- An agreement outlives any change of the first side that keeps the first components of its pairs. -/
theorem carryL (h : Agree P V₁ V₂) {S : List (Ref sig₁ .tc)} (k : Keeps S V₁ V₁')
    (hP : (P.all fun p => !(S.contains p.1)) = true) : Agree P V₁' V₂ :=
  fun p hp => by rw [k p.1 (fst_not_mem hP p hp)]; exact h p hp

theorem carryR (h : Agree P V₁ V₂) {S : List (Ref sig₂ .tc)} (k : Keeps S V₂ V₂')
    (hP : (P.all fun p => !(S.contains p.2)) = true) : Agree P V₁ V₂' :=
  fun p hp => by rw [k p.2 (snd_not_mem hP p hp)]; exact h p hp

theorem tail {p : Ref sig₁ .tc × Ref sig₂ .tc} (h : Agree (p :: P) V₁ V₂) : Agree P V₁ V₂ :=
  h.mono (List.subset_cons_self _ _)

/-- Two valuations that agree at every listed array but `o`, and at every buffer that is no listed array, agree outside `[o]`. -/
theorem keeps_of {gr W : Nat} (win : Fin W → Pipeline.WinSpec sig gr) (out : Fin W → Bool) {V V' : Valuation τ sig Val} {o : Ref sig .tc}
    (ho : ∀ w, out w = true → Pipeline.arrRef win w = o)
    (harr : ∀ w, out w = false → V' (Proc.devRef .tc (Pipeline.arrRef win w)) = V (Proc.devRef .tc (Pipeline.arrRef win w)))
    (hne : ∀ b, (∀ w, Pipeline.arrRef win w ≠ b) → V' (Proc.devRef .tc b) = V (Proc.devRef .tc b)) : Keeps [o] V V' := fun b hb => by
  by_cases h : ∃ w, Pipeline.arrRef win w = b
  · obtain ⟨w, rfl⟩ := h
    exact harr w (Bool.eq_false_iff.mpr fun e => hb (List.mem_singleton.mpr (ho w e)))
  · exact hne b fun w e => h ⟨w, e⟩

theorem after_cut {a b o : List (HloOp τ sig Val)} (h : o = a ++ b) (o₁ o₂ o₃ o₄ : List (HloOp τ sig Val)) (V : Valuation τ sig Val) :
    after (b ++ o₁ ++ o₂ ++ o₃ ++ o₄) (after a V) = after o₄ (after o₃ (after o₂ (after o₁ (after o V)))) := by
  rw [after_append, after_append, after_append, after_append, ← after_append a b, ← h]

end Carry

section Kernel

open Cert.KernelIdeal Cert.KernelIdeal.Gen Cert.KernelIdeal.Hand

variable (m : (ℓ : Loc nD τ sig) → Buf (Elt Ideal) ℓ) (c : Dev nD)

theorem W2_keep : Keeps [main_v28] (W1 m c) (W2 m c) :=
  keeps_of spec0 (fun w => (cfg0.win w).isOut) (by decide)
    (fun w hw => (W2_arr m c w).trans (((dat0 (Vt1 m) c).arrAt_in w hw _).trans (A_eq0 (Vt1 m) c w))) (W2_of_ne m c)

theorem W8_keep : Keeps [main_v102] (W7 m c) (W8 m c) :=
  keeps_of spec1 (fun w => (cfg1.win w).isOut) (by decide)
    (fun w hw => (W8_arr m c w).trans (((dat1 (Vt7 m) c).arrAt_in w hw _).trans (A_eq1 (Vt7 m) c w))) (W8_of_ne m c)

theorem W10_keep : Keeps [main_v136] (W9 m c) (W10 m c) :=
  keeps_of spec2 (fun w => (cfg2.win w).isOut) (by decide)
    (fun w hw => (W10_arr m c w).trans (((dat2 (Vt9 m) c).arrAt_in w hw _).trans (A_eq2 (Vt9 m) c w))) (W10_of_ne m c)

theorem W16_keep : Keeps [main_v211] (W15 m c) (W16 m c) :=
  keeps_of spec3 (fun w => (cfg3.win w).isOut) (by decide)
    (fun w hw => (W16_arr m c w).trans (((dat3 (Vt15 m) c).arrAt_in w hw _).trans (A_eq3 (Vt15 m) c w))) (W16_of_ne m c)

theorem W18_keep : Keeps [main_v245] (W17 m c) (W18 m c) :=
  keeps_of spec4 (fun w => (cfg4.win w).isOut) (by decide)
    (fun w hw => (W18_arr m c w).trans (((dat4 (Vt17 m) c).arrAt_in w hw _).trans (A_eq4 (Vt17 m) c w))) (W18_of_ne m c)

end Kernel

section Bridge

variable [Cert.Pre_finite_inputs.Facts]

open Cert.Hand.Lock (ARGS lock_pred1 lock_edges1 lock_pred2 lock_edges2)
open Cert.Hand.BlockA (blockA)
open Cert.Hand.BlockB (clipL_spec blockB)
open Cert.Hand.BlockC (blockC1 blockC3)
open Cert.Hand.BlockD (clipR_spec clipR_spec' blockD1 blockD2)
open Cert.Hand.Finite (arg_real_4 arg_real_5 arg_real_7 arg_real_8 arg_real_9 arg_real_10 pred1_real pred2_real)
open Cert.KernelIdeal.Gen Cert.KernelIdeal.Hand Cert.ReferenceIdeal.ValueP

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- A list of paired buffers holding the same contents is carried from the launch to the return; each block of mathematics adds the pair of its results. -/
theorem result_heq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    HEq (Cert.KernelIdeal.Hand.W19 (F := Ideal) m c (Proc.devRef .tc Cert.KernelIdeal.main_v261))
      (after (Cert.ReferenceIdeal.ValueP.ops (F := Ideal)) (fun b => m' (c, b)) (Proc.devRef .tc Cert.ReferenceIdeal.main_v338)) := by
  obtain ⟨h0, h1, h2, h3, h4, h5, h6, h7, h8, h9, h10, h11, h12, h13, h14, h15, h16, h17, h18, h19, h20, h21, h22⟩ := hagree c
  rw [after_ops]
  have a0 : Agree ARGS (W0 m c) fun b => m' (c, b) := .cons (heq_of_eq h0.symm) <| .cons (heq_of_eq h1.symm) <| .cons (heq_of_eq h2.symm) <| .cons (heq_of_eq h3.symm) <| .cons (heq_of_eq h4.symm) <| .cons (heq_of_eq h5.symm) <| .cons (heq_of_eq h6.symm) <| .cons (heq_of_eq h7.symm) <| .cons (heq_of_eq h8.symm) <| .cons (heq_of_eq h9.symm) <| .cons (heq_of_eq h10.symm) <| .cons (heq_of_eq h11.symm) <| .cons (heq_of_eq h12.symm) <| .cons (heq_of_eq h13.symm) <| .cons (heq_of_eq h14.symm) <| .cons (heq_of_eq h15.symm) <| .cons (heq_of_eq h16.symm) <| .cons (heq_of_eq h17.symm) <| .cons (heq_of_eq h18.symm) <| .cons (heq_of_eq h19.symm) <| .cons (heq_of_eq h20.symm) <| .cons (heq_of_eq h21.symm) <| .cons (heq_of_eq h22.symm) .nil
  have a1 := carryR a0 (opsL0_in.keeps _) (by decide)
  obtain ⟨ha, hb, hc⟩ := blockA (W0 m c) _ (a1.get (by decide)) (a1.get (by decide)) (a1.get (by decide)) (a1.get (by decide))
  have K1 := (WritesIn.of_forall hostOps0_writes).keeps (W0 m c)
  have a2 := Agree.cons ha (.cons hb (.cons hc (carryR (carryL a1 K1 (by decide)) (opsL16_in.keeps _) (by decide))))
  have a3 := Agree.cons (blockB m c _ (a2.get (by decide)) (a2.get (by decide)) (a2.get (by decide)) (a2.get (by decide)) (a2.get (by decide))
      (by rw [opsL16_in.keep _ (r := ReferenceIdeal.main_v0) (by decide), opsL16_in.keep _ (r := ReferenceIdeal.main_arg0) (by decide), opsL0_in.keep _ (r := ReferenceIdeal.main_arg0) (by decide)]; exact clipL_spec _))
    (carryR (carryL (tail (tail (tail a2))) ((W2_keep m c).trans (((WritesIn.of_forall hostOps1_writes).take 21).keeps _)) (by decide)) (opsL7_in.keeps _) (by decide))
  have a5 := lock_pred1 _ _ (carryR a3 (opsR0_in.keeps _) (by decide))
  rw [after_cut hostOps1_split] at a5
  have K2 := K1.trans (W2_keep m c)
  have K7 := ((((K2.trans ((WritesIn.of_forall hostOps1_writes).keeps _)).trans ((WritesIn.of_forall hostOps1_1_writes).keeps _)).trans ((WritesIn.of_forall hostOps1_2_writes).keeps _)).trans ((WritesIn.of_forall hostOps1_3_writes).keeps _)).trans ((WritesIn.of_forall hostOps1_4_writes).keeps _)
  have a6 := Agree.cons ((heq_of_eq (W8_arr m c 2)).trans (blockC1 (Vt7 m) c _ (a5.get (by decide)) (a5.get (by decide))
      (pred1_real (W2 m c) (by rw [K2 KernelIdeal.main_arg4 (by decide)]; exact arg_real_4 m hpre c) (by rw [K2 KernelIdeal.main_arg5 (by decide)]; exact arg_real_5 m hpre c)
        (by rw [K2 KernelIdeal.main_arg10 (by decide)]; exact arg_real_10 m hpre c))
      (by rw [show Vt7 m c KernelIdeal.main_arg9 = _ from K7 KernelIdeal.main_arg9 (by decide)]; exact arg_real_9 m hpre c)))
    (carryR (carryL (tail a5) (W8_keep m c) (by decide)) (opsR2_in.keeps _) (by decide))
  have a7 := lock_edges1 _ _ a6
  have kR := fun V => (((opsR1_in (F := Ideal)).keeps V).trans (opsR2_in.keeps _)).trans (opsR34_in.keeps _)
  have a8 := Agree.cons (blockD1 m c _ (a7.get (by decide)) (a7.get (by decide)) (a7.get (by decide)) (a7.get (by decide)) (a7.get (by decide))
      (by rw [kR _ ReferenceIdeal.main_v59 (by decide), ((opsR0_in.keeps _).trans (kR _)) ReferenceIdeal.main_arg3 (by decide)]; exact clipR_spec _))
    (carryR (carryL (tail (tail a6)) (((WritesIn.of_forall hostOps2_writes).keeps _).trans ((W10_keep m c).trans (((WritesIn.of_forall hostOps3_writes).take 21).keeps _))) (by decide))
      ((opsR34_in.keeps _).trans (opsR5_in.keeps _)) (by decide))
  have a9 := lock_pred2 _ _ a8
  rw [after_cut hostOps3_split] at a9
  have K10 := ((K7.trans (W8_keep m c)).trans ((WritesIn.of_forall hostOps2_writes).keeps _)).trans (W10_keep m c)
  have K15 := ((((K10.trans ((WritesIn.of_forall hostOps3_writes).keeps _)).trans ((WritesIn.of_forall hostOps3_1_writes).keeps _)).trans ((WritesIn.of_forall hostOps3_2_writes).keeps _)).trans ((WritesIn.of_forall hostOps3_3_writes).keeps _)).trans ((WritesIn.of_forall hostOps3_4_writes).keeps _)
  have a10 := Agree.cons ((heq_of_eq (W16_arr m c 2)).trans (blockC3 (Vt15 m) c _ (a9.get (by decide)) (a9.get (by decide))
      (pred2_real (W10 m c) (by rw [K10 KernelIdeal.main_arg7 (by decide)]; exact arg_real_7 m hpre c) (by rw [K10 KernelIdeal.main_arg8 (by decide)]; exact arg_real_8 m hpre c)
        (by rw [K10 KernelIdeal.main_arg10 (by decide)]; exact arg_real_10 m hpre c))
      (by rw [show Vt15 m c KernelIdeal.main_arg9 = _ from K15 KernelIdeal.main_arg9 (by decide)]; exact arg_real_9 m hpre c)))
    (carryR (carryL (tail a9) (W16_keep m c) (by decide)) (opsS2_in.keeps _) (by decide))
  have a11 := lock_edges2 _ _ a10
  have kS := fun V => (((opsS1_in (F := Ideal)).keeps V).trans (opsS2_in.keeps _)).trans (opsS34_in.keeps _)
  have a12 := Agree.cons (blockD2 m c _ (a11.get (by decide)) (a11.get (by decide)) (a11.get (by decide)) (a11.get (by decide)) (a11.get (by decide))
      (by rw [after_append (opsR6 ++ opsS0) opsS1, after_append opsR6 opsS0, kS _ ReferenceIdeal.main_v199 (by decide), ((opsS0_in.keeps _).trans (kS _)) ReferenceIdeal.main_arg6 (by decide)]; exact clipR_spec' _))
    (carryR (carryL (tail (tail a10)) (((WritesIn.of_forall hostOps4_writes).keeps _).trans ((W18_keep m c).trans (((WritesIn.of_forall hostOps5_writes).take 21).keeps _))) (by decide))
      ((opsS34_in.keeps _).trans (opsS5_in.keeps _)) (by decide))
  rw [show W19 m c = after hostOps5b (after hostOps5a (W18 m c)) by rw [← after_append, ← hostOps5_split]]
  exact ((Sim.binary (a := KernelIdeal.main_v152) (a' := ReferenceIdeal.main_v198) (b := KernelIdeal.main_v260) (b' := ReferenceIdeal.main_v337) (y := KernelIdeal.main_v261) (y' := ReferenceIdeal.main_v338)
    (by decide) (by decide) rfl rfl rfl HEq.rfl (by decide) (by decide) (Sim.done (List.Subset.refl _))) _ _ a12).get List.mem_cons_self

end Bridge

end Cert.Hand.Bridge

end
-- ==== Proof.lean ====
/-
  A three-term sensor-fusion loss computed with five kernel regions, against its whole-array reference, over the
  extended reals. Frames: no host stretch writes an argument array and the regions only read them. Values: the shared
  host operations are stepped in lockstep; a packed scatter-add is three scatter-adds column by column; a sum over all
  rows is the sum over blocks of block sums; and a squared distance expands, for real entries, into the reference's form.
-/
import proofs.«119071_j16140487098675_2_alg».proof.Defs
import proofs.«119071_j16140487098675_2_alg».proof.Proof.Gen.Kernel
import proofs.«119071_j16140487098675_2_alg».proof.Proof.Gen.KernelIdeal
import proofs.«119071_j16140487098675_2_alg».proof.Proof.Gen.ReferenceIdeal
import proofs.«119071_j16140487098675_2_alg».proof.Proof.Gen.Pre_finite_inputs
import proofs.«119071_j16140487098675_2_alg».proof.Proof.K.Run
import proofs.«119071_j16140487098675_2_alg».proof.Proof.KI.Run
import proofs.«119071_j16140487098675_2_alg».proof.Proof.RefRun
import proofs.«119071_j16140487098675_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => by
    and_intros <;> exact (h c _).trans (Cert.Hand.Bridge.ref_after_arg _ _ (by decide)))
    (Cert.ReferenceIdeal.ValueP.run_ops (F := Ideal) m ρ)

-- Both runs end at the fold of their operations; the two folds give equal results (Bridge).
theorem algebraic : Cert.algebraic_KernelIdeal_ReferenceIdeal := by
  intro m ρ m' ρ' hpre hagree
  refine ⟨fun c => Cert.KernelIdeal.Hand.W19 (F := Ideal) m c (Proc.devRef .tc Cert.KernelIdeal.main_v261), ?_, ?_⟩
  · exact (θ_run Cert.KernelIdeal.defs _ _).mono (fun _ h c => by
      refine ⟨(h c).1 _ (Cert.KernelIdeal.Hand.mem_uc Cert.KernelIdeal.main_v261 (by decide)), ?_⟩
      and_intros <;> exact (h c).2 _ (by decide))
      (Cert.KernelIdeal.Hand.run_args (F := Ideal) m ρ)
  · exact (θ_run Cert.ReferenceIdeal.defs _ _).mono (fun _ h c => by
      refine ⟨(h c Cert.ReferenceIdeal.main_v338).trans (eq_of_heq (Cert.Hand.Bridge.result_heq m m' c hpre hagree).symm), ?_⟩
      and_intros <;> exact (h c _).trans (Cert.Hand.Bridge.ref_after_arg _ _ (by decide)))
      (Cert.ReferenceIdeal.ValueP.run_ops (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
